-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S512x128 : Shape := ⟨2, ![512, 128]⟩
abbrev S500000 : Shape := ⟨1, ![500000]⟩
abbrev S2x128x128 : Shape := ⟨3, ![2, 128, 128]⟩
abbrev S2x128 : Shape := ⟨2, ![2, 128]⟩
abbrev S2x500000 : Shape := ⟨2, ![2, 500000]⟩
abbrev S_ : Shape := ⟨0, ![]⟩
abbrev S1x500000 : Shape := ⟨2, ![1, 500000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S500000 : S_.BroadcastsInDim S500000 (![] : Fin 0 → Fin S500000.rank)
  reducesTo_S500000_S_d0 : S500000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  slices_S2x500000_S1x500000_0_0 : S2x500000.Slices ![0, 0] S1x500000
  shapeCasts_S1x500000_S500000 : S1x500000.ShapeCasts S500000
  slices_S2x500000_S1x500000_1_0 : S2x500000.Slices ![1, 0] S1x500000

variable [Facts]

def fn_part4 {F : FTy → Type} [FloatOps F] (main_arg11 : IVec S2x500000 32) (main_v65 : IVec S_ 1) (main_v67 : IVec S500000 32) : IVec S_ 1 :=
  let main_c_26 : IVec S_ 32 := constantI S_ 32 100000#32
  let main_v68 : IVec S500000 32 := broadcastInDim S500000 ![] bcast_S_S500000 main_c_26
  let main_v69 : IVec S500000 1 := cmpi .slt main_v67 main_v68
  let main_c_27 : IVec S_ 1 := constantI S_ 1 1#1
  let main_v70 : IVec S_ 1 := (fun x v => Host.reduce IntOp.andi x v reducesTo_S500000_S_d0 h_S_) main_v69 main_c_27
  let main_v71 : IVec S_ 1 := andi main_v65 main_v70
  let main_v72 : IVec S1x500000 32 := (extractStridedSlice S1x500000 ![1, 0] · slices_S2x500000_S1x500000_1_0) main_arg11
  let main_v73 : IVec S500000 32 := shapeCast S500000 main_v72 shapeCasts_S1x500000_S500000
  let main_c_28 : IVec S_ 32 := constantI S_ 32 0#32
  let main_v74 : IVec S500000 32 := broadcastInDim S500000 ![] bcast_S_S500000 main_c_28
  let main_v75 : IVec S500000 1 := cmpi .sge main_v73 main_v74
  let main_c_29 : IVec S_ 1 := constantI S_ 1 1#1
  let main_v76 : IVec S_ 1 := (fun x v => Host.reduce IntOp.andi x v reducesTo_S500000_S_d0 h_S_) main_v75 main_c_29
  let main_v77 : IVec S_ 1 := andi main_v71 main_v76
  let main_v78 : IVec S1x500000 32 := (extractStridedSlice S1x500000 ![1, 0] · slices_S2x500000_S1x500000_1_0) main_arg11
  let main_v79 : IVec S500000 32 := shapeCast S500000 main_v78 shapeCasts_S1x500000_S500000
  let main_c_30 : IVec S_ 32 := constantI S_ 32 512#32
  let main_v80 : IVec S500000 32 := broadcastInDim S500000 ![] bcast_S_S500000 main_c_30
  let main_v81 : IVec S500000 1 := cmpi .slt main_v79 main_v80
  let main_c_31 : IVec S_ 1 := constantI S_ 1 1#1
  let main_v82 : IVec S_ 1 := (fun x v => Host.reduce IntOp.andi x v reducesTo_S500000_S_d0 h_S_) main_v81 main_c_31
  let main_v83 : IVec S_ 1 := andi main_v77 main_v82
  main_v83

def fn_part3 {F : FTy → Type} [FloatOps F] (main_arg10 : IVec S500000 32) (main_arg11 : IVec S2x500000 32) (main_v47 : IVec S_ 1) (main_v49 : IVec S500000 1) (main_c_19 : IVec S_ 1) : IVec S_ 1 :=
  let main_v50 : IVec S_ 1 := (fun x v => Host.reduce IntOp.andi x v reducesTo_S500000_S_d0 h_S_) main_v49 main_c_19
  let main_v51 : IVec S_ 1 := andi main_v47 main_v50
  let main_c_20 : IVec S_ 32 := constantI S_ 32 0#32
  let main_v52 : IVec S500000 32 := broadcastInDim S500000 ![] bcast_S_S500000 main_c_20
  let main_v53 : IVec S500000 1 := cmpi .sge main_arg10 main_v52
  let main_c_21 : IVec S_ 1 := constantI S_ 1 1#1
  let main_v54 : IVec S_ 1 := (fun x v => Host.reduce IntOp.andi x v reducesTo_S500000_S_d0 h_S_) main_v53 main_c_21
  let main_v55 : IVec S_ 1 := andi main_v51 main_v54
  let main_c_22 : IVec S_ 32 := constantI S_ 32 512#32
  let main_v56 : IVec S500000 32 := broadcastInDim S500000 ![] bcast_S_S500000 main_c_22
  let main_v57 : IVec S500000 1 := cmpi .slt main_arg10 main_v56
  let main_c_23 : IVec S_ 1 := constantI S_ 1 1#1
  let main_v58 : IVec S_ 1 := (fun x v => Host.reduce IntOp.andi x v reducesTo_S500000_S_d0 h_S_) main_v57 main_c_23
  let main_v59 : IVec S_ 1 := andi main_v55 main_v58
  let main_v60 : IVec S1x500000 32 := (extractStridedSlice S1x500000 ![0, 0] · slices_S2x500000_S1x500000_0_0) main_arg11
  let main_v61 : IVec S500000 32 := shapeCast S500000 main_v60 shapeCasts_S1x500000_S500000
  let main_c_24 : IVec S_ 32 := constantI S_ 32 0#32
  let main_v62 : IVec S500000 32 := broadcastInDim S500000 ![] bcast_S_S500000 main_c_24
  let main_v63 : IVec S500000 1 := cmpi .sge main_v61 main_v62
  let main_c_25 : IVec S_ 1 := constantI S_ 1 1#1
  let main_v64 : IVec S_ 1 := (fun x v => Host.reduce IntOp.andi x v reducesTo_S500000_S_d0 h_S_) main_v63 main_c_25
  let main_v65 : IVec S_ 1 := andi main_v59 main_v64
  let main_v66 : IVec S1x500000 32 := (extractStridedSlice S1x500000 ![0, 0] · slices_S2x500000_S1x500000_0_0) main_arg11
  let main_v67 : IVec S500000 32 := shapeCast S500000 main_v66 shapeCasts_S1x500000_S500000
  fn_part4 (F := F) main_arg11 main_v65 main_v67

def fn_part2 {F : FTy → Type} [FloatOps F] (main_arg7 : FVec F S2x128 .f32) (main_arg8 : FVec F S2x128 .f32) (main_arg9 : IVec S500000 32) (main_arg10 : IVec S500000 32) (main_arg11 : IVec S2x500000 32) (main_v33 : IVec S_ 1) : IVec S_ 1 :=
  let main_v34 : FVec F S2x128 .f32 := Host.absf main_arg7
  let main_cst_12 : FVec F S_ .f32 := constant S_ .f32 0x7F800000#32
  let main_v35 : FVec F S2x128 .f32 := broadcastInDim S2x128 ![] bcast_S_S2x128 main_cst_12
  let main_v36 : IVec S2x128 1 := cmpf .olt main_v34 main_v35
  let main_c_13 : IVec S_ 1 := constantI S_ 1 1#1
  let main_v37 : IVec S_ 1 := (fun x v => Host.reduce IntOp.andi x v reducesTo_S2x128_S_d0_1 h_S_) main_v36 main_c_13
  let main_v38 : IVec S_ 1 := andi main_v33 main_v37
  let main_v39 : FVec F S2x128 .f32 := Host.absf main_arg8
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_c_16 : IVec S_ 32 := constantI S_ 32 0#32
  let main_v44 : IVec S500000 32 := broadcastInDim S500000 ![] bcast_S_S500000 main_c_16
  let main_v45 : IVec S500000 1 := cmpi .sge main_arg9 main_v44
  let main_c_17 : IVec S_ 1 := constantI S_ 1 1#1
  let main_v46 : IVec S_ 1 := (fun x v => Host.reduce IntOp.andi x v reducesTo_S500000_S_d0 h_S_) main_v45 main_c_17
  let main_v47 : IVec S_ 1 := andi main_v43 main_v46
  let main_c_18 : IVec S_ 32 := constantI S_ 32 100000#32
  let main_v48 : IVec S500000 32 := broadcastInDim S500000 ![] bcast_S_S500000 main_c_18
  let main_v49 : IVec S500000 1 := cmpi .slt main_arg9 main_v48
  let main_c_19 : IVec S_ 1 := constantI S_ 1 1#1
  fn_part3 (F := F) main_arg10 main_arg11 main_v47 main_v49 main_c_19

def fn_part1 {F : FTy → Type} [FloatOps F] (main_arg4 : FVec F S2x128x128 .f32) (main_arg5 : FVec F S2x128x128 .f32) (main_arg6 : FVec F S2x128x128 .f32) (main_arg7 : FVec F S2x128 .f32) (main_arg8 : FVec F S2x128 .f32) (main_arg9 : IVec S500000 32) (main_arg10 : IVec S500000 32) (main_arg11 : IVec S2x500000 32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128x128 .f32 := Host.absf main_arg4
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128x128 .f32 := Host.absf main_arg5
  let main_cst_8 : FVec F S_ .f32 := constant S_ .f32 0x7F800000#32
  let main_v25 : FVec F S2x128x128 .f32 := broadcastInDim S2x128x128 ![] bcast_S_S2x128x128 main_cst_8
  let main_v26 : IVec S2x128x128 1 := cmpf .olt main_v24 main_v25
  let main_c_9 : IVec S_ 1 := constantI S_ 1 1#1
  let main_v27 : IVec S_ 1 := (fun x v => Host.reduce IntOp.andi x v reducesTo_S2x128x128_S_d0_1_2 h_S_) main_v26 main_c_9
  let main_v28 : IVec S_ 1 := andi main_v23 main_v27
  let main_v29 : FVec F S2x128x128 .f32 := Host.absf main_arg6
  let main_cst_10 : FVec F S_ .f32 := constant S_ .f32 0x7F800000#32
  let main_v30 : FVec F S2x128x128 .f32 := broadcastInDim S2x128x128 ![] bcast_S_S2x128x128 main_cst_10
  let main_v31 : IVec S2x128x128 1 := cmpf .olt main_v29 main_v30
  let main_c_11 : IVec S_ 1 := constantI S_ 1 1#1
  let main_v32 : IVec S_ 1 := (fun x v => Host.reduce IntOp.andi x v reducesTo_S2x128x128_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x128 .f32) (main_arg1 : FVec F S512x128 .f32) (main_arg2 : FVec F S500000 .f32) (main_arg3 : FVec F S2x128x128 .f32) (main_arg4 : FVec F S2x128x128 .f32) (main_arg5 : FVec F S2x128x128 .f32) (main_arg6 : FVec F S2x128x128 .f32) (main_arg7 : FVec F S2x128 .f32) (main_arg8 : FVec F S2x128 .f32) (main_arg9 : IVec S500000 32) (main_arg10 : IVec S500000 32) (main_arg11 : IVec S2x500000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S500000 .f32 := Host.absf main_arg2
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  let main_v14 : FVec F S2x128x128 .f32 := Host.absf main_arg3
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg4 main_arg5 main_arg6 main_arg7 main_arg8 main_arg9 main_arg10 main_arg11 main_v13 main_v16
-- ==== Kernel.lean ====
abbrev S100000x128 : Shape := ⟨2, ![100000, 128]⟩
abbrev S512x128 : Shape := ⟨2, ![512, 128]⟩
abbrev S500000 : Shape := ⟨1, ![500000]⟩
abbrev S2x128x128 : Shape := ⟨3, ![2, 128, 128]⟩
abbrev S2x128 : Shape := ⟨2, ![2, 128]⟩
abbrev S2x500000 : Shape := ⟨2, ![2, 500000]⟩
abbrev S_ : Shape := ⟨0, ![]⟩
abbrev S51200000 : Shape := ⟨1, ![51200000]⟩
abbrev S500000x1 : Shape := ⟨2, ![500000, 1]⟩
abbrev S100000x512 : Shape := ⟨2, ![100000, 512]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2000x128 : Shape := ⟨2, ![2000, 128]⟩
abbrev S2000x512 : Shape := ⟨2, ![2000, 512]⟩
abbrev S2000 : Shape := ⟨1, ![2000]⟩
abbrev S2000x1 : Shape := ⟨2, ![2000, 1]⟩
abbrev S512 : Shape := ⟨1, ![512]⟩
abbrev S512x1 : Shape := ⟨2, ![512, 1]⟩
abbrev S1x500000 : Shape := ⟨2, ![1, 500000]⟩
abbrev S1 : Shape := ⟨1, ![1]⟩
abbrev S1x1 : Shape := ⟨2, ![1, 1]⟩

abbrev nBuf : Space → Nat
  | .hbm => 86
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S512x128, .f32⟩
  | .hbm, ⟨2, _⟩ => ⟨S500000, .f32⟩
  | .hbm, ⟨3, _⟩ => ⟨S2x128x128, .f32⟩
  | .hbm, ⟨4, _⟩ => ⟨S2x128x128, .f32⟩
  | .hbm, ⟨5, _⟩ => ⟨S2x128x128, .f32⟩
  | .hbm, ⟨6, _⟩ => ⟨S2x128x128, .f32⟩
  | .hbm, ⟨7, _⟩ => ⟨S2x128, .f32⟩
  | .hbm, ⟨8, _⟩ => ⟨S2x128, .f32⟩
  | .hbm, ⟨9, _⟩ => ⟨S500000, .i32⟩
  | .hbm, ⟨10, _⟩ => ⟨S500000, .i32⟩
  | .hbm, ⟨11, _⟩ => ⟨S2x500000, .i32⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S_, .f32⟩
  | .hbm, ⟨17, _⟩ => ⟨S51200000, .f32⟩
  | .hbm, ⟨18, _⟩ => ⟨S500000x1, .i32⟩
  | .hbm, ⟨19, _⟩ => ⟨S51200000, .f32⟩
  | .hbm, ⟨20, _⟩ => ⟨S100000x512, .f32⟩
  | .hbm, ⟨21, _⟩ => ⟨S1x128x128, .f32⟩
  | .hbm, ⟨22, _⟩ => ⟨S128x128, .f32⟩
  | .hbm, ⟨23, _⟩ => ⟨S1x128x128, .f32⟩
  | .hbm, ⟨24, _⟩ => ⟨S128x128, .f32⟩
  | .hbm, ⟨25, _⟩ => ⟨S1x128x128, .f32⟩
  | .hbm, ⟨26, _⟩ => ⟨S128x128, .f32⟩
  | .hbm, ⟨27, _⟩ => ⟨S1x128x128, .f32⟩
  | .hbm, ⟨28, _⟩ => ⟨S128x128, .f32⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S128, .f32⟩
  | .hbm, ⟨33, _⟩ => ⟨S1x128, .f32⟩
  | .hbm, ⟨34, _⟩ => ⟨S1x128, .f32⟩
  | .hbm, ⟨35, _⟩ => ⟨S100000x128, .f32⟩
  | .hbm, ⟨36, _⟩ => ⟨S512x128, .f32⟩
  | .hbm, ⟨37, _⟩ => ⟨S1x128x128, .f32⟩
  | .hbm, ⟨38, _⟩ => ⟨S128x128, .f32⟩
  | .hbm, ⟨39, _⟩ => ⟨S1x128x128, .f32⟩
  | .hbm, ⟨40, _⟩ => ⟨S128x128, .f32⟩
  | .hbm, ⟨41, _⟩ => ⟨S1x128x128, .f32⟩
  | .hbm, ⟨42, _⟩ => ⟨S128x128, .f32⟩
  | .hbm, ⟨43, _⟩ => ⟨S1x128x128, .f32⟩
  | .hbm, ⟨44, _⟩ => ⟨S128x128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S1x128, .f32⟩
  | .hbm, ⟨51, _⟩ => ⟨S100000x128, .f32⟩
  | .hbm, ⟨52, _⟩ => ⟨S512x128, .f32⟩
  | .hbm, ⟨53, _⟩ => ⟨S100000x512, .f32⟩
  | .hbm, ⟨54, _⟩ => ⟨S1x500000, .i32⟩
  | .hbm, ⟨55, _⟩ => ⟨S500000, .i32⟩
  | .hbm, ⟨56, _⟩ => ⟨S1x500000, .i32⟩
  | .hbm, ⟨57, _⟩ => ⟨S500000, .i32⟩
  | .hbm, ⟨58, _⟩ => ⟨S_, .i32⟩
  | .hbm, ⟨59, _⟩ => ⟨S500000, .i32⟩
  | .hbm, ⟨60, _⟩ => ⟨S500000, .i32⟩
  | .hbm, ⟨61, _⟩ => ⟨S500000, .i32⟩
  | .hbm, ⟨62, _⟩ => ⟨S51200000, .f32⟩
  | .hbm, ⟨63, _⟩ => ⟨S_, .i32⟩
  | .hbm, ⟨64, _⟩ => ⟨S500000, .i32⟩
  | .hbm, ⟨65, _⟩ => ⟨S500000, .i1⟩
  | .hbm, ⟨66, _⟩ => ⟨S_, .i32⟩
  | .hbm, ⟨67, _⟩ => ⟨S500000, .i32⟩
  | .hbm, ⟨68, _⟩ => ⟨S500000, .i32⟩
  | .hbm, ⟨69, _⟩ => ⟨S500000, .i32⟩
  | .hbm, ⟨70, _⟩ => ⟨S500000x1, .i32⟩
  | .hbm, ⟨71, _⟩ => ⟨S1, .i32⟩
  | .hbm, ⟨72, _⟩ => ⟨S_, .i32⟩
  | .hbm, ⟨73, _⟩ => ⟨S500000x1, .i32⟩
  | .hbm, ⟨74, _⟩ => ⟨S500000x1, .i1⟩
  | .hbm, ⟨75, _⟩ => ⟨S1x1, .i32⟩
  | .hbm, ⟨76, _⟩ => ⟨S500000x1, .i32⟩
  | .hbm, ⟨77, _⟩ => ⟨S500000x1, .i1⟩
  | .hbm, ⟨78, _⟩ => ⟨S500000x1, .i1⟩
  | .hbm, ⟨79, _⟩ => ⟨S_, .i1⟩
  | .hbm, ⟨80, _⟩ => ⟨S500000, .i1⟩
  | .hbm, ⟨81, _⟩ => ⟨S500000, .f32⟩
  | .hbm, ⟨82, _⟩ => ⟨S_, .f32⟩
  | .hbm, ⟨83, _⟩ => ⟨S500000, .f32⟩
  | .hbm, ⟨84, _⟩ => ⟨S500000, .f32⟩
  | .hbm, ⟨85, _⟩ => ⟨S500000x1, .f32⟩
  | .local _ .vmem, ⟨0, _⟩ => ⟨S2000x128, .f32⟩
  | .local _ .vmem, ⟨1, _⟩ => ⟨S2000x128, .f32⟩
  | .local _ .vmem, ⟨2, _⟩ => ⟨S2000x512, .f32⟩
  | .local _ .vmem, ⟨3, _⟩ => ⟨S2000x512, .f32⟩
  | .local _ .vmem, ⟨4, _⟩ => ⟨S512x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S512x128, .f32⟩
  | .local _ .vmem, ⟨14, _⟩ => ⟨S512x128, .f32⟩
  | .local _ .vmem, ⟨15, _⟩ => ⟨S2000x128, .f32⟩
  | .local _ .vmem, ⟨16, _⟩ => ⟨S2000x128, .f32⟩
  | .local _ .vmem, ⟨17, _⟩ => ⟨S2000x512, .f32⟩
  | .local _ .vmem, ⟨18, _⟩ => ⟨S2000x512, .f32⟩
  | .local _ .vmem, ⟨19, _⟩ => ⟨S512x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S512x128, .f32⟩
  | .local _ .vmem, ⟨29, _⟩ => ⟨S512x128, .f32⟩
  | .local _ .vmem, ⟨30, _⟩ => ⟨S2000x128, .f32⟩
  | .local _ .vmem, ⟨31, _⟩ => ⟨S2000x128, .f32⟩
  | .local _ .vmem, ⟨32, _⟩ => ⟨S512x128, .f32⟩
  | .local _ .vmem, ⟨33, _⟩ => ⟨S2000x512, .f32⟩
  | .local _ .vmem, ⟨34, _⟩ => ⟨S2000x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21_0 : Ref sig .tc := ⟨.hbm, 35, rfl⟩
abbrev main_v21_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36_0 : Ref sig .tc := ⟨.hbm, 51, rfl⟩
abbrev main_v36_1 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_0 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_call0_c : Ref sig .tc := ⟨.hbm, 63, rfl⟩
abbrev main_call0_v0 : Ref sig .tc := ⟨.hbm, 64, rfl⟩
abbrev main_call0_v1 : Ref sig .tc := ⟨.hbm, 65, rfl⟩
abbrev main_call0_c_0 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_v5 : Ref sig .tc := ⟨.hbm, 70, rfl⟩
abbrev main_call0_c_1 : Ref sig .tc := ⟨.hbm, 71, rfl⟩
abbrev main_call0_c_2 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_call0_c_3 : Ref sig .tc := ⟨.hbm, 79, rfl⟩
abbrev main_call0_v12 : Ref sig .tc := ⟨.hbm, 80, rfl⟩
abbrev main_call0_v13 : Ref sig .tc := ⟨.hbm, 81, rfl⟩
abbrev main_call0_cst : Ref sig .tc := ⟨.hbm, 82, rfl⟩
abbrev main_call0_v14 : Ref sig .tc := ⟨.hbm, 83, rfl⟩
abbrev main_v46 : Ref sig .tc := ⟨.hbm, 84, rfl⟩
abbrev main_v47 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_scratch0 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg2_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem9_1 : DmaSem sig := 26
abbrev cc1_sem10_0 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem2_1 : DmaSem sig := 32

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c49_i32 : BitVec 32 := 49#32
  let v68 : BitVec 1 := Scalar.cmpi .eq arg0 c49_i32
  let v69 : BitVec 32 := Scalar.extui v68
  let c0_i32_35 : BitVec 32 := 0#32
  let v70 : BitVec 1 := Scalar.cmpi .ne v69 c0_i32_35
  v70

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S512x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![50], ![false]⟩

def k1_cond2 (i : grid1.Coords) : BitVec 1 :=
  let arg0 : BitVec 32 := BitVec.ofNat 32 (i 0).val
  let c49_i32 : BitVec 32 := 49#32
  let v52 : BitVec 1 := Scalar.cmpi .eq arg0 c49_i32
  let v53 : BitVec 32 := Scalar.extui v52
  let c0_i32_30 : BitVec 32 := 0#32
  let v54 : BitVec 1 := Scalar.cmpi .ne v53 c0_i32_30
  v54

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S512x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S512x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  bcast_S_S500000 : S_.BroadcastsInDim S500000 (![] : Fin 0 → Fin S500000.rank)
  bcast_S_S51200000 : S_.BroadcastsInDim S51200000 (![] : Fin 0 → Fin S51200000.rank)
  bcast_S500000_S500000x1_0 : S500000.BroadcastsInDim S500000x1 (![0] : Fin 1 → Fin S500000x1.rank)
  shapeCasts_S51200000_S100000x512 : S51200000.ShapeCasts S100000x512
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2000x128_S2000x128_0_0 : ∀ a, (![0, 0] : Fin 2 → Nat) a + S2000x128.size a ≤ S2000x128.size a
  h_S2000x128 : 0 < S2000x128.numel
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  reduces_S2000x128_S2000 : S2000x128.Reduces [1] S2000
  shapeCasts_S2000_S2000x1 : S2000.ShapeCasts S2000x1
  broadcasts_S2000x1_S2000x128 : S2000x1.Broadcasts S2000x128
  reduces_S512x128_S512 : S512x128.Reduces [1] S512
  shapeCasts_S512_S512x1 : S512.ShapeCasts S512x1
  broadcasts_S512x1_S512x128 : S512x1.Broadcasts S512x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  broadcasts_S1x128_S512x128 : S1x128.Broadcasts S512x128
  slices_S2x128x128_S1x128x128_1_0_0 : S2x128x128.Slices ![1, 0, 0] S1x128x128
  slices_S2x128_S1x128_1_0 : S2x128.Slices ![1, 0] S1x128
  shapeCasts_S2000x128_S2000x128 : S2000x128.ShapeCasts S2000x128
  slices_S2x500000_S1x500000_0_0 : S2x500000.Slices ![0, 0] S1x500000
  shapeCasts_S1x500000_S500000 : S1x500000.ShapeCasts S500000
  slices_S2x500000_S1x500000_1_0 : S2x500000.Slices ![1, 0] S1x500000
  shapeCasts_S100000x512_S51200000 : S100000x512.ShapeCasts S51200000
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  scatter_S51200000_S500000x1_S500000_n_0_0_1_wf : ScatterDims.WF S51200000 S500000x1 S500000 [] [0] [0] 1
  dot_S2000x128_S128x128_S2000x128_1_0_0_1_n_n_wf : DotDims.WF S2000x128 S128x128 S2000x128 [1] [0] [0] [1] [] []
  dot_S512x128_S128x128_S512x128_1_0_0_1_n_n_wf : DotDims.WF S512x128 S128x128 S512x128 [1] [0] [0] [1] [] []
  dot_S2000x512_S2000x128_S512x128_0_0_1_1_n_n_wf : DotDims.WF S2000x512 S2000x128 S512x128 [0] [0] [1] [1] [] []
  dot_S2000x512_S512x128_S2000x128_1_0_0_1_n_n_wf : DotDims.WF S2000x512 S512x128 S2000x128 [1] [0] [0] [1] [] []
  dot_S2000x128_S512x128_S2000x512_1_1_0_0_n_n_wf : DotDims.WF S2000x128 S512x128 S2000x512 [1] [1] [0] [0] [] []
  gather_S51200000_S500000x1_S500000_n_0_n_n_0_1_1_wf : GatherDims.WF S51200000 S500000x1 S500000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S100000x512.size a
  hwx0_1 : ∀ i : grid0.Coords, EltTy.bits .f32 = 32 ∨ (Rect.block (s := S100000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x128.size a ≤ S512x128.size a
  hwx0_10 : ∀ i : grid0.Coords, EltTy.bits .f32 = 32 ∨ (Rect.block (s := S512x128) S512x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S100000x512.size a
  hwx1_1 : ∀ i : grid1.Coords, EltTy.bits .f32 = 32 ∨ (Rect.block (s := S100000x512) S2000x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S512x128.size a
  hwx1_2 : ∀ i : grid1.Coords, EltTy.bits .f32 = 32 ∨ (Rect.block (s := S512x128) S512x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x128.size a ≤ S100000x128.size a
  hwx1_9 : ∀ i : grid1.Coords, EltTy.bits .f32 = 32 ∨ (Rect.block (s := S100000x128) S2000x128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S512x128.size a ≤ S512x128.size a
  hwx1_10 : ∀ i : grid1.Coords, EltTy.bits .f32 = 32 ∨ (Rect.block (s := S512x128) S512x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S512x128.size a
  hwx2_1 : ∀ i : grid2.Coords, EltTy.bits .f32 = 32 ∨ (Rect.block (s := S512x128) S512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x512.size a ≤ S100000x512.size a
  hwx2_2 : ∀ i : grid2.Coords, EltTy.bits .f32 = 32 ∨ (Rect.block (s := S100000x512) S2000x512.size (cc2_transform_2 i) (hinb2_2 i)).WholeWords (EltTy.packing .f32)

variable [Facts₀]

def scatter_S51200000_S500000x1_S500000_n_0_0_1 : ScatterDims S51200000 S500000x1 S500000 where
  updateWindowDims := []
  insertedWindowDims := [0]
  scatterDimsToOperandDims := [0]
  indexVectorDim := 1
  wf := scatter_S51200000_S500000x1_S500000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S2000x512_S2000x128_S512x128_0_0_1_1_n_n : DotDims S2000x512 S2000x128 S512x128 where
  lhsContracting := [0]
  rhsContracting := [0]
  lhsNonContracting := [1]
  rhsNonContracting := [1]
  lhsBatch := []
  rhsBatch := []
  wf := dot_S2000x512_S2000x128_S512x128_0_0_1_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S512x128_S2000x512_1_1_0_0_n_n : DotDims S2000x128 S512x128 S2000x512 where
  lhsContracting := [1]
  rhsContracting := [1]
  lhsNonContracting := [0]
  rhsNonContracting := [0]
  lhsBatch := []
  rhsBatch := []
  wf := dot_S2000x128_S512x128_S2000x512_1_1_0_0_n_n_wf
def gather_S51200000_S500000x1_S500000_n_0_n_n_0_1_1 : GatherDims S51200000 S500000x1 S500000 where
  offsetDims := []
  collapsedSliceDims := [0]
  operandBatchingDims := []
  startIndicesBatchingDims := []
  startIndexMap := [0]
  indexVectorDim := 1
  sliceSizes := ![1]
  wf := gather_S51200000_S500000x1_S500000_n_0_n_n_0_1_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v21_1) S512x128.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

abbrev win1_0 : Pipeline.Window sig grid1 :=
  Pipeline.Window.ofSpec (Memref.whole main_v21_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21_1) S512x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v23) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v29) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v35) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36_0) S2000x128.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v36_1) S512x128.size cc1_transform_10 reads1_10 true true 1 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k1_cond2 i == 1#1) | ⟨_ + 11, h⟩ => absurd h (Nat.not_lt.2 (Nat.le_add_left _ _))

abbrev win2_0 : Pipeline.Window sig grid2 :=
  Pipeline.Window.ofSpec (Memref.whole main_v36_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36_1) S512x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S2000x512.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S512x128 : Shape := ⟨2, ![512, 128]⟩
abbrev S500000 : Shape := ⟨1, ![500000]⟩
abbrev S2x128x128 : Shape := ⟨3, ![2, 128, 128]⟩
abbrev S2x128 : Shape := ⟨2, ![2, 128]⟩
abbrev S2x500000 : Shape := ⟨2, ![2, 500000]⟩
abbrev S_ : Shape := ⟨0, ![]⟩
abbrev S100000 : Shape := ⟨1, ![100000]⟩
abbrev S100000x1 : Shape := ⟨2, ![100000, 1]⟩
abbrev S512 : Shape := ⟨1, ![512]⟩
abbrev S512x1 : Shape := ⟨2, ![512, 1]⟩
abbrev S500000x1 : Shape := ⟨2, ![500000, 1]⟩
abbrev S1x128x128 : Shape := ⟨3, ![1, 128, 128]⟩
abbrev S128x128 : Shape := ⟨2, ![128, 128]⟩
abbrev S500000x128 : Shape := ⟨2, ![500000, 128]⟩
abbrev S1x128 : Shape := ⟨2, ![1, 128]⟩
abbrev S128 : Shape := ⟨1, ![128]⟩
abbrev S128x512 : Shape := ⟨2, ![128, 512]⟩
abbrev S100000x512 : Shape := ⟨2, ![100000, 512]⟩
abbrev S1x500000 : Shape := ⟨2, ![1, 500000]⟩
abbrev S500000x2 : Shape := ⟨2, ![500000, 2]⟩

abbrev nBuf : Space → Nat
  | .hbm => 212
  | .vmem => 0
  | .smem => 0
  | _ => 0

abbrev hbmTy0_0 (i : Nat) : BufTy := match i % 128 with
  | 0 => ⟨S100000x128, .f32⟩
  | 1 => ⟨S512x128, .f32⟩
  | 2 => ⟨S500000, .f32⟩
  | 3 => ⟨S2x128x128, .f32⟩
  | 4 => ⟨S2x128x128, .f32⟩
  | 5 => ⟨S2x128x128, .f32⟩
  | 6 => ⟨S2x128x128, .f32⟩
  | 7 => ⟨S2x128, .f32⟩
  | 8 => ⟨S2x128, .f32⟩
  | 9 => ⟨S500000, .i32⟩
  | 10 => ⟨S500000, .i32⟩
  | 11 => ⟨S2x500000, .i32⟩
  | 12 => ⟨S100000x128, .f32⟩
  | 13 => ⟨S_, .f32⟩
  | 14 => ⟨S100000, .f32⟩
  | 15 => ⟨S100000x1, .f32⟩
  | 16 => ⟨S100000x1, .f32⟩
  | 17 => ⟨S_, .f32⟩
  | 18 => ⟨S100000x1, .f32⟩
  | 19 => ⟨S100000x1, .f32⟩
  | 20 => ⟨S100000x128, .f32⟩
  | 21 => ⟨S100000x128, .f32⟩
  | 22 => ⟨S512x128, .f32⟩
  | 23 => ⟨S_, .f32⟩
  | 24 => ⟨S512, .f32⟩
  | 25 => ⟨S512x1, .f32⟩
  | 26 => ⟨S512x1, .f32⟩
  | 27 => ⟨S_, .f32⟩
  | 28 => ⟨S512x1, .f32⟩
  | 29 => ⟨S512x1, .f32⟩
  | 30 => ⟨S512x128, .f32⟩
  | 31 => ⟨S512x128, .f32⟩
  | 32 => ⟨S500000x1, .f32⟩
  | 33 => ⟨S1x128x128, .f32⟩
  | 34 => ⟨S128x128, .f32⟩
  | 35 => ⟨S100000x128, .f32⟩
  | 36 => ⟨S_, .i32⟩
  | 37 => ⟨S500000, .i32⟩
  | 38 => ⟨S500000, .i1⟩
  | 39 => ⟨S_, .i32⟩
  | 40 => ⟨S500000, .i32⟩
  | 41 => ⟨S500000, .i32⟩
  | 42 => ⟨S500000, .i32⟩
  | 43 => ⟨S500000x1, .i32⟩
  | 44 => ⟨S500000x128, .f32⟩
  | 45 => ⟨S500000x128, .f32⟩
  | 46 => ⟨S500000x128, .f32⟩
  | 47 => ⟨S_, .f32⟩
  | 48 => ⟨S512x128, .f32⟩
  | 49 => ⟨S500000x1, .i32⟩
  | 50 => ⟨S512x128, .f32⟩
  | 51 => ⟨S1x128x128, .f32⟩
  | 52 => ⟨S128x128, .f32⟩
  | 53 => ⟨S512x128, .f32⟩
  | 54 => ⟨S_, .i32⟩
  | 55 => ⟨S500000, .i32⟩
  | 56 => ⟨S500000, .i1⟩
  | 57 => ⟨S_, .i32⟩
  | 58 => ⟨S500000, .i32⟩
  | 59 => ⟨S500000, .i32⟩
  | 60 => ⟨S500000, .i32⟩
  | 61 => ⟨S500000x1, .i32⟩
  | 62 => ⟨S500000x128, .f32⟩
  | 63 => ⟨S500000x128, .f32⟩
  | 64 => ⟨S500000x128, .f32⟩
  | 65 => ⟨S_, .f32⟩
  | 66 => ⟨S100000x128, .f32⟩
  | 67 => ⟨S500000x1, .i32⟩
  | 68 => ⟨S100000x128, .f32⟩
  | 69 => ⟨S1x128x128, .f32⟩
  | 70 => ⟨S128x128, .f32⟩
  | 71 => ⟨S100000x128, .f32⟩
  | 72 => ⟨S100000x128, .f32⟩
  | 73 => ⟨S1x128, .f32⟩
  | 74 => ⟨S128, .f32⟩
  | 75 => ⟨S1x128, .f32⟩
  | 76 => ⟨S100000x128, .f32⟩
  | 77 => ⟨S100000x128, .f32⟩
  | 78 => ⟨S1x128x128, .f32⟩
  | 79 => ⟨S128x128, .f32⟩
  | 80 => ⟨S512x128, .f32⟩
  | 81 => ⟨S512x128, .f32⟩
  | 82 => ⟨S1x128, .f32⟩
  | 83 => ⟨S128, .f32⟩
  | 84 => ⟨S1x128, .f32⟩
  | 85 => ⟨S512x128, .f32⟩
  | 86 => ⟨S512x128, .f32⟩
  | 87 => ⟨S_, .f32⟩
  | 88 => ⟨S100000x128, .f32⟩
  | 89 => ⟨S100000x128, .f32⟩
  | 90 => ⟨S_, .f32⟩
  | 91 => ⟨S512x128, .f32⟩
  | 92 => ⟨S512x128, .f32⟩
  | 93 => ⟨S100000x128, .f32⟩
  | 94 => ⟨S_, .f32⟩
  | 95 => ⟨S100000, .f32⟩
  | 96 => ⟨S100000x1, .f32⟩
  | 97 => ⟨S100000x1, .f32⟩
  | 98 => ⟨S_, .f32⟩
  | 99 => ⟨S100000x1, .f32⟩
  | 100 => ⟨S100000x1, .f32⟩
  | 101 => ⟨S100000x128, .f32⟩
  | 102 => ⟨S100000x128, .f32⟩
  | 103 => ⟨S512x128, .f32⟩
  | 104 => ⟨S_, .f32⟩
  | 105 => ⟨S512, .f32⟩
  | 106 => ⟨S512x1, .f32⟩
  | 107 => ⟨S512x1, .f32⟩
  | 108 => ⟨S_, .f32⟩
  | 109 => ⟨S512x1, .f32⟩
  | 110 => ⟨S512x1, .f32⟩
  | 111 => ⟨S512x128, .f32⟩
  | 112 => ⟨S512x128, .f32⟩
  | 113 => ⟨S1x128x128, .f32⟩
  | 114 => ⟨S128x128, .f32⟩
  | 115 => ⟨S100000x128, .f32⟩
  | 116 => ⟨S_, .i32⟩
  | 117 => ⟨S500000, .i32⟩
  | 118 => ⟨S500000, .i1⟩
  | 119 => ⟨S_, .i32⟩
  | 120 => ⟨S500000, .i32⟩
  | 121 => ⟨S500000, .i32⟩
  | 122 => ⟨S500000, .i32⟩
  | 123 => ⟨S500000x1, .i32⟩
  | 124 => ⟨S500000x128, .f32⟩
  | 125 => ⟨S500000x128, .f32⟩
  | 126 => ⟨S500000x128, .f32⟩
  | 127 => ⟨S_, .f32⟩
  | _ => ⟨S100000x128, .f32⟩

abbrev hbmTy0_1 (i : Nat) : BufTy := match i % 128 with
  | 0 => ⟨S512x128, .f32⟩
  | 1 => ⟨S500000x1, .i32⟩
  | 2 => ⟨S512x128, .f32⟩
  | 3 => ⟨S1x128x128, .f32⟩
  | 4 => ⟨S128x128, .f32⟩
  | 5 => ⟨S512x128, .f32⟩
  | 6 => ⟨S_, .i32⟩
  | 7 => ⟨S500000, .i32⟩
  | 8 => ⟨S500000, .i1⟩
  | 9 => ⟨S_, .i32⟩
  | 10 => ⟨S500000, .i32⟩
  | 11 => ⟨S500000, .i32⟩
  | 12 => ⟨S500000, .i32⟩
  | 13 => ⟨S500000x1, .i32⟩
  | 14 => ⟨S500000x128, .f32⟩
  | 15 => ⟨S500000x128, .f32⟩
  | 16 => ⟨S500000x128, .f32⟩
  | 17 => ⟨S_, .f32⟩
  | 18 => ⟨S100000x128, .f32⟩
  | 19 => ⟨S500000x1, .i32⟩
  | 20 => ⟨S100000x128, .f32⟩
  | 21 => ⟨S1x128x128, .f32⟩
  | 22 => ⟨S128x128, .f32⟩
  | 23 => ⟨S100000x128, .f32⟩
  | 24 => ⟨S100000x128, .f32⟩
  | 25 => ⟨S1x128, .f32⟩
  | 26 => ⟨S128, .f32⟩
  | 27 => ⟨S1x128, .f32⟩
  | 28 => ⟨S100000x128, .f32⟩
  | 29 => ⟨S100000x128, .f32⟩
  | 30 => ⟨S1x128x128, .f32⟩
  | 31 => ⟨S128x128, .f32⟩
  | 32 => ⟨S512x128, .f32⟩
  | 33 => ⟨S512x128, .f32⟩
  | 34 => ⟨S1x128, .f32⟩
  | 35 => ⟨S128, .f32⟩
  | 36 => ⟨S1x128, .f32⟩
  | 37 => ⟨S512x128, .f32⟩
  | 38 => ⟨S512x128, .f32⟩
  | 39 => ⟨S100000x128, .f32⟩
  | 40 => ⟨S_, .f32⟩
  | 41 => ⟨S100000, .f32⟩
  | 42 => ⟨S100000x1, .f32⟩
  | 43 => ⟨S100000x1, .f32⟩
  | 44 => ⟨S_, .f32⟩
  | 45 => ⟨S100000x1, .f32⟩
  | 46 => ⟨S100000x1, .f32⟩
  | 47 => ⟨S100000x128, .f32⟩
  | 48 => ⟨S100000x128, .f32⟩
  | 49 => ⟨S512x128, .f32⟩
  | 50 => ⟨S_, .f32⟩
  | 51 => ⟨S512, .f32⟩
  | 52 => ⟨S512x1, .f32⟩
  | 53 => ⟨S512x1, .f32⟩
  | 54 => ⟨S_, .f32⟩
  | 55 => ⟨S512x1, .f32⟩
  | 56 => ⟨S512x1, .f32⟩
  | 57 => ⟨S512x128, .f32⟩
  | 58 => ⟨S512x128, .f32⟩
  | 59 => ⟨S128x512, .f32⟩
  | 60 => ⟨S100000x512, .f32⟩
  | 61 => ⟨S1x500000, .i32⟩
  | 62 => ⟨S500000, .i32⟩
  | 63 => ⟨S1x500000, .i32⟩
  | 64 => ⟨S500000, .i32⟩
  | 65 => ⟨S_, .i32⟩
  | 66 => ⟨S500000, .i32⟩
  | 67 => ⟨S500000, .i1⟩
  | 68 => ⟨S_, .i32⟩
  | 69 => ⟨S500000, .i32⟩
  | 70 => ⟨S500000, .i32⟩
  | 71 => ⟨S500000, .i32⟩
  | 72 => ⟨S_, .i32⟩
  | 73 => ⟨S500000, .i32⟩
  | 74 => ⟨S500000, .i1⟩
  | 75 => ⟨S_, .i32⟩
  | 76 => ⟨S500000, .i32⟩
  | 77 => ⟨S500000, .i32⟩
  | 78 => ⟨S500000, .i32⟩
  | 79 => ⟨S500000x1, .i32⟩
  | 80 => ⟨S500000x1, .i32⟩
  | 81 => ⟨S500000x2, .i32⟩
  | 82 => ⟨S500000, .f32⟩
  | 83 => ⟨S500000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_call1_v2 : Ref sig .tc := ⟨.hbm, 25, rfl⟩
abbrev main_v5 : Ref sig .tc := ⟨.hbm, 26, rfl⟩
abbrev main_cst_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_1 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_3 : Ref sig .tc := ⟨.hbm, 54, rfl⟩
abbrev main_v29 : Ref sig .tc := ⟨.hbm, 55, rfl⟩
abbrev main_v30 : Ref sig .tc := ⟨.hbm, 56, rfl⟩
abbrev main_c_4 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call2_cst : Ref sig .tc := ⟨.hbm, 87, rfl⟩
abbrev main_call2_v0 : Ref sig .tc := ⟨.hbm, 88, rfl⟩
abbrev main_v59 : Ref sig .tc := ⟨.hbm, 89, rfl⟩
abbrev main_call3_cst : Ref sig .tc := ⟨.hbm, 90, rfl⟩
abbrev main_call3_v0 : Ref sig .tc := ⟨.hbm, 91, rfl⟩
abbrev main_v60 : Ref sig .tc := ⟨.hbm, 92, rfl⟩
abbrev main_call4_v0 : Ref sig .tc := ⟨.hbm, 93, rfl⟩
abbrev main_call4_cst : Ref sig .tc := ⟨.hbm, 94, rfl⟩
abbrev main_call4_v1 : Ref sig .tc := ⟨.hbm, 95, rfl⟩
abbrev main_call4_v2 : Ref sig .tc := ⟨.hbm, 96, rfl⟩
abbrev main_v61 : Ref sig .tc := ⟨.hbm, 97, rfl⟩
abbrev main_cst_6 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_call5_v0 : Ref sig .tc := ⟨.hbm, 103, rfl⟩
abbrev main_call5_cst : Ref sig .tc := ⟨.hbm, 104, rfl⟩
abbrev main_call5_v1 : Ref sig .tc := ⟨.hbm, 105, rfl⟩
abbrev main_call5_v2 : Ref sig .tc := ⟨.hbm, 106, rfl⟩
abbrev main_v66 : Ref sig .tc := ⟨.hbm, 107, rfl⟩
abbrev main_cst_7 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_8 : Ref sig .tc := ⟨.hbm, 116, rfl⟩
abbrev main_v74 : Ref sig .tc := ⟨.hbm, 117, rfl⟩
abbrev main_v75 : Ref sig .tc := ⟨.hbm, 118, rfl⟩
abbrev main_c_9 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_10 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_c_11 : Ref sig .tc := ⟨.hbm, 134, rfl⟩
abbrev main_v89 : Ref sig .tc := ⟨.hbm, 135, rfl⟩
abbrev main_v90 : Ref sig .tc := ⟨.hbm, 136, rfl⟩
abbrev main_c_12 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_cst_13 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_call6_v0 : Ref sig .tc := ⟨.hbm, 167, rfl⟩
abbrev main_call6_cst : Ref sig .tc := ⟨.hbm, 168, rfl⟩
abbrev main_call6_v1 : Ref sig .tc := ⟨.hbm, 169, rfl⟩
abbrev main_call6_v2 : Ref sig .tc := ⟨.hbm, 170, rfl⟩
abbrev main_v119 : Ref sig .tc := ⟨.hbm, 171, rfl⟩
abbrev main_cst_14 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_call7_v0 : Ref sig .tc := ⟨.hbm, 177, rfl⟩
abbrev main_call7_cst : Ref sig .tc := ⟨.hbm, 178, rfl⟩
abbrev main_call7_v1 : Ref sig .tc := ⟨.hbm, 179, rfl⟩
abbrev main_call7_v2 : Ref sig .tc := ⟨.hbm, 180, rfl⟩
abbrev main_v124 : Ref sig .tc := ⟨.hbm, 181, rfl⟩
abbrev main_cst_15 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_c_16 : Ref sig .tc := ⟨.hbm, 193, rfl⟩
abbrev main_v135 : Ref sig .tc := ⟨.hbm, 194, rfl⟩
abbrev main_v136 : Ref sig .tc := ⟨.hbm, 195, rfl⟩
abbrev main_c_17 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_c_18 : Ref sig .tc := ⟨.hbm, 200, rfl⟩
abbrev main_v140 : Ref sig .tc := ⟨.hbm, 201, rfl⟩
abbrev main_v141 : Ref sig .tc := ⟨.hbm, 202, rfl⟩
abbrev main_c_19 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩

abbrev nD : Nat := 1
abbrev τ : Topo := Topo.v7x

variable {F : FTy → Type} [FloatOps F]

class Facts₀ : Prop where
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  reducesTo_S512x128_S512_d1 : S512x128.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x128_0_1 : S512x1.BroadcastsInDim S512x128 (![0, 1] : Fin 2 → Fin S512x128.rank)
  bcast_S500000_S500000x1_0 : S500000.BroadcastsInDim S500000x1 (![0] : Fin 1 → Fin S500000x1.rank)
  slices_S2x128x128_S1x128x128_0_0_0 : S2x128x128.Slices ![0, 0, 0] S1x128x128
  shapeCasts_S1x128x128_S128x128 : S1x128x128.ShapeCasts S128x128
  bcast_S_S500000 : S_.BroadcastsInDim S500000 (![] : Fin 0 → Fin S500000.rank)
  bcast_S500000x1_S500000x128_0_1 : S500000x1.BroadcastsInDim S500000x128 (![0, 1] : Fin 2 → Fin S500000x128.rank)
  bcast_S_S512x128 : S_.BroadcastsInDim S512x128 (![] : Fin 0 → Fin S512x128.rank)
  bcast_S_S100000x128 : S_.BroadcastsInDim S100000x128 (![] : Fin 0 → Fin S100000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1x128_S512x128_0_1 : S1x128.BroadcastsInDim S512x128 (![0, 1] : Fin 2 → Fin S512x128.rank)
  slices_S2x128x128_S1x128x128_1_0_0 : S2x128x128.Slices ![1, 0, 0] S1x128x128
  slices_S2x128_S1x128_1_0 : S2x128.Slices ![1, 0] S1x128
  transposes_S512x128_S128x512_1_0 : S512x128.Transposes [1, 0] S128x512
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000x1_S500000x1_S500000x2_d1 : Shape.Concatenates [S500000x1, S500000x1] S500000x2 1
  dot_S100000x128_S128x128_S100000x128_1_0_0_1_n_n_wf : DotDims.WF S100000x128 S128x128 S100000x128 [1] [0] [0] [1] [] []
  gather_S100000x128_S500000x1_S500000x128_1_0_n_n_0_1_1128_wf : GatherDims.WF S100000x128 S500000x1 S500000x128 [1] [0] [] [0] [] 1 ![1, 128]
  scatter_S512x128_S500000x1_S500000x128_1_0_0_1_wf : ScatterDims.WF S512x128 S500000x1 S500000x128 [1] [0] [0] 1
  dot_S512x128_S128x128_S512x128_1_0_0_1_n_n_wf : DotDims.WF S512x128 S128x128 S512x128 [1] [0] [0] [1] [] []
  gather_S512x128_S500000x1_S500000x128_1_0_n_n_0_1_1128_wf : GatherDims.WF S512x128 S500000x1 S500000x128 [1] [0] [] [0] [] 1 ![1, 128]
  scatter_S100000x128_S500000x1_S500000x128_1_0_0_1_wf : ScatterDims.WF S100000x128 S500000x1 S500000x128 [1] [0] [0] 1
  dot_S100000x128_S128x512_S100000x512_1_0_0_1_n_n_wf : DotDims.WF S100000x128 S128x512 S100000x512 [1] [0] [0] [1] [] []
  gather_S100000x512_S500000x2_S500000_n_01_n_n_01_1_11_wf : GatherDims.WF S100000x512 S500000x2 S500000 [] [0, 1] [] [0, 1] [] 1 ![1, 1]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S512x128_S500000x1_S500000x128_1_0_0_1 : ScatterDims S512x128 S500000x1 S500000x128 where
  updateWindowDims := [1]
  insertedWindowDims := [0]
  scatterDimsToOperandDims := [0]
  indexVectorDim := 1
  wf := scatter_S512x128_S500000x1_S500000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def gather_S512x128_S500000x1_S500000x128_1_0_n_n_0_1_1128 : GatherDims S512x128 S500000x1 S500000x128 where
  offsetDims := [1]
  collapsedSliceDims := [0]
  operandBatchingDims := []
  startIndicesBatchingDims := []
  startIndexMap := [0]
  indexVectorDim := 1
  sliceSizes := ![1, 128]
  wf := gather_S512x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def gather_S100000x512_S500000x2_S500000_n_01_n_n_01_1_11 : GatherDims S100000x512 S500000x2 S500000 where
  offsetDims := []
  collapsedSliceDims := [0, 1]
  operandBatchingDims := []
  startIndicesBatchingDims := []
  startIndexMap := [0, 1]
  indexVectorDim := 1
  sliceSizes := ![1, 1]
  wf := gather_S100000x512_S500000x2_S500000_n_01_n_n_01_1_11_wf

class Facts : Prop extends Facts₀ where

variable [Facts]
-- ==== Proof.FrameLib.lean ====
import Idealize.ShloMosaic.Lib.Pipeline.Frame
import Idealize.ShloMosaic.Lib.Pipeline.FrameBody
import Idealize.ShloMosaic.Lib.Pipeline.Value
import Idealize.ShloMosaic.Lib.Memref
import Idealize.ShloMosaic.Lib.Tactic

noncomputable section

namespace Cert.FrameLib

open Idealize.ShloMosaic Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem read_writes_whole {κ : Kind} {sp : Space} {S : Shape} {e : EltTy} (v : View sig κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb]

theorem readAt_unit_unread {κ : Kind} {sp : Space} {S : Shape} {e : EltTy} {M : Memref sig κ sp S e} (h : M.IsWhole)
    {off : Fin S.rank → Nat} (hz : off = fun _ => 0) (inb : ∀ a, off a + S.size a ≤ S.size a) (X : S.Idx → Elt F e) :
    View.readAt (Elt F) M.view (Rect.unit off S.size inb).toLoadRect (h.unread X) = X := by
  rw [View.readAt_eq_ld, h.read_unread, View.ld_unit_zero hz]

theorem owns_eq_unread {c : Dev nD} {sp : Space} {S : Shape} {e : EltTy} {M : Memref sig .tc sp S e}
    (h : M.IsWhole) (q : PosShare TreeShare) (X : S.Idx → Elt F e) :
    (owns (c.tc : Thread nD τ) M q X : sProp 𝕄) = (M.view.loc (c.tc : Thread nD τ) ↦[M.view.set]{q} h.unread X) := by
  have h₁ : (owns (c.tc : Thread nD τ) M q X : sProp 𝕄) ⊢ (M.view.loc (c.tc : Thread nD τ) ↦[M.view.set]{q} h.unread X) := by
    unfold owns; iintro ⟨%f, %hf, H⟩; obtain rfl := h.eq_unread hf; iexact H
  have h₂ := owns_intro (Ix := Unit) (Name := ℕ) (U := UR sig nD τ) (Lvl := ℕ) (c.tc : Thread nD τ) M q (h.unread X)
  rw [h.read_unread] at h₂
  exact BI.equiv_iff.mp ⟨h₁, h₂⟩

end Cert.FrameLib

end
-- ==== Proof.K_R0.lean ====
import proofs.«412725_j14448269984048_2_alg».proof.Proof.Gen.Kernel.Skeleton
import proofs.«412725_j14448269984048_2_alg».proof.Proof.Gen.Kernel.Launch
import proofs.«412725_j14448269984048_2_alg».proof.Proof.Gen.Kernel.Points
import proofs.«412725_j14448269984048_2_alg».proof.Proof.FrameLib

noncomputable section

namespace Cert.Kernel.R0

open Cert.Kernel Cert.Kernel.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condFirst (i : grid0.Coords) : Prop := (Scalar.cmpi .ne (Scalar.extui (Scalar.cmpi .eq (BitVec.ofNat 32 (i 0).val) 0#32)) 0#32) = 1#1

theorem hcondFirst : ∀ t : Fin cfg0.N, condFirst (grid0.coords t) ↔ t.val = 0 := by decide +kernel

theorem hcondLast : ∀ t : Fin cfg0.N, k0_cond2 (grid0.coords t) = 1#1 ↔ t.val = 49 := by decide +kernel

section Run

variable (c : Dev nD) (i : grid0.Coords) (a1 a10 : Memref sig .tc .vmem S2000x128 .f32) (a2 : Memref sig .tc .vmem S2000x512 .f32)
  (a3 a11 a12 : Memref sig .tc .vmem S512x128 .f32) (a4 a5 a6 a7 : Memref sig .tc .vmem S128x128 .f32) (a8 a9 : Memref sig .tc .vmem S1x128 .f32)
  (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole)
  (x0 : Vec F S2000x128 .f32) (x1 : Vec F S2000x512 .f32) (x2 : Vec F S512x128 .f32) (x3 x4 x5 x6 : Vec F S128x128 .f32) (x7 x8 : Vec F S1x128 .f32)
  (s : Vec F S512x128 .f32)

def withIns (R : sProp 𝕄) : sProp 𝕄 :=
  iprop(owns (c : Thread nD τ) a1 fullShare x0 ∗ owns (c : Thread nD τ) a2 fullShare x1 ∗ owns (c : Thread nD τ) a3 fullShare x2
    ∗ owns (c : Thread nD τ) a4 fullShare x3 ∗ owns (c : Thread nD τ) a5 fullShare x4 ∗ owns (c : Thread nD τ) a6 fullShare x5
    ∗ owns (c : Thread nD τ) a7 fullShare x6 ∗ owns (c : Thread nD τ) a8 fullShare x7 ∗ owns (c : Thread nD τ) a9 fullShare x8 ∗ R)

theorem run_first (E : Set ℕ) (K : PUnit → sProp 𝕄) (hc1 : condFirst i) (hc2 : ¬k0_cond2 i = 1#1) :
    withIns c a1 a2 a3 a4 a5 a6 a7 a8 a9 x0 x1 x2 x3 x4 x5 x6 x7 x8 iprop((∃ d, owns (c : Thread nD τ) a10 fullShare d) ∗ (∃ d, owns (c : Thread nD τ) a12 fullShare d)
        ∗ (withIns c a1 a2 a3 a4 a5 a6 a7 a8 a9 x0 x1 x2 x3 x4 x5 x6 x7 x8 iprop(owns (c : Thread nD τ) a10 fullShare (k0_pay2 (k0_pay5 x0) (k0_pay6 x2) (k0_pay7 x1) (k0_pay9 x4) (k0_pay10 x5) x7)
            ∗ owns (c : Thread nD τ) a12 fullShare (k0_pay1 (k0_pay5 x0) (k0_pay7 x1) (k0_pay8 x3) (k0_pay4 (F := F)))) -∗ K ⟨⟩))
      ⊢ wp frame (wpE (defs₀ (F := F)) Variants.none c none) E (cc0__layer_kernel i a1 h1 a2 h2 a3 h3 a4 h4 a5 h5 a6 h6 a7 h7 a8 h8 a9 h9 a10 h10 a11 h11 a12 h12) K := by
  unfold withIns
  simp only [cc0__layer_kernel_eq_skeleton]; unfold cc0__layer_kernel_skel
  simp only [k0_part1_eq_skeleton]; unfold k0_part1_skel
  rw [owns_eq_unread h1, owns_eq_unread h2, owns_eq_unread h3, owns_eq_unread h4, owns_eq_unread h5, owns_eq_unread h6, owns_eq_unread h7, owns_eq_unread h8, owns_eq_unread h9]; unfold owns
  iintro ⟨H0, H1, H2, H3, H4, H5, H6, H7, H8, ⟨%d9, %f9, -, H9⟩, ⟨%ds, %fs, -, HS⟩, Hk⟩
  sl_exec (disch := first | exact hc1 | exact hc2)
  sl_step
  iapply Hk
  iframe H0 H1 H2 H3 H4 H5 H6 H7 H8
  isplitl [H9]
  · iexists _; isplitr
    swap; · iexact H9
    ipureintro
    refine (read_writes_whole _ _ hz2 _ _ _).trans ?_
    rw [readAt_unit_unread h1 hz2, readAt_unit_unread h2 hz2, readAt_unit_unread h3 hz2, readAt_unit_unread h5 hz2, readAt_unit_unread h6 hz2, readAt_unit_unread h8 hz2]
  · iexists _; isplitr
    swap; · iexact HS
    ipureintro
    sl_unfold_words
    refine (read_writes_whole _ _ hz2 _ _ _).trans ?_
    rw [readAt_unit_unread h1 hz2, readAt_unit_unread h2 hz2, readAt_unit_unread h4 hz2]
    rw [View.readCov_unit_zero a12.view hz2]

theorem run_mid (E : Set ℕ) (K : PUnit → sProp 𝕄) (hc1 : ¬condFirst i) (hc2 : ¬k0_cond2 i = 1#1) :
    withIns c a1 a2 a3 a4 a5 a6 a7 a8 a9 x0 x1 x2 x3 x4 x5 x6 x7 x8 iprop((∃ d, owns (c : Thread nD τ) a10 fullShare d) ∗ owns (c : Thread nD τ) a12 fullShare s
        ∗ (withIns c a1 a2 a3 a4 a5 a6 a7 a8 a9 x0 x1 x2 x3 x4 x5 x6 x7 x8 iprop(owns (c : Thread nD τ) a10 fullShare (k0_pay2 (k0_pay5 x0) (k0_pay6 x2) (k0_pay7 x1) (k0_pay9 x4) (k0_pay10 x5) x7)
            ∗ owns (c : Thread nD τ) a12 fullShare (k0_pay1 (k0_pay5 x0) (k0_pay7 x1) (k0_pay8 x3) s)) -∗ K ⟨⟩))
      ⊢ wp frame (wpE (defs₀ (F := F)) Variants.none c none) E (cc0__layer_kernel i a1 h1 a2 h2 a3 h3 a4 h4 a5 h5 a6 h6 a7 h7 a8 h8 a9 h9 a10 h10 a11 h11 a12 h12) K := by
  unfold withIns
  simp only [cc0__layer_kernel_eq_skeleton]; unfold cc0__layer_kernel_skel
  simp only [k0_part1_eq_skeleton]; unfold k0_part1_skel
  rw [owns_eq_unread h1, owns_eq_unread h2, owns_eq_unread h3, owns_eq_unread h4, owns_eq_unread h5, owns_eq_unread h6, owns_eq_unread h7, owns_eq_unread h8, owns_eq_unread h9, owns_eq_unread h12 fullShare s]; unfold owns
  iintro ⟨H0, H1, H2, H3, H4, H5, H6, H7, H8, ⟨%d9, %f9, -, H9⟩, HS, Hk⟩
  sl_exec (disch := first | exact hc1 | exact hc2)
  sl_step
  iapply Hk
  iframe H0 H1 H2 H3 H4 H5 H6 H7 H8
  isplitl [H9]
  · iexists _; isplitr
    swap; · iexact H9
    ipureintro
    refine (read_writes_whole _ _ hz2 _ _ _).trans ?_
    rw [readAt_unit_unread h1 hz2, readAt_unit_unread h2 hz2, readAt_unit_unread h3 hz2, readAt_unit_unread h5 hz2, readAt_unit_unread h6 hz2, readAt_unit_unread h8 hz2]
  · iexists _; isplitr
    swap; · iexact HS
    ipureintro
    refine (read_writes_whole _ _ hz2 _ _ _).trans ?_
    rw [readAt_unit_unread h1 hz2, readAt_unit_unread h2 hz2, readAt_unit_unread h4 hz2, readAt_unit_unread h12 hz2]

theorem run_last (E : Set ℕ) (K : PUnit → sProp 𝕄) (hc1 : ¬condFirst i) (hc2 : k0_cond2 i = 1#1) :
    withIns c a1 a2 a3 a4 a5 a6 a7 a8 a9 x0 x1 x2 x3 x4 x5 x6 x7 x8 iprop((∃ d, owns (c : Thread nD τ) a10 fullShare d) ∗ (∃ d, owns (c : Thread nD τ) a11 fullShare d) ∗ owns (c : Thread nD τ) a12 fullShare s
        ∗ (withIns c a1 a2 a3 a4 a5 a6 a7 a8 a9 x0 x1 x2 x3 x4 x5 x6 x7 x8 iprop(owns (c : Thread nD τ) a10 fullShare (k0_pay2 (k0_pay5 x0) (k0_pay6 x2) (k0_pay7 x1) (k0_pay9 x4) (k0_pay10 x5) x7)
            ∗ owns (c : Thread nD τ) a11 fullShare (k0_pay3 (k0_pay6 x2) (k0_pay11 x6) x8 (k0_pay1 (k0_pay5 x0) (k0_pay7 x1) (k0_pay8 x3) s))
            ∗ owns (c : Thread nD τ) a12 fullShare (k0_pay1 (k0_pay5 x0) (k0_pay7 x1) (k0_pay8 x3) s)) -∗ K ⟨⟩))
      ⊢ wp frame (wpE (defs₀ (F := F)) Variants.none c none) E (cc0__layer_kernel i a1 h1 a2 h2 a3 h3 a4 h4 a5 h5 a6 h6 a7 h7 a8 h8 a9 h9 a10 h10 a11 h11 a12 h12) K := by
  unfold withIns
  simp only [cc0__layer_kernel_eq_skeleton]; unfold cc0__layer_kernel_skel
  simp only [k0_part1_eq_skeleton]; unfold k0_part1_skel
  rw [owns_eq_unread h1, owns_eq_unread h2, owns_eq_unread h3, owns_eq_unread h4, owns_eq_unread h5, owns_eq_unread h6, owns_eq_unread h7, owns_eq_unread h8, owns_eq_unread h9, owns_eq_unread h12 fullShare s]; unfold owns
  iintro ⟨H0, H1, H2, H3, H4, H5, H6, H7, H8, ⟨%d9, %f9, -, H9⟩, ⟨%d10, %f10, -, H10⟩, HS, Hk⟩
  sl_exec (disch := first | exact hc1 | exact hc2)
  sl_step
  iapply Hk
  iframe H0 H1 H2 H3 H4 H5 H6 H7 H8
  isplitl [H9]
  · iexists _; isplitr
    swap; · iexact H9
    ipureintro
    refine (read_writes_whole _ _ hz2 _ _ _).trans ?_
    rw [readAt_unit_unread h1 hz2, readAt_unit_unread h2 hz2, readAt_unit_unread h3 hz2, readAt_unit_unread h5 hz2, readAt_unit_unread h6 hz2, readAt_unit_unread h8 hz2]
  isplitl [H10]
  · iexists _; isplitr
    swap; · iexact H10
    ipureintro
    sl_unfold_words
    refine (read_writes_whole _ _ hz2 _ _ _).trans ?_
    rw [readAt_unit_unread h3 hz2, readAt_unit_unread h7 hz2, readAt_unit_unread h9 hz2]
    rw [View.readCov_unit_zero a12.view hz2, readAt_unit_unread h1 hz2, readAt_unit_unread h2 hz2, readAt_unit_unread h4 hz2, readAt_unit_unread h12 hz2]
  · iexists _; isplitr
    swap; · iexact HS
    ipureintro
    refine (read_writes_whole _ _ hz2 _ _ _).trans ?_
    rw [readAt_unit_unread h1 hz2, readAt_unit_unread h2 hz2, readAt_unit_unread h4 hz2, readAt_unit_unread h12 hz2]

end Run

variable (V : (c : Dev nD) → (b : Ref sig .tc) → Buf (Elt F) ((c : Thread nD τ).loc b))

abbrev b0 (c : Dev nD) (t : Fin cfg0.N) : Vec F S2000x128 .f32 := ((cfg0.win 0).blk t).view.read (Elt F) (V c (Pipeline.arrRef spec0 0))
abbrev b1 (c : Dev nD) (t : Fin cfg0.N) : Vec F S2000x512 .f32 := ((cfg0.win 1).blk t).view.read (Elt F) (V c (Pipeline.arrRef spec0 1))
abbrev b2 (c : Dev nD) (t : Fin cfg0.N) : Vec F S512x128 .f32 := ((cfg0.win 2).blk t).view.read (Elt F) (V c (Pipeline.arrRef spec0 2))
abbrev b3 (c : Dev nD) (t : Fin cfg0.N) : Vec F S128x128 .f32 := ((cfg0.win 3).blk t).view.read (Elt F) (V c (Pipeline.arrRef spec0 3))
abbrev b4 (c : Dev nD) (t : Fin cfg0.N) : Vec F S128x128 .f32 := ((cfg0.win 4).blk t).view.read (Elt F) (V c (Pipeline.arrRef spec0 4))
abbrev b5 (c : Dev nD) (t : Fin cfg0.N) : Vec F S128x128 .f32 := ((cfg0.win 5).blk t).view.read (Elt F) (V c (Pipeline.arrRef spec0 5))
abbrev b6 (c : Dev nD) (t : Fin cfg0.N) : Vec F S128x128 .f32 := ((cfg0.win 6).blk t).view.read (Elt F) (V c (Pipeline.arrRef spec0 6))
abbrev b7 (c : Dev nD) (t : Fin cfg0.N) : Vec F S1x128 .f32 := ((cfg0.win 7).blk t).view.read (Elt F) (V c (Pipeline.arrRef spec0 7))
abbrev b8 (c : Dev nD) (t : Fin cfg0.N) : Vec F S1x128 .f32 := ((cfg0.win 8).blk t).view.read (Elt F) (V c (Pipeline.arrRef spec0 8))

def acc (c : Dev nD) : (n : ℕ) → n < cfg0.N → Vec F S512x128 .f32
  | 0, h => k0_pay1 (k0_pay5 (b0 V c ⟨0, h⟩)) (k0_pay7 (b1 V c ⟨0, h⟩)) (k0_pay8 (b3 V c ⟨0, h⟩)) (k0_pay4 (F := F))
  | n + 1, h => k0_pay1 (k0_pay5 (b0 V c ⟨n + 1, h⟩)) (k0_pay7 (b1 V c ⟨n + 1, h⟩)) (k0_pay8 (b3 V c ⟨n + 1, h⟩)) (acc c n (Nat.lt_of_succ_lt h))

abbrev scM : Memref sig .tc .vmem S512x128 .f32 := Memref.whole cc0_scratch0

abbrev others (c : Dev nD) : sProp 𝕄 :=
  Pipeline.scopedRestBut (Ix := Unit) (Name := ℕ) (U := UR sig nD τ) (Lvl := ℕ) (Val := Elt F) spec0 c [cc0_scratch0]

theorem PhiA_eq (c : Dev nD) :
    (Pipeline.ΦA spec0 c : sProp 𝕄)
      = iprop(((∃ d, owns (c : Thread nD τ) scM fullShare d) ∗ others (F := F) c) ∗ (∃ r, prngReg c r)) := by
  unfold Pipeline.ΦA
  rw [Pipeline.scopedRest_split_of_list spec0 c [cc0_scratch0] (by decide) (by decide)]
  simp only [bigSepL_singleton, scM, owns_whole]; try rfl

theorem acc_zero (c : Dev nD) (t : Fin cfg0.N) (h : t.val = 0) :
    acc V c t.val t.isLt = k0_pay1 (k0_pay5 (b0 V c t)) (k0_pay7 (b1 V c t)) (k0_pay8 (b3 V c t)) (k0_pay4 (F := F)) := by
  obtain ⟨_ | n, hn⟩ := t
  · rfl
  · exact absurd h (Nat.succ_ne_zero n)

theorem acc_pos (c : Dev nD) (t : Fin cfg0.N) (h : t.val ≠ 0) :
    acc V c t.val t.isLt = k0_pay1 (k0_pay5 (b0 V c t)) (k0_pay7 (b1 V c t)) (k0_pay8 (b3 V c t))
      (acc V c (t.val - 1) (Nat.lt_of_le_of_lt (Nat.sub_le _ _) t.isLt)) := by
  obtain ⟨_ | n, hn⟩ := t
  · exact absurd rfl h
  · rfl

-- Before the first point the accumulator holds anything; before a later one, what the point before left.
def PhiS (c : Dev nD) : (n : ℕ) → n ≤ cfg0.N → sProp 𝕄
  | 0, _ => Pipeline.ΦA spec0 c
  | n + 1, hn => iprop((owns (c : Thread nD τ) scM fullShare (acc V c n hn) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_pos (c : Dev nD) (n : ℕ) (h : n ≤ cfg0.N) (hz : n ≠ 0) :
    PhiS V c n h = iprop((owns (c : Thread nD τ) scM fullShare (acc V c (n - 1) (by omega)) ∗ others (F := F) c) ∗ (∃ r, prngReg c r)) := by
  cases n with
  | zero => exact absurd rfl hz
  | succ n => rfl

def dat (c : Dev nD) : Dat τ (Elt F) Unit ℕ (UR sig nD τ) ℕ cfg0 c where
  A w := V c (Pipeline.arrRef spec0 w)
  after w t := match w with
    | ⟨0, _⟩ => b0 V c t
    | ⟨1, _⟩ => b1 V c t
    | ⟨2, _⟩ => b2 V c t
    | ⟨3, _⟩ => b3 V c t
    | ⟨4, _⟩ => b4 V c t
    | ⟨5, _⟩ => b5 V c t
    | ⟨6, _⟩ => b6 V c t
    | ⟨7, _⟩ => b7 V c t
    | ⟨8, _⟩ => b8 V c t
    | ⟨9, _⟩ => k0_pay2 (k0_pay5 (b0 V c t)) (k0_pay6 (b2 V c t)) (k0_pay7 (b1 V c t)) (k0_pay9 (b4 V c t)) (k0_pay10 (b5 V c t)) (b7 V c t)
    | ⟨10, _⟩ => k0_pay3 (k0_pay6 (b2 V c t)) (k0_pay11 (b6 V c t)) (b8 V c t) (acc V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := rfl

theorem after_9 (c : Dev nD) (t : Fin cfg0.N) :
    (dat V c).after 9 t = k0_pay2 (k0_pay5 (b0 V c t)) (k0_pay6 (b2 V c t)) (k0_pay7 (b1 V c t)) (k0_pay9 (b4 V c t)) (k0_pay10 (b5 V c t)) (b7 V c t) := rfl

theorem after_10 (c : Dev nD) (t : Fin cfg0.N) (ht : t.val = 49) :
    (dat V c).after 10 t = k0_pay3 (k0_pay6 (b2 V c t)) (k0_pay11 (b6 V c t)) (b8 V c t) (acc V c t.val t.isLt) := rfl

theorem after_0 (c : Dev nD) (t : Fin cfg0.N) : (dat V c).after 0 t = b0 V c t := rfl
theorem after_1 (c : Dev nD) (t : Fin cfg0.N) : (dat V c).after 1 t = b1 V c t := rfl
theorem after_2 (c : Dev nD) (t : Fin cfg0.N) : (dat V c).after 2 t = b2 V c t := rfl
theorem after_3 (c : Dev nD) (t : Fin cfg0.N) : (dat V c).after 3 t = b3 V c t := rfl
theorem after_4 (c : Dev nD) (t : Fin cfg0.N) : (dat V c).after 4 t = b4 V c t := rfl
theorem after_5 (c : Dev nD) (t : Fin cfg0.N) : (dat V c).after 5 t = b5 V c t := rfl
theorem after_6 (c : Dev nD) (t : Fin cfg0.N) : (dat V c).after 6 t = b6 V c t := rfl
theorem after_7 (c : Dev nD) (t : Fin cfg0.N) : (dat V c).after 7 t = b7 V c t := rfl
theorem after_8 (c : Dev nD) (t : Fin cfg0.N) : (dat V c).after 8 t = b8 V c t := rfl

theorem before_in (c : Dev nD) (t : Fin cfg0.N) : ∀ (w : Fin cfg0.W) (d), w.val < 9 → (dat V c).before w t d = (dat V c).after w t
  | ⟨0, _⟩, d, _ | ⟨1, _⟩, d, _ | ⟨2, _⟩, d, _ | ⟨3, _⟩, d, _ | ⟨4, _⟩, d, _ | ⟨5, _⟩, d, _ | ⟨6, _⟩, d, _ | ⟨7, _⟩, d, _ | ⟨8, _⟩, d, _ =>
    ((dat V c).before_in_eq_fetched _ rfl (fun _ => rfl) (fun _ _ _ => rfl) (fun _ => rfl) t d).trans rfl
  | ⟨n + 9, _⟩, _, h => absurd h (Nat.not_lt.mpr (Nat.le_add_left 9 n))

theorem idle10 : ∀ t : Fin cfg0.N, ¬k0_cond2 (grid0.coords t) = 1#1 → cfg0.idle 10 (grid0.coords t) = true := by decide +kernel
theorem noFlush10 : ∀ t : Fin cfg0.N, ¬k0_cond2 (grid0.coords t) = 1#1 → (cfg0.win 10).flush t = false := by decide +kernel
theorem live10 : ∀ t : Fin cfg0.N, k0_cond2 (grid0.coords t) = 1#1 → cfg0.idle 10 (grid0.coords t) = false := by decide +kernel

theorem leaves_live (c : Dev nD) (w : Fin cfg0.W) (t : Fin cfg0.N) (hi : cfg0.idle w (cfg0.grid.coords t) = false) :
    (dat V c).leavesExact w t = owns (c : Thread nD τ) ((cfg0.win w).stage (cfg0.slots t w)) fullShare ((dat V c).after w t) := by
  unfold Dat.leavesExact; rw [hi]

theorem body_obligation (c : Dev nD) : BodyObligation (dat (F := F) V c) (defs₀ (F := F)) Variants.none () Set.univ := fun t => by
  show iprop(PhiS V c t.val (Nat.le_of_lt t.isLt) ∗ _ ∗ bigSep Finset.univ fun w : Fin cfg0.W =>
      iprop(∃ d, owns (c : Thread nD τ) ((cfg0.win w).stage (cfg0.slots t w)) fullShare ((dat V c).before w t d)))
    ⊢ wp frame _ Set.univ (bodyAt0 t) fun _ => iprop(((owns (c : Thread nD τ) scM fullShare (acc V c t.val t.isLt) ∗ others (F := F) c) ∗ (∃ r, prngReg c r))
      ∗ (dat V c).owesAt () t.castSucc ∗ bigSep Finset.univ fun w => (dat V c).leavesExact w t)
  rw [bigSep_W0, bigSep_W0]
  unfold bodyAt0
  simp (disch := first | decide | rfl) only [before_in, leaves_live]
  rw [after_0, after_1, after_2, after_3, after_4, after_5, after_6, after_7, after_8, after_9]
  have hN : t.val < 50 := lt_of_lt_of_eq t.isLt (show cfg0.N = 50 from N_0)
  by_cases h0 : t.val = 0
  · have hc1 : condFirst (grid0.coords t) := (hcondFirst t).mpr h0
    have hc2 : ¬k0_cond2 (grid0.coords t) = 1#1 := fun h => by have := (hcondLast t).mp h; omega
    rw [Dat.leavesExact_idle (dat V c) 10 t (idle10 t hc2) (noFlush10 t hc2), PhiS_zero V c _ _ h0,
      PhiA_eq, acc_zero V c t h0]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    iapply (run_first c (grid0.coords t) _ _ _ _ _ _ _ _ _ _ _ _ _ _ _ _ _ _ _ _ _ _ _ _ (b0 V c t) (b1 V c t) (b2 V c t) (b3 V c t) (b4 V c t) (b5 V c t) (b6 V c t) (b7 V c t) (b8 V c t) Set.univ _ hc1 hc2)
    unfold withIns
    iframe H0 H1 H2 H3 H4 H5 H6 H7 H8
    isplitl [H9]; · iexists _; iexact H9
    isplitl [HS]; · iexists _; iexact HS
    iintro ⟨H0, H1, H2, H3, H4, H5, H6, H7, H8, H9, HS⟩
    iframe
  · rw [PhiS_pos V c _ _ h0, acc_pos V c t h0]
    have hc1 : ¬condFirst (grid0.coords t) := fun h => h0 ((hcondFirst t).mp h)
    by_cases h49 : t.val = 49
    · have hc2 : k0_cond2 (grid0.coords t) = 1#1 := (hcondLast t).mpr h49
      rw [leaves_live V c 10 t (live10 t hc2), after_10 V c t h49, acc_pos V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_last c (grid0.coords t) _ _ _ _ _ _ _ _ _ _ _ _ _ _ _ _ _ _ _ _ _ _ _ _ (b0 V c t) (b1 V c t) (b2 V c t) (b3 V c t) (b4 V c t) (b5 V c t) (b6 V c t) (b7 V c t) (b8 V c t) _ Set.univ _ hc1 hc2)
      unfold withIns
      iframe H0 H1 H2 H3 H4 H5 H6 H7 H8
      isplitl [H9]; · iexists _; iexact H9
      isplitl [H10]; · iexists _; iexact H10
      isplitl [HS]; · iexact HS
      iintro ⟨H0, H1, H2, H3, H4, H5, H6, H7, H8, H9, H10, HS⟩
      iframe
    · have hc2 : ¬k0_cond2 (grid0.coords t) = 1#1 := fun h => h49 ((hcondLast t).mp h)
      rw [Dat.leavesExact_idle (dat V c) 10 t (idle10 t hc2) (noFlush10 t hc2)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (run_mid c (grid0.coords t) _ _ _ _ _ _ _ _ _ _ _ _ _ _ _ _ _ _ _ _ _ _ _ _ (b0 V c t) (b1 V c t) (b2 V c t) (b3 V c t) (b4 V c t) (b5 V c t) (b6 V c t) (b7 V c t) (b8 V c t) _ Set.univ _ hc1 hc2)
      unfold withIns
      iframe H0 H1 H2 H3 H4 H5 H6 H7 H8
      isplitl [H9]; · iexists _; iexact H9
      isplitl [HS]; · iexact HS
      iintro ⟨H0, H1, H2, H3, H4, H5, H6, H7, H8, H9, HS⟩
      iframe

theorem hin (c : Dev nD) : Pipeline.ΦA spec0 c ⊢ (dat V c).Φ 0 := .rfl

-- After the last point the accumulator's named contents are forgotten.
theorem hout (c : Dev nD) : (dat V c).Φ (Fin.last cfg0.N) ⊢ (Pipeline.ΦA spec0 c : sProp 𝕄) := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 50 := N_0; omega), PhiA_eq]
  iintro ⟨⟨HS, HR⟩, Hg⟩
  iframe HR Hg
  iexists _; iexact HS

theorem owed_zero (c : Dev nD) (t : Fin (cfg0.N + 1)) : (dat V c).owed t = 0 := rfl

theorem q_full (c : Dev nD) (w : Fin cfg0.W) : (dat V c).q w = fullShare := rfl

theorem recorded_univ (c : Dev nD) (t : Fin (cfg0.N + 1)) : (dat V c).recorded t = Set.univ := rfl

end Cert.Kernel.R0

end
-- ==== Proof.K_R1.lean ====
import proofs.«412725_j14448269984048_2_alg».proof.Proof.Gen.Kernel.Skeleton
import proofs.«412725_j14448269984048_2_alg».proof.Proof.Gen.Kernel.Launch
import proofs.«412725_j14448269984048_2_alg».proof.Proof.Gen.Kernel.Points
import proofs.«412725_j14448269984048_2_alg».proof.Proof.FrameLib

noncomputable section

namespace Cert.Kernel.R1

open Cert.Kernel Cert.Kernel.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condFirst (i : grid1.Coords) : Prop :=
  (Scalar.cmpi .ne (Scalar.extui (Scalar.cmpi .eq (BitVec.ofNat 32 (i 0).val) 0#32)) 0#32) = 1#1
abbrev condLast (i : grid1.Coords) : Prop := k1_cond2 i = 1#1

theorem hcondFirst : ∀ t : Fin cfg1.N, condFirst (grid1.coords t) ↔ t.val = 0 := by decide +kernel
theorem hcondLast : ∀ t : Fin cfg1.N, condLast (grid1.coords t) ↔ t.val = 49 := by decide +kernel

theorem idle10 : ∀ t : Fin cfg1.N, ¬condLast (grid1.coords t) → cfg1.idle 10 (grid1.coords t) = true := by decide +kernel
theorem noFlush10 : ∀ t : Fin cfg1.N, ¬condLast (grid1.coords t) → (cfg1.win 10).flush t = false := by decide +kernel
theorem live10 : ∀ t : Fin cfg1.N, condLast (grid1.coords t) → cfg1.idle 10 (grid1.coords t) = false := by decide +kernel

section Run

variable (c : Dev nD) (i : grid1.Coords) (a1 a10 : Memref sig .tc .vmem S2000x128 .f32) (a2 : Memref sig .tc .vmem S2000x512 .f32)
  (a3 a11 a12 : Memref sig .tc .vmem S512x128 .f32) (a4 a5 a6 a7 : Memref sig .tc .vmem S128x128 .f32) (a8 a9 : Memref sig .tc .vmem S1x128 .f32)
  (h1 : a1.IsWhole) (h2 : a2.IsWhole) (h3 : a3.IsWhole) (h4 : a4.IsWhole) (h5 : a5.IsWhole) (h6 : a6.IsWhole) (h7 : a7.IsWhole) (h8 : a8.IsWhole)
  (h9 : a9.IsWhole) (h10 : a10.IsWhole) (h11 : a11.IsWhole) (h12 : a12.IsWhole)
  (x0 : Vec F S2000x128 .f32) (x1 : Vec F S2000x512 .f32) (x2 : Vec F S512x128 .f32) (x3 x4 x5 x6 : Vec F S128x128 .f32) (x7 x8 : Vec F S1x128 .f32)
  (x10 s : Vec F S512x128 .f32)

def withIns (R : sProp 𝕄) : sProp 𝕄 :=
  iprop(owns (c : Thread nD τ) a1 fullShare x0 ∗ owns (c : Thread nD τ) a2 fullShare x1 ∗ owns (c : Thread nD τ) a3 fullShare x2
    ∗ owns (c : Thread nD τ) a4 fullShare x3 ∗ owns (c : Thread nD τ) a5 fullShare x4 ∗ owns (c : Thread nD τ) a6 fullShare x5
    ∗ owns (c : Thread nD τ) a7 fullShare x6 ∗ owns (c : Thread nD τ) a8 fullShare x7 ∗ owns (c : Thread nD τ) a9 fullShare x8 ∗ R)

theorem run_first (E : Set ℕ) (K : PUnit → sProp 𝕄) (hc1 : condFirst i) (hc2 : ¬condLast i) :
    withIns c a1 a2 a3 a4 a5 a6 a7 a8 a9 x0 x1 x2 x3 x4 x5 x6 x7 x8 iprop((∃ d, owns (c : Thread nD τ) a10 fullShare d) ∗ owns (c : Thread nD τ) a11 fullShare x10 ∗ (∃ d, owns (c : Thread nD τ) a12 fullShare d)
        ∗ (withIns c a1 a2 a3 a4 a5 a6 a7 a8 a9 x0 x1 x2 x3 x4 x5 x6 x7 x8 iprop(owns (c : Thread nD τ) a10 fullShare (k1_pay2 (k1_pay5 x0) (k1_pay7 x1) (k1_pay8 x4) (k1_pay10 x7) (k1_pay12 x2 x5))
            ∗ owns (c : Thread nD τ) a11 fullShare x10 ∗ owns (c : Thread nD τ) a12 fullShare (k1_pay1 (k1_pay13 x0 x1 x3) (k1_pay4 (F := F)))) -∗ K ⟨⟩))
      ⊢ wp frame (wpE (defs₀ (F := F)) Variants.none c none) E (cc1__layer_kernel i a1 h1 a2 h2 a3 h3 a4 h4 a5 h5 a6 h6 a7 h7 a8 h8 a9 h9 a10 h10 a11 h11 a12 h12) K := by
  unfold withIns
  simp only [cc1__layer_kernel_eq_skeleton]; unfold cc1__layer_kernel_skel
  rw [owns_eq_unread h1, owns_eq_unread h2, owns_eq_unread h3, owns_eq_unread h4, owns_eq_unread h5, owns_eq_unread h6, owns_eq_unread h7, owns_eq_unread h8, owns_eq_unread h9, owns_eq_unread h11]; unfold owns
  iintro ⟨H0, H1, H2, H3, H4, H5, H6, H7, H8, ⟨%d9, %f9, -, H9⟩, H10, ⟨%ds, %fs, -, HS⟩, Hk⟩
  sl_exec (disch := first | sl_exact hc1 | sl_exact hc2)
  sl_step
  iapply Hk
  iframe H0 H1 H2 H3 H4 H5 H6 H7 H8 H10
  isplitl [H9] <;>
    (iexists _; isplitr; swap; iassumption
     ipureintro
     sl_unfold_run_names
     rw [read_writes_whole _ _ hz2]
     simp only [View.readAt_eq_ld, Memref.IsWhole.read_unread, View.readCov_unit_zero (S := S512x128) _ hz2, View.ld_unit_zero (S := S2000x128) hz2, View.ld_unit_zero (S := S2000x512) hz2, View.ld_unit_zero (S := S512x128) hz2, View.ld_unit_zero (S := S128x128) hz2, View.ld_unit_zero (S := S1x128) hz2])

theorem run_mid (E : Set ℕ) (K : PUnit → sProp 𝕄) (hc1 : ¬condFirst i) (hc2 : ¬condLast i) :
    withIns c a1 a2 a3 a4 a5 a6 a7 a8 a9 x0 x1 x2 x3 x4 x5 x6 x7 x8 iprop((∃ d, owns (c : Thread nD τ) a10 fullShare d) ∗ owns (c : Thread nD τ) a11 fullShare x10 ∗ owns (c : Thread nD τ) a12 fullShare s
        ∗ (withIns c a1 a2 a3 a4 a5 a6 a7 a8 a9 x0 x1 x2 x3 x4 x5 x6 x7 x8 iprop(owns (c : Thread nD τ) a10 fullShare (k1_pay2 (k1_pay5 x0) (k1_pay7 x1) (k1_pay8 x4) (k1_pay10 x7) (k1_pay12 x2 x5))
            ∗ owns (c : Thread nD τ) a11 fullShare x10 ∗ owns (c : Thread nD τ) a12 fullShare (k1_pay1 (k1_pay13 x0 x1 x3) s)) -∗ K ⟨⟩))
      ⊢ wp frame (wpE (defs₀ (F := F)) Variants.none c none) E (cc1__layer_kernel i a1 h1 a2 h2 a3 h3 a4 h4 a5 h5 a6 h6 a7 h7 a8 h8 a9 h9 a10 h10 a11 h11 a12 h12) K := by
  unfold withIns
  simp only [cc1__layer_kernel_eq_skeleton]; unfold cc1__layer_kernel_skel
  rw [owns_eq_unread h1, owns_eq_unread h2, owns_eq_unread h3, owns_eq_unread h4, owns_eq_unread h5, owns_eq_unread h6, owns_eq_unread h7, owns_eq_unread h8, owns_eq_unread h9, owns_eq_unread h11, owns_eq_unread h12 fullShare s]; unfold owns
  iintro ⟨H0, H1, H2, H3, H4, H5, H6, H7, H8, ⟨%d9, %f9, -, H9⟩, H10, HS, Hk⟩
  sl_exec (disch := first | sl_exact hc1 | sl_exact hc2)
  sl_step
  iapply Hk
  iframe H0 H1 H2 H3 H4 H5 H6 H7 H8 H10
  isplitl [H9] <;>
    (iexists _; isplitr; swap; iassumption
     ipureintro
     sl_unfold_run_names
     rw [read_writes_whole _ _ hz2]
     simp only [View.readAt_eq_ld, Memref.IsWhole.read_unread, View.readCov_unit_zero (S := S512x128) _ hz2, View.ld_unit_zero (S := S2000x128) hz2, View.ld_unit_zero (S := S2000x512) hz2, View.ld_unit_zero (S := S512x128) hz2, View.ld_unit_zero (S := S128x128) hz2, View.ld_unit_zero (S := S1x128) hz2])

theorem run_last (E : Set ℕ) (K : PUnit → sProp 𝕄) (hc1 : ¬condFirst i) (hc2 : condLast i) :
    withIns c a1 a2 a3 a4 a5 a6 a7 a8 a9 x0 x1 x2 x3 x4 x5 x6 x7 x8 iprop((∃ d, owns (c : Thread nD τ) a10 fullShare d) ∗ (∃ d, owns (c : Thread nD τ) a11 fullShare d) ∗ owns (c : Thread nD τ) a12 fullShare s
        ∗ (withIns c a1 a2 a3 a4 a5 a6 a7 a8 a9 x0 x1 x2 x3 x4 x5 x6 x7 x8 iprop(owns (c : Thread nD τ) a10 fullShare (k1_pay2 (k1_pay5 x0) (k1_pay7 x1) (k1_pay8 x4) (k1_pay10 x7) (k1_pay12 x2 x5))
            ∗ owns (c : Thread nD τ) a11 fullShare (k1_pay3 (k1_pay6 x2) (k1_pay9 x6) (k1_pay11 x8) (k1_pay1 (k1_pay13 x0 x1 x3) s))
            ∗ owns (c : Thread nD τ) a12 fullShare (k1_pay1 (k1_pay13 x0 x1 x3) s)) -∗ K ⟨⟩))
      ⊢ wp frame (wpE (defs₀ (F := F)) Variants.none c none) E (cc1__layer_kernel i a1 h1 a2 h2 a3 h3 a4 h4 a5 h5 a6 h6 a7 h7 a8 h8 a9 h9 a10 h10 a11 h11 a12 h12) K := by
  unfold withIns
  simp only [cc1__layer_kernel_eq_skeleton]; unfold cc1__layer_kernel_skel
  rw [owns_eq_unread h1, owns_eq_unread h2, owns_eq_unread h3, owns_eq_unread h4, owns_eq_unread h5, owns_eq_unread h6, owns_eq_unread h7, owns_eq_unread h8, owns_eq_unread h9, owns_eq_unread h12 fullShare s]; unfold owns
  iintro ⟨H0, H1, H2, H3, H4, H5, H6, H7, H8, ⟨%d9, %f9, -, H9⟩, ⟨%d10, %f10, -, H10⟩, HS, Hk⟩
  sl_exec (disch := first | sl_exact hc1 | sl_exact hc2)
  sl_step
  iapply Hk
  iframe H0 H1 H2 H3 H4 H5 H6 H7 H8
  isplitl [H9]; swap; isplitl [H10]
  all_goals
    (iexists _; isplitr; swap; iassumption
     ipureintro
     sl_unfold_run_names
     rw [read_writes_whole _ _ hz2]
     simp only [View.readAt_eq_ld, Memref.IsWhole.read_unread, View.readCov_unit_zero (S := S512x128) _ hz2, View.ld_unit_zero (S := S2000x128) hz2, View.ld_unit_zero (S := S2000x512) hz2, View.ld_unit_zero (S := S512x128) hz2, View.ld_unit_zero (S := S128x128) hz2, View.ld_unit_zero (S := S1x128) hz2])

end Run

variable (V : (c : Dev nD) → (b : Ref sig .tc) → Buf (Elt F) ((c : Thread nD τ).loc b))

abbrev b0 (c : Dev nD) (t : Fin cfg1.N) : Vec F S2000x128 .f32 := ((cfg1.win 0).blk t).view.read (Elt F) (V c (Pipeline.arrRef spec1 0))
abbrev b1 (c : Dev nD) (t : Fin cfg1.N) : Vec F S2000x512 .f32 := ((cfg1.win 1).blk t).view.read (Elt F) (V c (Pipeline.arrRef spec1 1))
abbrev b2 (c : Dev nD) (t : Fin cfg1.N) : Vec F S512x128 .f32 := ((cfg1.win 2).blk t).view.read (Elt F) (V c (Pipeline.arrRef spec1 2))
abbrev b3 (c : Dev nD) (t : Fin cfg1.N) : Vec F S128x128 .f32 := ((cfg1.win 3).blk t).view.read (Elt F) (V c (Pipeline.arrRef spec1 3))
abbrev b4 (c : Dev nD) (t : Fin cfg1.N) : Vec F S128x128 .f32 := ((cfg1.win 4).blk t).view.read (Elt F) (V c (Pipeline.arrRef spec1 4))
abbrev b5 (c : Dev nD) (t : Fin cfg1.N) : Vec F S128x128 .f32 := ((cfg1.win 5).blk t).view.read (Elt F) (V c (Pipeline.arrRef spec1 5))
abbrev b6 (c : Dev nD) (t : Fin cfg1.N) : Vec F S128x128 .f32 := ((cfg1.win 6).blk t).view.read (Elt F) (V c (Pipeline.arrRef spec1 6))
abbrev b7 (c : Dev nD) (t : Fin cfg1.N) : Vec F S1x128 .f32 := ((cfg1.win 7).blk t).view.read (Elt F) (V c (Pipeline.arrRef spec1 7))
abbrev b8 (c : Dev nD) (t : Fin cfg1.N) : Vec F S1x128 .f32 := ((cfg1.win 8).blk t).view.read (Elt F) (V c (Pipeline.arrRef spec1 8))

def acc (c : Dev nD) : (n : ℕ) → n < cfg1.N → Vec F S512x128 .f32
  | 0, h => k1_pay1 (k1_pay13 (b0 V c ⟨0, h⟩) (b1 V c ⟨0, h⟩) (b3 V c ⟨0, h⟩)) (k1_pay4 (F := F))
  | n + 1, h => k1_pay1 (k1_pay13 (b0 V c ⟨n + 1, h⟩) (b1 V c ⟨n + 1, h⟩) (b3 V c ⟨n + 1, h⟩)) (acc c n (Nat.lt_of_succ_lt h))

theorem acc_first (c : Dev nD) (t : Fin cfg1.N) (h : t.val = 0) :
    acc V c t.val t.isLt = k1_pay1 (k1_pay13 (b0 V c t) (b1 V c t) (b3 V c t)) (k1_pay4 (F := F)) := by
  obtain ⟨_ | n, hn⟩ := t
  · rfl
  · exact absurd h (Nat.succ_ne_zero n)

theorem acc_pos (c : Dev nD) (t : Fin cfg1.N) (h : t.val ≠ 0) :
    acc V c t.val t.isLt = k1_pay1 (k1_pay13 (b0 V c t) (b1 V c t) (b3 V c t))
      (acc V c (t.val - 1) (Nat.lt_of_le_of_lt (Nat.sub_le _ _) t.isLt)) := by
  obtain ⟨_ | n, hn⟩ := t
  · exact absurd rfl h
  · rfl

abbrev scM : Memref sig .tc .vmem S512x128 .f32 := Memref.whole cc1_scratch0

abbrev others (c : Dev nD) : sProp 𝕄 :=
  Pipeline.scopedRestBut (Ix := Unit) (Name := ℕ) (U := UR sig nD τ) (Lvl := ℕ) (Val := Elt F) spec1 c [cc1_scratch0]

theorem PhiA_eq (c : Dev nD) :
    (Pipeline.ΦA spec1 c : sProp 𝕄)
      = iprop(((∃ d, owns (c : Thread nD τ) scM fullShare d) ∗ others (F := F) c) ∗ (∃ r, prngReg c r)) := by
  unfold Pipeline.ΦA
  rw [Pipeline.scopedRest_split_of_list spec1 c [cc1_scratch0] (by decide) (by decide)]
  simp only [bigSepL_singleton, scM, owns_whole]; try rfl

-- Before the first point the accumulator holds anything; before a later one, what the point before left.
def PhiS (c : Dev nD) : (n : ℕ) → n ≤ cfg1.N → sProp 𝕄
  | 0, _ => Pipeline.ΦA spec1 c
  | n + 1, hn => iprop((owns (c : Thread nD τ) scM fullShare (acc V c n hn) ∗ others (F := F) c) ∗ (∃ r, prngReg c r))

theorem PhiS_zero (c : Dev nD) (n : ℕ) (h : n ≤ cfg1.N) (hz : n = 0) : PhiS V c n h = Pipeline.ΦA spec1 c := by
  subst hz; rfl

theorem PhiS_pos (c : Dev nD) (n : ℕ) (h : n ≤ cfg1.N) (hz : n ≠ 0) :
    PhiS V c n h = iprop((owns (c : Thread nD τ) scM fullShare (acc V c (n - 1) (by omega)) ∗ others (F := F) c) ∗ (∃ r, prngReg c r)) := by
  cases n with
  | zero => exact absurd rfl hz
  | succ n => rfl

def dat (c : Dev nD) : Dat τ (Elt F) Unit ℕ (UR sig nD τ) ℕ cfg1 c where
  A w := V c (Pipeline.arrRef spec1 w)
  after w t := match w with
    | ⟨0, _⟩ => b0 V c t
    | ⟨1, _⟩ => b1 V c t
    | ⟨2, _⟩ => b2 V c t
    | ⟨3, _⟩ => b3 V c t
    | ⟨4, _⟩ => b4 V c t
    | ⟨5, _⟩ => b5 V c t
    | ⟨6, _⟩ => b6 V c t
    | ⟨7, _⟩ => b7 V c t
    | ⟨8, _⟩ => b8 V c t
    | ⟨9, _⟩ => k1_pay2 (k1_pay5 (b0 V c t)) (k1_pay7 (b1 V c t)) (k1_pay8 (b4 V c t)) (k1_pay10 (b7 V c t)) (k1_pay12 (b2 V c t) (b5 V c t))
    | ⟨10, _⟩ => k1_pay3 (k1_pay6 (b2 V c t)) (k1_pay9 (b6 V c t)) (k1_pay11 (b8 V c t)) (acc V c t.val t.isLt)
  Φ t := PhiS V c t.val (Nat.le_of_lt_succ t.isLt)
  q _ := fullShare
  owed _ := 0

theorem A_eq (c : Dev nD) (w : Fin cfg1.W) : (dat V c).A w = V c (Pipeline.arrRef spec1 w) := rfl

theorem after_0 (c : Dev nD) (t : Fin cfg1.N) : (dat V c).after 0 t = b0 V c t := rfl
theorem after_1 (c : Dev nD) (t : Fin cfg1.N) : (dat V c).after 1 t = b1 V c t := rfl
theorem after_2 (c : Dev nD) (t : Fin cfg1.N) : (dat V c).after 2 t = b2 V c t := rfl
theorem after_3 (c : Dev nD) (t : Fin cfg1.N) : (dat V c).after 3 t = b3 V c t := rfl
theorem after_4 (c : Dev nD) (t : Fin cfg1.N) : (dat V c).after 4 t = b4 V c t := rfl
theorem after_5 (c : Dev nD) (t : Fin cfg1.N) : (dat V c).after 5 t = b5 V c t := rfl
theorem after_6 (c : Dev nD) (t : Fin cfg1.N) : (dat V c).after 6 t = b6 V c t := rfl
theorem after_7 (c : Dev nD) (t : Fin cfg1.N) : (dat V c).after 7 t = b7 V c t := rfl
theorem after_8 (c : Dev nD) (t : Fin cfg1.N) : (dat V c).after 8 t = b8 V c t := rfl

theorem after_9 (c : Dev nD) (t : Fin cfg1.N) :
    (dat V c).after 9 t = k1_pay2 (k1_pay5 (b0 V c t)) (k1_pay7 (b1 V c t)) (k1_pay8 (b4 V c t)) (k1_pay10 (b7 V c t)) (k1_pay12 (b2 V c t) (b5 V c t)) := rfl

theorem after_10 (c : Dev nD) (t : Fin cfg1.N) (ht : t.val = 49) :
    (dat V c).after 10 t = k1_pay3 (k1_pay6 (b2 V c t)) (k1_pay9 (b6 V c t)) (k1_pay11 (b8 V c t)) (acc V c t.val t.isLt) := rfl

theorem before_in (c : Dev nD) (t : Fin cfg1.N) : ∀ (w : Fin cfg1.W) (d), w.val < 9 → (dat V c).before w t d = (dat V c).after w t
  | ⟨0, _⟩, d, _ | ⟨1, _⟩, d, _ | ⟨2, _⟩, d, _ | ⟨3, _⟩, d, _ | ⟨4, _⟩, d, _ | ⟨5, _⟩, d, _ | ⟨6, _⟩, d, _ | ⟨7, _⟩, d, _ | ⟨8, _⟩, d, _ =>
    ((dat V c).before_in_eq_fetched _ rfl (fun _ => rfl) (fun _ _ _ => rfl) (fun _ => rfl) t d).trans rfl
  | ⟨n + 9, _⟩, _, h => absurd h (Nat.not_lt.mpr (Nat.le_add_left 9 n))

theorem leaves_live (c : Dev nD) (w : Fin cfg1.W) (t : Fin cfg1.N) (h : cfg1.idle w (grid1.coords t) = false) :
    (dat V c).leavesExact w t = owns (c : Thread nD τ) ((cfg1.win w).stage (cfg1.slots t w)) fullShare ((dat V c).after w t) := by
  unfold Dat.leavesExact; rw [h]

theorem body_obligation (c : Dev nD) : BodyObligation (dat (F := F) V c) (defs₀ (F := F)) Variants.none () Set.univ := fun t => by
  show iprop(PhiS V c t.val (Nat.le_of_lt t.isLt) ∗ _ ∗ bigSep Finset.univ fun w : Fin cfg1.W =>
      iprop(∃ d, owns (c : Thread nD τ) ((cfg1.win w).stage (cfg1.slots t w)) fullShare ((dat V c).before w t d)))
    ⊢ wp frame _ Set.univ (bodyAt1 t) fun _ => iprop(((owns (c : Thread nD τ) scM fullShare (acc V c t.val t.isLt) ∗ others (F := F) c) ∗ (∃ r, prngReg c r))
      ∗ (dat V c).owesAt () t.castSucc ∗ bigSep Finset.univ fun w => (dat V c).leavesExact w t)
  rw [bigSep_W1, bigSep_W1]
  simp (disch := first | decide | rfl) only [before_in, leaves_live]
  rw [after_0, after_1, after_2, after_3, after_4, after_5, after_6, after_7, after_8, after_9]
  have hN : t.val < 50 := lt_of_lt_of_eq t.isLt (show cfg1.N = 50 from N_1)
  by_cases h0 : t.val = 0
  · have hc1 : condFirst (grid1.coords t) := (hcondFirst t).mpr h0
    have hc2 : ¬condLast (grid1.coords t) := fun h => by have := (hcondLast t).mp h; omega
    rw [Dat.leavesExact_idle (dat V c) 10 t (idle10 t hc2) (noFlush10 t hc2), PhiS_zero V c _ _ h0, PhiA_eq, acc_first V c t h0]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c (grid1.coords t) _ _ _ _ _ _ _ _ _ _ _ _ _ _ _ _ _ _ _ _ _ _ _ _ (b0 V c t) (b1 V c t) (b2 V c t) (b3 V c t) (b4 V c t) (b5 V c t) (b6 V c t) (b7 V c t) (b8 V c t) _ Set.univ _ hc1 hc2)
    unfold withIns
    iframe H0 H1 H2 H3 H4 H5 H6 H7 H8
    isplitl [H9]; · iexists _; iexact H9
    isplitl [H10]; · iexact H10
    isplitl [HS]; · iexists _; iexact HS
    iintro ⟨H0, H1, H2, H3, H4, H5, H6, H7, H8, H9, H10, HS⟩
    iframe H0 H1 H2 H3 H4 H5 H6 H7 H8 H9 HS HR Hg Ho
    iexists _; iexact H10
  · rw [PhiS_pos V c _ _ h0, acc_pos V c t h0]
    have hc1 : ¬condFirst (grid1.coords t) := fun h => h0 ((hcondFirst t).mp h)
    by_cases h49 : t.val = 49
    · have hc2 : condLast (grid1.coords t) := (hcondLast t).mpr h49
      rw [leaves_live V c 10 t (live10 t hc2), after_10 V c t h49, acc_pos V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_last c (grid1.coords t) _ _ _ _ _ _ _ _ _ _ _ _ _ _ _ _ _ _ _ _ _ _ _ _ (b0 V c t) (b1 V c t) (b2 V c t) (b3 V c t) (b4 V c t) (b5 V c t) (b6 V c t) (b7 V c t) (b8 V c t) _ Set.univ _ hc1 hc2)
      unfold withIns
      iframe H0 H1 H2 H3 H4 H5 H6 H7 H8
      isplitl [H9]; · iexists _; iexact H9
      isplitl [H10]; · iexists _; iexact H10
      isplitl [HS]; · iexact HS
      iintro ⟨H0, H1, H2, H3, H4, H5, H6, H7, H8, H9, H10, HS⟩
      iframe
    · have hc2 : ¬condLast (grid1.coords t) := fun h => h49 ((hcondLast t).mp h)
      rw [Dat.leavesExact_idle (dat V c) 10 t (idle10 t hc2) (noFlush10 t hc2)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_mid c (grid1.coords t) _ _ _ _ _ _ _ _ _ _ _ _ _ _ _ _ _ _ _ _ _ _ _ _ (b0 V c t) (b1 V c t) (b2 V c t) (b3 V c t) (b4 V c t) (b5 V c t) (b6 V c t) (b7 V c t) (b8 V c t) _ _ Set.univ _ hc1 hc2)
      unfold withIns
      iframe H0 H1 H2 H3 H4 H5 H6 H7 H8
      isplitl [H9]; · iexists _; iexact H9
      isplitl [H10]; · iexact H10
      isplitl [HS]; · iexact HS
      iintro ⟨H0, H1, H2, H3, H4, H5, H6, H7, H8, H9, H10, HS⟩
      iframe H0 H1 H2 H3 H4 H5 H6 H7 H8 H9 HS HR Hg Ho
      iexists _; iexact H10

theorem hin (c : Dev nD) : Pipeline.ΦA spec1 c ⊢ (dat V c).Φ 0 := .rfl

-- After the last point the accumulator's named contents are forgotten.
theorem hout (c : Dev nD) : (dat V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 50 := N_1; omega), PhiA_eq]
  iintro ⟨⟨HS, HR⟩, Hg⟩
  iframe HR Hg
  iexists _; iexact HS

theorem owed_zero (c : Dev nD) (t : Fin (cfg1.N + 1)) : (dat V c).owed t = 0 := rfl

theorem q_full (c : Dev nD) (w : Fin cfg1.W) : (dat V c).q w = fullShare := rfl

theorem recorded_univ (c : Dev nD) (t : Fin (cfg1.N + 1)) : (dat V c).recorded t = Set.univ := rfl

end Cert.Kernel.R1

end
-- ==== Proof.K_R2.lean ====
import proofs.«412725_j14448269984048_2_alg».proof.Proof.Gen.Kernel.Skeleton
import proofs.«412725_j14448269984048_2_alg».proof.Proof.Gen.Kernel.Launch
import proofs.«412725_j14448269984048_2_alg».proof.Proof.Gen.Kernel.Points
import proofs.«412725_j14448269984048_2_alg».proof.Proof.FrameLib

noncomputable section

namespace Cert.Kernel.R2

open Cert.Kernel Cert.Kernel.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev b0 (c : Dev nD) (t : Fin cfg2.N) : Vec F S2000x128 .f32 := ((cfg2.win 0).blk t).view.read (Elt F) (V c (Pipeline.arrRef spec2 0))
abbrev b1 (c : Dev nD) (t : Fin cfg2.N) : Vec F S512x128 .f32 := ((cfg2.win 1).blk t).view.read (Elt F) (V c (Pipeline.arrRef spec2 1))

theorem sound_kernel (c : Dev nD) (E : Set ℕ) (i : grid2.Coords)
    (arg1 : Memref sig .tc .vmem S2000x128 .f32) (harg1 : arg1.IsWhole)
    (arg2 : Memref sig .tc .vmem S512x128 .f32) (harg2 : arg2.IsWhole)
    (arg3 : Memref sig .tc .vmem S2000x512 .f32) (harg3 : arg3.IsWhole)
    (x0 : Vec F S2000x128 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k2_pay1 x0 x1)) -∗ K ⟨⟩))
      ⊢ wp frame (wpE (defs₀ (F := F)) Variants.none c none) E (cc2__pred_kernel i arg1 harg1 arg2 harg2 arg3 harg3) K := by
  simp only [cc2__pred_kernel_eq_skeleton]; unfold cc2__pred_kernel_skel
  rw [owns_eq_unread harg1, owns_eq_unread harg2]; unfold owns
  iintro ⟨H0, H1, ⟨%d2, %f2, -, H2⟩, Hk⟩
  sl_exec
  sl_step
  iapply Hk
  iframe H0 H1
  iexists _; isplitr
  swap; · iexact H2
  ipureintro
  rw [read_writes_whole _ _ hz2, readAt_unit_unread harg1 hz2, readAt_unit_unread harg2 hz2]

def dat (c : Dev nD) : Dat τ (Elt F) Unit ℕ (UR sig nD τ) ℕ cfg2 c where
  A w := V c (Pipeline.arrRef spec2 w)
  after w t := match w with
    | ⟨0, _⟩ => b0 V c t
    | ⟨1, _⟩ => b1 V c t
    | ⟨2, _⟩ => k2_pay1 (b0 V c t) (b1 V c t)
  Φ _ := Pipeline.ΦA spec2 c
  q _ := fullShare
  owed _ := 0

theorem A_eq (c : Dev nD) (w : Fin cfg2.W) : (dat V c).A w = V c (Pipeline.arrRef spec2 w) := rfl

theorem after_2 (c : Dev nD) (t : Fin cfg2.N) : (dat V c).after 2 t = k2_pay1 (b0 V c t) (b1 V c t) := rfl

theorem before_0 (c : Dev nD) (t : Fin cfg2.N) (d) : (dat V c).before 0 t d = b0 V c t :=
  ((dat V c).before_in_eq_fetched 0 rfl (fun _ => rfl) (fun _ _ _ => rfl) (fun _ => rfl) t d).trans rfl
theorem before_1 (c : Dev nD) (t : Fin cfg2.N) (d) : (dat V c).before 1 t d = b1 V c t :=
  ((dat V c).before_in_eq_fetched 1 rfl (fun _ => rfl) (fun _ _ _ => rfl) (fun _ => rfl) t d).trans rfl

theorem body_obligation (c : Dev nD) : BodyObligation (dat (F := F) V c) (defs₀ (F := F)) Variants.none () Set.univ := fun t => by
  rw [bigSep_W2, bigSep_W2]
  show iprop((dat V c).Φ t.castSucc ∗ (dat V c).owesAt () t.castSucc
      ∗ (∃ d, owns (c : Thread nD τ) (st2_0 t) fullShare ((dat V c).before 0 t d))
      ∗ (∃ d, owns (c : Thread nD τ) (st2_1 t) fullShare ((dat V c).before 1 t d))
      ∗ (∃ d, owns (c : Thread nD τ) (st2_2 t) fullShare ((dat V c).before 2 t d)))
    ⊢ wp frame (wpE (defs₀ (F := F)) Variants.none c none) Set.univ (bodyAt2 t) fun _ =>
      iprop((dat V c).Φ t.castSucc ∗ (dat V c).owesAt () t.castSucc
        ∗ owns (c : Thread nD τ) (st2_0 t) fullShare (b0 V c t)
        ∗ owns (c : Thread nD τ) (st2_1 t) fullShare (b1 V c t)
        ∗ owns (c : Thread nD τ) (st2_2 t) fullShare (k2_pay1 (b0 V c t) (b1 V c t)))
  unfold bodyAt2
  simp only [before_0, before_1]
  iintro ⟨HΦ, Ho, ⟨%d0, H0⟩, ⟨%d1, H1⟩, ⟨%d2, H2⟩⟩
  iapply (sound_kernel c Set.univ _ _ _ _ _ _ _ (b0 V c t) (b1 V c t) _)
  iframe H0 H1
  isplitl [H2]; · iexists _; iexact H2
  iintro ⟨H0, H1, H2⟩
  iframe

theorem hin (c : Dev nD) : Pipeline.ΦA spec2 c ⊢ (dat V c).Φ 0 := .rfl

theorem hout (c : Dev nD) : (dat V c).Φ (Fin.last cfg2.N) ⊢ (Pipeline.ΦA spec2 c : sProp 𝕄) := .rfl

theorem owed_zero (c : Dev nD) (t : Fin (cfg2.N + 1)) : (dat V c).owed t = 0 := rfl

theorem q_full (c : Dev nD) (w : Fin cfg2.W) : (dat V c).q w = fullShare := rfl

theorem recorded_univ (c : Dev nD) (t : Fin (cfg2.N + 1)) : (dat V c).recorded t = Set.univ := rfl

end Cert.Kernel.R2

end
-- ==== Proof.K_RunAll.lean ====
import proofs.«412725_j14448269984048_2_alg».proof.Proof.K_R0
import proofs.«412725_j14448269984048_2_alg».proof.Proof.K_R1
import proofs.«412725_j14448269984048_2_alg».proof.Proof.K_R2
import proofs.«412725_j14448269984048_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.RunAll

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

section Exit

variable {cfg : Pipeline.Cfg sig Λ₀} (c : Dev nD) (W : Valuation τ sig (Elt F)) (d : Dat τ (Elt F) Unit ℕ (UR sig nD τ) ℕ cfg c)

def exitW : Valuation τ sig (Elt F) := Pipeline.withArrays cfg.spec c W fun w => d.arrAt w cfg.N

theorem exitW_arr (hw : Pipeline.WinFacts cfg.spec) (w : Fin cfg.W) :
    exitW c W d (Proc.devRef .tc (Pipeline.arrRef cfg.spec w)) = d.arrAt w cfg.N :=
  Pipeline.withArrays_arr cfg.spec hw.arr_inj c _ _ w

theorem exitW_rest (b : Ref sig .tc) (hb : b ∉ Finset.univ.image (Pipeline.arrRef cfg.spec)) :
    exitW c W d (Proc.devRef .tc b) = W (Proc.devRef .tc b) :=
  Pipeline.withArrays_of_ne cfg.spec c _ _ b fun w e => hb (Finset.mem_image.mpr ⟨w, Finset.mem_univ _, e⟩)

theorem exitW_of (hw : Pipeline.WinFacts cfg.spec) (hA : ∀ w, d.A w = W (Proc.devRef .tc (Pipeline.arrRef cfg.spec w)))
    {O : List (Ref sig .tc)} (hO : ∀ w, Pipeline.arrRef cfg.spec w ∉ O → (cfg.win w).isOut = false) (r : Ref sig .tc) (h : r ∉ O) :
    exitW c W d (Proc.devRef .tc r) = W (Proc.devRef .tc r) := by
  by_cases hr : r ∈ Finset.univ.image (Pipeline.arrRef cfg.spec)
  · obtain ⟨w, -, rfl⟩ := Finset.mem_image.mp hr
    exact (exitW_arr c W d hw w).trans ((d.arrAt_in w (hO w h) _).trans (hA w))
  · exact exitW_rest c W d r hr

theorem owes_first (ho : d.owed 0 = 0) (hr : d.recorded 0 = Set.univ) :
    iprop(∃ W, owes (c : Thread nD τ) (0 : CellTallies nD τ sig Unit) W) ⊢ (d.owesAt () 0 : sProp 𝕄) := by
  unfold Pipeline.Dat.owesAt Pipeline.owesWithin Pipeline.Dat.bound
  rw [ho, hr]
  iintro ⟨%W, HO⟩; iexists W; isplitr; · ipureintro; exact fun _ _ => Or.inl trivial
  iexact HO

theorem owes_last (ho : d.owed (Fin.last _) = 0) :
    (d.owesAt () (Fin.last _) : sProp 𝕄) ⊢ iprop(∃ W, owes (c : Thread nD τ) (0 : CellTallies nD τ sig Unit) W) := by
  unfold Pipeline.Dat.owesAt Pipeline.owesWithin
  rw [ho]
  iintro ⟨%W, -, HO⟩; iexists W; iexact HO

end Exit

abbrev tcv (W : Dev nD → Valuation τ sig (Elt F)) : (c : Dev nD) → (b : Ref sig .tc) → Buf (Elt F) ((c : Thread nD τ).loc b) := fun c b => W c b

abbrev W0 (c : Dev nD) : Valuation τ sig (Elt F) := fun b => m (c, b)
abbrev W1 (c : Dev nD) : Valuation τ sig (Elt F) := StableHlo.after hostOps0 (W0 m c)
abbrev V1 : (c : Dev nD) → (b : Ref sig .tc) → Buf (Elt F) ((c : Thread nD τ).loc b) := tcv (W1 m)
def W2 (c : Dev nD) : Valuation τ sig (Elt F) := exitW c (W1 m c) (R0.dat (V1 m) c)
abbrev W3 (c : Dev nD) : Valuation τ sig (Elt F) := StableHlo.after hostOps1 (W2 m c)
abbrev V3 : (c : Dev nD) → (b : Ref sig .tc) → Buf (Elt F) ((c : Thread nD τ).loc b) := tcv (W3 m)
def W4 (c : Dev nD) : Valuation τ sig (Elt F) := exitW c (W3 m c) (R1.dat (V3 m) c)
abbrev V4 : (c : Dev nD) → (b : Ref sig .tc) → Buf (Elt F) ((c : Thread nD τ).loc b) := tcv (W4 m)
def W5 (c : Dev nD) : Valuation τ sig (Elt F) := exitW c (W4 m c) (R2.dat (V4 m) c)
abbrev W6 (c : Dev nD) : Valuation τ sig (Elt F) := StableHlo.after hostOps3 (W5 m c)
abbrev W7 (c : Dev nD) : Valuation τ sig (Elt F) := StableHlo.after hostOps3_1 (W6 m c)
abbrev W8 (c : Dev nD) : Valuation τ sig (Elt F) := StableHlo.after hostOps3_2 (W7 m c)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ ([main_v21_0, main_v21_1] : List (Ref sig .tc))) :
    W2 m c (Proc.devRef .tc r) = W1 m c (Proc.devRef .tc r) :=
  exitW_of c (W1 m c) (R0.dat (V1 m) c) launch0.win (R0.A_eq (V1 m) c) (by decide) r h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : r ∉ ([main_v36_0, main_v36_1] : List (Ref sig .tc))) :
    W4 m c (Proc.devRef .tc r) = W3 m c (Proc.devRef .tc r) :=
  exitW_of c (W3 m c) (R1.dat (V3 m) c) launch1.win (R1.A_eq (V3 m) c) (by decide) r h
theorem W5_of (c : Dev nD) (r : Ref sig .tc) (h : r ∉ ([main_v37] : List (Ref sig .tc))) :
    W5 m c (Proc.devRef .tc r) = W4 m c (Proc.devRef .tc r) :=
  exitW_of c (W4 m c) (R2.dat (V4 m) c) launch2.win (R2.A_eq (V4 m) c) (by decide) r h

theorem W8_main_v47 (c : Dev nD) : W8 m c (Proc.devRef .tc main_v47)
    = StableHlo.after hostOps3_2 (StableHlo.after hostOps3_1 (StableHlo.after hostOps3 (W5 m c))) (Proc.devRef .tc main_v47) := rfl

theorem W2_main_v21_0 (c : Dev nD) : W2 m c (Proc.devRef .tc main_v21_0) = (R0.dat (V1 m) c).arrAt 9 cfg0.N := exitW_arr c _ _ launch0.win 9
theorem W2_main_v21_1 (c : Dev nD) : W2 m c (Proc.devRef .tc main_v21_1) = (R0.dat (V1 m) c).arrAt 10 cfg0.N := exitW_arr c _ _ launch0.win 10
theorem W4_main_v36_0 (c : Dev nD) : W4 m c (Proc.devRef .tc main_v36_0) = (R1.dat (V3 m) c).arrAt 9 cfg1.N := exitW_arr c _ _ launch1.win 9
theorem W4_main_v36_1 (c : Dev nD) : W4 m c (Proc.devRef .tc main_v36_1) = (R1.dat (V3 m) c).arrAt 10 cfg1.N := exitW_arr c _ _ launch1.win 10
theorem W5_main_v37 (c : Dev nD) : W5 m c (Proc.devRef .tc main_v37) = (R2.dat (V4 m) c).arrAt 2 cfg2.N := exitW_arr c _ _ launch2.win 2

abbrev written : List (Ref sig .tc) :=
  hostOps0_W ++ [main_v21_0, main_v21_1] ++ hostOps1_W ++ [main_v36_0, main_v36_1] ++ [main_v37] ++ hostOps3_W ++ hostOps3_1_W ++ hostOps3_2_W

theorem W8_arg (c : Dev nD) (r : Ref sig .tc) (h : r ∉ written) : W8 m c (Proc.devRef .tc r) = m ((c : Thread nD τ).loc r) := by
  simp only [written, List.mem_append, not_or, and_assoc] at h
  obtain ⟨h1, h2, h3, h4, h5, h6, h7, h8⟩ := h
  exact (StableHlo.after_of_writes_sub hostOps3_2 _ hostOps3_2_writes h8).trans <|
    (StableHlo.after_of_writes_sub hostOps3_1 _ hostOps3_1_writes h7).trans <|
    (StableHlo.after_of_writes_sub hostOps3 _ hostOps3_writes h6).trans <| (W5_of m c r h5).trans <| (W4_of m c r h4).trans <|
    (W3_of m c r h3).trans <| (W2_of m c r h2).trans <| (W1_of m c r h1).trans rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev ArgsKept (s : (ℓ : Loc nD τ sig) → Buf (Elt F) ℓ) (c : Dev nD) : Prop :=
  s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)
    ∧ s ((c.tc : Thread nD τ).loc main_arg3) = m ((c.tc : Thread nD τ).loc main_arg3)
    ∧ s ((c.tc : Thread nD τ).loc main_arg4) = m ((c.tc : Thread nD τ).loc main_arg4)
    ∧ s ((c.tc : Thread nD τ).loc main_arg5) = m ((c.tc : Thread nD τ).loc main_arg5)
    ∧ s ((c.tc : Thread nD τ).loc main_arg6) = m ((c.tc : Thread nD τ).loc main_arg6)
    ∧ s ((c.tc : Thread nD τ).loc main_arg7) = m ((c.tc : Thread nD τ).loc main_arg7)
    ∧ s ((c.tc : Thread nD τ).loc main_arg8) = m ((c.tc : Thread nD τ).loc main_arg8)
    ∧ s ((c.tc : Thread nD τ).loc main_arg9) = m ((c.tc : Thread nD τ).loc main_arg9)
    ∧ s ((c.tc : Thread nD τ).loc main_arg10) = m ((c.tc : Thread nD τ).loc main_arg10)
    ∧ s ((c.tc : Thread nD τ).loc main_arg11) = m ((c.tc : Thread nD τ).loc main_arg11)

theorem arg_kept {s : (ℓ : Loc nD τ sig) → Buf (Elt F) ℓ} {c : Dev nD}
    (h : ∀ b ∈ Pipeline.ucRefs τ sig, s (((c : Thread nD τ)).1, b) = W8 m c b) (a : Ref sig .tc)
    (hu : ¬ (Proc.devRef .tc a : DevRef τ sig).isScoped := by decide) (hw : a ∉ written := by decide) :
    s ((c.tc : Thread nD τ).loc a) = m ((c.tc : Thread nD τ).loc a) :=
  (h _ (mem_uc a hu)).trans (W8_arg m c a hw)

theorem args_kept (r : PUnit × MemSt nD τ sig (Elt F))
    (h : ∀ c : Dev nD, ∀ b ∈ Pipeline.ucRefs τ sig, r.2.mem (((c : Thread nD τ)).1, b) = W8 m c b) (c : Dev nD) : ArgsKept m r.2.mem c :=
  ⟨arg_kept m (h c) main_arg0, arg_kept m (h c) main_arg1, arg_kept m (h c) main_arg2, arg_kept m (h c) main_arg3,
    arg_kept m (h c) main_arg4, arg_kept m (h c) main_arg5, arg_kept m (h c) main_arg6, arg_kept m (h c) main_arg7,
    arg_kept m (h c) main_arg8, arg_kept m (h c) main_arg9, arg_kept m (h c) main_arg10, arg_kept m (h c) main_arg11⟩

def pdats : (p : Fin 3) → (c : Dev nD) → Dat τ (Elt F) Unit ℕ (UR sig nD τ) ℕ (cfgs p) c
  | ⟨0, _⟩ => fun c => R0.dat (V1 m) c
  | ⟨1, _⟩ => fun c => R1.dat (V3 m) c
  | ⟨2, _⟩ => fun c => R2.dat (V4 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
def reg (p : Fin 3) (lf : Pipeline.LaunchFacts (nD := nD) (τ := τ) cfgs p) (V : Dev nD → Valuation τ sig (Elt F))
    (hbody : ∀ c, BodyObligation (pdats m p c) (defs₀ (F := F)) Variants.none () Set.univ)
    (hq : ∀ c w, (pdats m p c).q w = fullShare)
    (hA : ∀ c w, (pdats m p c).A w = V c (Proc.devRef .tc (Pipeline.arrRef (cfgs p).spec w)))
    (ho : ∀ c t, (pdats m p c).owed t = 0) (hr : ∀ c t, (pdats m p c).recorded t = Set.univ)
    (hin : ∀ c, Pipeline.ΦA (cfgs p).spec c ⊢ (pdats m p c).Φ 0)
    (hout : ∀ c, (pdats m p c).Φ (Fin.last (cfgs p).N) ⊢ (Pipeline.ΦA (cfgs p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig) (exitW c (V c) (pdats m p c)) ∗ R c)
  X c := iprop(∃ r, prngReg c r)
  Y c := iprop(∃ r, prngReg c r)
  Z c := Pipeline.unscopedRest (Ix := Unit) (Name := ℕ) (U := UR sig nD τ) (Lvl := ℕ) (cfgs p).spec c (tcv V c)
  hentry c := by
    have hsplit := Pipeline.arrays_of_unscopedBufs (p := p) (pcfgs (F := F)) adm (pdats m) lf.win lf.arr_whole c
      ((pdats m p c).share_full (hq c)) (tcv V c) (hA c)
    rw [Pipeline.unscopedBufs_held] at hsplit
    iintro ⟨⟨Hub, Hp, HO⟩, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply owes_first c _ (ho c 0) (hr c 0); iexact HO
    isplitl [Hp] <;> iassumption
  hin c := .trans (by unfold Pipeline.ΦA; iintro ⟨Hp, -, Hr⟩; isplitl [Hr] <;> iassumption) (hin c)
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (tcv V c) (fun b => exitW c (V c) (pdats m p c) b)
      ((pdats m p c).arrAt · (cfgs p).N) (fun w => (exitW_arr c _ _ lf.win w).symm) (exitW_rest c _ _)
    rw [Pipeline.unscopedBufs_held] at hjoin
    iintro ⟨Ha, HO, HY, Hrest⟩
    imodintro
    isplitl [Ha Hrest]
    · iapply hjoin; isplitl [Ha] <;> iassumption
    isplitl [HY]; · iexact HY
    iapply owes_last c _ (ho c _); iexact HO

abbrev reg0 := reg m 0 launch0 (W1 m) (R0.body_obligation (V1 m)) (R0.q_full (V1 m)) (R0.A_eq (V1 m)) (R0.owed_zero (V1 m))
  (R0.recorded_univ (V1 m)) (R0.hin (V1 m)) (R0.hout (V1 m))
abbrev reg1 := reg m 1 launch1 (W3 m) (R1.body_obligation (V3 m)) (R1.q_full (V3 m)) (R1.A_eq (V3 m)) (R1.owed_zero (V3 m))
  (R1.recorded_univ (V3 m)) (R1.hin (V3 m)) (R1.hout (V3 m))
abbrev reg2 := reg m 2 launch2 (W4 m) (R2.body_obligation (V4 m)) (R2.q_full (V4 m)) (R2.A_eq (V4 m)) (R2.owed_zero (V4 m))
  (R2.recorded_univ (V4 m)) (R2.hin (V4 m)) (R2.hout (V4 m))

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .host (hseg hostOps3_1 hostOps3_1_sub hostOps3_1_fresh (W6 m)),
    .host (hseg hostOps3_2 hostOps3_2_sub hostOps3_2_fresh (W7 m)) ]

set_option backward.isDefEq.respectTransparency.types false in
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W8 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W8 m c))
    (hch := fun c => ⟨.rfl, .rfl, .rfl, .rfl, .rfl, .rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨Hh, HSI⟩
      unfold StableHlo.held
      imodintro
      iapply (pointsTo_read_all (Pipeline.ucRefs τ sig) (fun b => (((c : Thread nD τ)).1, b)) (W8 m c) s')
      isplitl [Hh] <;> iassumption)
    (hQ := fun s h => h)

theorem frame (ρ : Dev nD → PrngReg) :
    θ_run defs (onTc (τ := τ) (main (F := F))) ⟨m, fun _ => 0, ρ⟩ (fun r => ∀ c : Dev nD, ArgsKept m r.2.mem c) :=
  (θ_run defs _ _).mono (fun r h c => args_kept m r h c) (run_all m ρ)

end Cert.Kernel.RunAll

end
-- ==== Proof.KI_R0.lean ====
import proofs.«412725_j14448269984048_2_alg».proof.Proof.Gen.KernelIdeal.Skeleton
import proofs.«412725_j14448269984048_2_alg».proof.Proof.Gen.KernelIdeal.Launch
import proofs.«412725_j14448269984048_2_alg».proof.Proof.Gen.KernelIdeal.Points
import proofs.«412725_j14448269984048_2_alg».proof.Proof.FrameLib

noncomputable section

namespace Cert.KernelIdeal.R0

open Cert.KernelIdeal Cert.KernelIdeal.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condFirst (i : grid0.Coords) : Prop := (Scalar.cmpi .ne (Scalar.extui (Scalar.cmpi .eq (BitVec.ofNat 32 (i 0).val) 0#32)) 0#32) = 1#1

theorem hcondFirst : ∀ t : Fin cfg0.N, condFirst (grid0.coords t) ↔ t.val = 0 := by decide +kernel

theorem hcondLast : ∀ t : Fin cfg0.N, k0_cond2 (grid0.coords t) = 1#1 ↔ t.val = 49 := by decide +kernel

section Run

variable (c : Dev nD) (i : grid0.Coords) (a1 a10 : Memref sig .tc .vmem S2000x128 .f32) (a2 : Memref sig .tc .vmem S2000x512 .f32)
  (a3 a11 a12 : Memref sig .tc .vmem S512x128 .f32) (a4 a5 a6 a7 : Memref sig .tc .vmem S128x128 .f32) (a8 a9 : Memref sig .tc .vmem S1x128 .f32)
  (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole)
  (x0 : Vec F S2000x128 .f32) (x1 : Vec F S2000x512 .f32) (x2 : Vec F S512x128 .f32) (x3 x4 x5 x6 : Vec F S128x128 .f32) (x7 x8 : Vec F S1x128 .f32)
  (s : Vec F S512x128 .f32)

def withIns (R : sProp 𝕄) : sProp 𝕄 :=
  iprop(owns (c : Thread nD τ) a1 fullShare x0 ∗ owns (c : Thread nD τ) a2 fullShare x1 ∗ owns (c : Thread nD τ) a3 fullShare x2
    ∗ owns (c : Thread nD τ) a4 fullShare x3 ∗ owns (c : Thread nD τ) a5 fullShare x4 ∗ owns (c : Thread nD τ) a6 fullShare x5
    ∗ owns (c : Thread nD τ) a7 fullShare x6 ∗ owns (c : Thread nD τ) a8 fullShare x7 ∗ owns (c : Thread nD τ) a9 fullShare x8 ∗ R)

theorem run_first (E : Set ℕ) (K : PUnit → sProp 𝕄) (hc1 : condFirst i) (hc2 : ¬k0_cond2 i = 1#1) :
    withIns c a1 a2 a3 a4 a5 a6 a7 a8 a9 x0 x1 x2 x3 x4 x5 x6 x7 x8 iprop((∃ d, owns (c : Thread nD τ) a10 fullShare d) ∗ (∃ d, owns (c : Thread nD τ) a12 fullShare d)
        ∗ (withIns c a1 a2 a3 a4 a5 a6 a7 a8 a9 x0 x1 x2 x3 x4 x5 x6 x7 x8 iprop(owns (c : Thread nD τ) a10 fullShare (k0_pay2 (k0_pay5 x0) (k0_pay6 x2) (k0_pay7 x1) (k0_pay9 x4) (k0_pay10 x5) x7)
            ∗ owns (c : Thread nD τ) a12 fullShare (k0_pay1 (k0_pay5 x0) (k0_pay7 x1) (k0_pay8 x3) (k0_pay4 (F := F)))) -∗ K ⟨⟩))
      ⊢ wp frame (wpE (defs₀ (F := F)) Variants.none c none) E (cc0__layer_kernel i a1 h1 a2 h2 a3 h3 a4 h4 a5 h5 a6 h6 a7 h7 a8 h8 a9 h9 a10 h10 a11 h11 a12 h12) K := by
  unfold withIns
  simp only [cc0__layer_kernel_eq_skeleton]; unfold cc0__layer_kernel_skel
  simp only [k0_part1_eq_skeleton]; unfold k0_part1_skel
  rw [owns_eq_unread h1, owns_eq_unread h2, owns_eq_unread h3, owns_eq_unread h4, owns_eq_unread h5, owns_eq_unread h6, owns_eq_unread h7, owns_eq_unread h8, owns_eq_unread h9]; unfold owns
  iintro ⟨H0, H1, H2, H3, H4, H5, H6, H7, H8, ⟨%d9, %f9, -, H9⟩, ⟨%ds, %fs, -, HS⟩, Hk⟩
  sl_exec (disch := first | exact hc1 | exact hc2)
  sl_step
  iapply Hk
  iframe H0 H1 H2 H3 H4 H5 H6 H7 H8
  isplitl [H9]
  · iexists _; isplitr
    swap; · iexact H9
    ipureintro
    refine (read_writes_whole _ _ hz2 _ _ _).trans ?_
    rw [readAt_unit_unread h1 hz2, readAt_unit_unread h2 hz2, readAt_unit_unread h3 hz2, readAt_unit_unread h5 hz2, readAt_unit_unread h6 hz2, readAt_unit_unread h8 hz2]
  · iexists _; isplitr
    swap; · iexact HS
    ipureintro
    sl_unfold_words
    refine (read_writes_whole _ _ hz2 _ _ _).trans ?_
    rw [readAt_unit_unread h1 hz2, readAt_unit_unread h2 hz2, readAt_unit_unread h4 hz2]
    rw [View.readCov_unit_zero a12.view hz2]

theorem run_mid (E : Set ℕ) (K : PUnit → sProp 𝕄) (hc1 : ¬condFirst i) (hc2 : ¬k0_cond2 i = 1#1) :
    withIns c a1 a2 a3 a4 a5 a6 a7 a8 a9 x0 x1 x2 x3 x4 x5 x6 x7 x8 iprop((∃ d, owns (c : Thread nD τ) a10 fullShare d) ∗ owns (c : Thread nD τ) a12 fullShare s
        ∗ (withIns c a1 a2 a3 a4 a5 a6 a7 a8 a9 x0 x1 x2 x3 x4 x5 x6 x7 x8 iprop(owns (c : Thread nD τ) a10 fullShare (k0_pay2 (k0_pay5 x0) (k0_pay6 x2) (k0_pay7 x1) (k0_pay9 x4) (k0_pay10 x5) x7)
            ∗ owns (c : Thread nD τ) a12 fullShare (k0_pay1 (k0_pay5 x0) (k0_pay7 x1) (k0_pay8 x3) s)) -∗ K ⟨⟩))
      ⊢ wp frame (wpE (defs₀ (F := F)) Variants.none c none) E (cc0__layer_kernel i a1 h1 a2 h2 a3 h3 a4 h4 a5 h5 a6 h6 a7 h7 a8 h8 a9 h9 a10 h10 a11 h11 a12 h12) K := by
  unfold withIns
  simp only [cc0__layer_kernel_eq_skeleton]; unfold cc0__layer_kernel_skel
  simp only [k0_part1_eq_skeleton]; unfold k0_part1_skel
  rw [owns_eq_unread h1, owns_eq_unread h2, owns_eq_unread h3, owns_eq_unread h4, owns_eq_unread h5, owns_eq_unread h6, owns_eq_unread h7, owns_eq_unread h8, owns_eq_unread h9, owns_eq_unread h12 fullShare s]; unfold owns
  iintro ⟨H0, H1, H2, H3, H4, H5, H6, H7, H8, ⟨%d9, %f9, -, H9⟩, HS, Hk⟩
  sl_exec (disch := first | exact hc1 | exact hc2)
  sl_step
  iapply Hk
  iframe H0 H1 H2 H3 H4 H5 H6 H7 H8
  isplitl [H9]
  · iexists _; isplitr
    swap; · iexact H9
    ipureintro
    refine (read_writes_whole _ _ hz2 _ _ _).trans ?_
    rw [readAt_unit_unread h1 hz2, readAt_unit_unread h2 hz2, readAt_unit_unread h3 hz2, readAt_unit_unread h5 hz2, readAt_unit_unread h6 hz2, readAt_unit_unread h8 hz2]
  · iexists _; isplitr
    swap; · iexact HS
    ipureintro
    refine (read_writes_whole _ _ hz2 _ _ _).trans ?_
    rw [readAt_unit_unread h1 hz2, readAt_unit_unread h2 hz2, readAt_unit_unread h4 hz2, readAt_unit_unread h12 hz2]

theorem run_last (E : Set ℕ) (K : PUnit → sProp 𝕄) (hc1 : ¬condFirst i) (hc2 : k0_cond2 i = 1#1) :
    withIns c a1 a2 a3 a4 a5 a6 a7 a8 a9 x0 x1 x2 x3 x4 x5 x6 x7 x8 iprop((∃ d, owns (c : Thread nD τ) a10 fullShare d) ∗ (∃ d, owns (c : Thread nD τ) a11 fullShare d) ∗ owns (c : Thread nD τ) a12 fullShare s
        ∗ (withIns c a1 a2 a3 a4 a5 a6 a7 a8 a9 x0 x1 x2 x3 x4 x5 x6 x7 x8 iprop(owns (c : Thread nD τ) a10 fullShare (k0_pay2 (k0_pay5 x0) (k0_pay6 x2) (k0_pay7 x1) (k0_pay9 x4) (k0_pay10 x5) x7)
            ∗ owns (c : Thread nD τ) a11 fullShare (k0_pay3 (k0_pay6 x2) (k0_pay11 x6) x8 (k0_pay1 (k0_pay5 x0) (k0_pay7 x1) (k0_pay8 x3) s))
            ∗ owns (c : Thread nD τ) a12 fullShare (k0_pay1 (k0_pay5 x0) (k0_pay7 x1) (k0_pay8 x3) s)) -∗ K ⟨⟩))
      ⊢ wp frame (wpE (defs₀ (F := F)) Variants.none c none) E (cc0__layer_kernel i a1 h1 a2 h2 a3 h3 a4 h4 a5 h5 a6 h6 a7 h7 a8 h8 a9 h9 a10 h10 a11 h11 a12 h12) K := by
  unfold withIns
  simp only [cc0__layer_kernel_eq_skeleton]; unfold cc0__layer_kernel_skel
  simp only [k0_part1_eq_skeleton]; unfold k0_part1_skel
  rw [owns_eq_unread h1, owns_eq_unread h2, owns_eq_unread h3, owns_eq_unread h4, owns_eq_unread h5, owns_eq_unread h6, owns_eq_unread h7, owns_eq_unread h8, owns_eq_unread h9, owns_eq_unread h12 fullShare s]; unfold owns
  iintro ⟨H0, H1, H2, H3, H4, H5, H6, H7, H8, ⟨%d9, %f9, -, H9⟩, ⟨%d10, %f10, -, H10⟩, HS, Hk⟩
  sl_exec (disch := first | exact hc1 | exact hc2)
  sl_step
  iapply Hk
  iframe H0 H1 H2 H3 H4 H5 H6 H7 H8
  isplitl [H9]
  · iexists _; isplitr
    swap; · iexact H9
    ipureintro
    refine (read_writes_whole _ _ hz2 _ _ _).trans ?_
    rw [readAt_unit_unread h1 hz2, readAt_unit_unread h2 hz2, readAt_unit_unread h3 hz2, readAt_unit_unread h5 hz2, readAt_unit_unread h6 hz2, readAt_unit_unread h8 hz2]
  isplitl [H10]
  · iexists _; isplitr
    swap; · iexact H10
    ipureintro
    sl_unfold_words
    refine (read_writes_whole _ _ hz2 _ _ _).trans ?_
    rw [readAt_unit_unread h3 hz2, readAt_unit_unread h7 hz2, readAt_unit_unread h9 hz2]
    rw [View.readCov_unit_zero a12.view hz2, readAt_unit_unread h1 hz2, readAt_unit_unread h2 hz2, readAt_unit_unread h4 hz2, readAt_unit_unread h12 hz2]
  · iexists _; isplitr
    swap; · iexact HS
    ipureintro
    refine (read_writes_whole _ _ hz2 _ _ _).trans ?_
    rw [readAt_unit_unread h1 hz2, readAt_unit_unread h2 hz2, readAt_unit_unread h4 hz2, readAt_unit_unread h12 hz2]

end Run

variable (V : (c : Dev nD) → (b : Ref sig .tc) → Buf (Elt F) ((c : Thread nD τ).loc b))

abbrev b0 (c : Dev nD) (t : Fin cfg0.N) : Vec F S2000x128 .f32 := ((cfg0.win 0).blk t).view.read (Elt F) (V c (Pipeline.arrRef spec0 0))
abbrev b1 (c : Dev nD) (t : Fin cfg0.N) : Vec F S2000x512 .f32 := ((cfg0.win 1).blk t).view.read (Elt F) (V c (Pipeline.arrRef spec0 1))
abbrev b2 (c : Dev nD) (t : Fin cfg0.N) : Vec F S512x128 .f32 := ((cfg0.win 2).blk t).view.read (Elt F) (V c (Pipeline.arrRef spec0 2))
abbrev b3 (c : Dev nD) (t : Fin cfg0.N) : Vec F S128x128 .f32 := ((cfg0.win 3).blk t).view.read (Elt F) (V c (Pipeline.arrRef spec0 3))
abbrev b4 (c : Dev nD) (t : Fin cfg0.N) : Vec F S128x128 .f32 := ((cfg0.win 4).blk t).view.read (Elt F) (V c (Pipeline.arrRef spec0 4))
abbrev b5 (c : Dev nD) (t : Fin cfg0.N) : Vec F S128x128 .f32 := ((cfg0.win 5).blk t).view.read (Elt F) (V c (Pipeline.arrRef spec0 5))
abbrev b6 (c : Dev nD) (t : Fin cfg0.N) : Vec F S128x128 .f32 := ((cfg0.win 6).blk t).view.read (Elt F) (V c (Pipeline.arrRef spec0 6))
abbrev b7 (c : Dev nD) (t : Fin cfg0.N) : Vec F S1x128 .f32 := ((cfg0.win 7).blk t).view.read (Elt F) (V c (Pipeline.arrRef spec0 7))
abbrev b8 (c : Dev nD) (t : Fin cfg0.N) : Vec F S1x128 .f32 := ((cfg0.win 8).blk t).view.read (Elt F) (V c (Pipeline.arrRef spec0 8))

def acc (c : Dev nD) : (n : ℕ) → n < cfg0.N → Vec F S512x128 .f32
  | 0, h => k0_pay1 (k0_pay5 (b0 V c ⟨0, h⟩)) (k0_pay7 (b1 V c ⟨0, h⟩)) (k0_pay8 (b3 V c ⟨0, h⟩)) (k0_pay4 (F := F))
  | n + 1, h => k0_pay1 (k0_pay5 (b0 V c ⟨n + 1, h⟩)) (k0_pay7 (b1 V c ⟨n + 1, h⟩)) (k0_pay8 (b3 V c ⟨n + 1, h⟩)) (acc c n (Nat.lt_of_succ_lt h))

abbrev scM : Memref sig .tc .vmem S512x128 .f32 := Memref.whole cc0_scratch0

abbrev others (c : Dev nD) : sProp 𝕄 :=
  Pipeline.scopedRestBut (Ix := Unit) (Name := ℕ) (U := UR sig nD τ) (Lvl := ℕ) (Val := Elt F) spec0 c [cc0_scratch0]

theorem PhiA_eq (c : Dev nD) :
    (Pipeline.ΦA spec0 c : sProp 𝕄)
      = iprop(((∃ d, owns (c : Thread nD τ) scM fullShare d) ∗ others (F := F) c) ∗ (∃ r, prngReg c r)) := by
  unfold Pipeline.ΦA
  rw [Pipeline.scopedRest_split_of_list spec0 c [cc0_scratch0] (by decide) (by decide)]
  simp only [bigSepL_singleton, scM, owns_whole]; try rfl

theorem acc_zero (c : Dev nD) (t : Fin cfg0.N) (h : t.val = 0) :
    acc V c t.val t.isLt = k0_pay1 (k0_pay5 (b0 V c t)) (k0_pay7 (b1 V c t)) (k0_pay8 (b3 V c t)) (k0_pay4 (F := F)) := by
  obtain ⟨_ | n, hn⟩ := t
  · rfl
  · exact absurd h (Nat.succ_ne_zero n)

theorem acc_pos (c : Dev nD) (t : Fin cfg0.N) (h : t.val ≠ 0) :
    acc V c t.val t.isLt = k0_pay1 (k0_pay5 (b0 V c t)) (k0_pay7 (b1 V c t)) (k0_pay8 (b3 V c t))
      (acc V c (t.val - 1) (Nat.lt_of_le_of_lt (Nat.sub_le _ _) t.isLt)) := by
  obtain ⟨_ | n, hn⟩ := t
  · exact absurd rfl h
  · rfl

-- Before the first point the accumulator holds anything; before a later one, what the point before left.
def PhiS (c : Dev nD) : (n : ℕ) → n ≤ cfg0.N → sProp 𝕄
  | 0, _ => Pipeline.ΦA spec0 c
  | n + 1, hn => iprop((owns (c : Thread nD τ) scM fullShare (acc V c n hn) ∗ others (F := F) c) ∗ (∃ r, prngReg c r))

theorem PhiS_zero (c : Dev nD) (n : ℕ) (h : n ≤ cfg0.N) (hz : n = 0) : PhiS V c n h = Pipeline.ΦA spec0 c := by
  subst hz; rfl

theorem PhiS_pos (c : Dev nD) (n : ℕ) (h : n ≤ cfg0.N) (hz : n ≠ 0) :
    PhiS V c n h = iprop((owns (c : Thread nD τ) scM fullShare (acc V c (n - 1) (by omega)) ∗ others (F := F) c) ∗ (∃ r, prngReg c r)) := by
  cases n with
  | zero => exact absurd rfl hz
  | succ n => rfl

def dat (c : Dev nD) : Dat τ (Elt F) Unit ℕ (UR sig nD τ) ℕ cfg0 c where
  A w := V c (Pipeline.arrRef spec0 w)
  after w t := match w with
    | ⟨0, _⟩ => b0 V c t
    | ⟨1, _⟩ => b1 V c t
    | ⟨2, _⟩ => b2 V c t
    | ⟨3, _⟩ => b3 V c t
    | ⟨4, _⟩ => b4 V c t
    | ⟨5, _⟩ => b5 V c t
    | ⟨6, _⟩ => b6 V c t
    | ⟨7, _⟩ => b7 V c t
    | ⟨8, _⟩ => b8 V c t
    | ⟨9, _⟩ => k0_pay2 (k0_pay5 (b0 V c t)) (k0_pay6 (b2 V c t)) (k0_pay7 (b1 V c t)) (k0_pay9 (b4 V c t)) (k0_pay10 (b5 V c t)) (b7 V c t)
    | ⟨10, _⟩ => k0_pay3 (k0_pay6 (b2 V c t)) (k0_pay11 (b6 V c t)) (b8 V c t) (acc V c t.val t.isLt)
  Φ t := PhiS V c t.val (Nat.le_of_lt_succ t.isLt)
  q _ := fullShare
  owed _ := 0

theorem A_eq (c : Dev nD) (w : Fin cfg0.W) : (dat V c).A w = V c (Pipeline.arrRef spec0 w) := rfl

theorem after_9 (c : Dev nD) (t : Fin cfg0.N) :
    (dat V c).after 9 t = k0_pay2 (k0_pay5 (b0 V c t)) (k0_pay6 (b2 V c t)) (k0_pay7 (b1 V c t)) (k0_pay9 (b4 V c t)) (k0_pay10 (b5 V c t)) (b7 V c t) := rfl

theorem after_10 (c : Dev nD) (t : Fin cfg0.N) (ht : t.val = 49) :
    (dat V c).after 10 t = k0_pay3 (k0_pay6 (b2 V c t)) (k0_pay11 (b6 V c t)) (b8 V c t) (acc V c t.val t.isLt) := rfl

theorem after_0 (c : Dev nD) (t : Fin cfg0.N) : (dat V c).after 0 t = b0 V c t := rfl
theorem after_1 (c : Dev nD) (t : Fin cfg0.N) : (dat V c).after 1 t = b1 V c t := rfl
theorem after_2 (c : Dev nD) (t : Fin cfg0.N) : (dat V c).after 2 t = b2 V c t := rfl
theorem after_3 (c : Dev nD) (t : Fin cfg0.N) : (dat V c).after 3 t = b3 V c t := rfl
theorem after_4 (c : Dev nD) (t : Fin cfg0.N) : (dat V c).after 4 t = b4 V c t := rfl
theorem after_5 (c : Dev nD) (t : Fin cfg0.N) : (dat V c).after 5 t = b5 V c t := rfl
theorem after_6 (c : Dev nD) (t : Fin cfg0.N) : (dat V c).after 6 t = b6 V c t := rfl
theorem after_7 (c : Dev nD) (t : Fin cfg0.N) : (dat V c).after 7 t = b7 V c t := rfl
theorem after_8 (c : Dev nD) (t : Fin cfg0.N) : (dat V c).after 8 t = b8 V c t := rfl

theorem before_in (c : Dev nD) (t : Fin cfg0.N) : ∀ (w : Fin cfg0.W) (d), w.val < 9 → (dat V c).before w t d = (dat V c).after w t
  | ⟨0, _⟩, d, _ | ⟨1, _⟩, d, _ | ⟨2, _⟩, d, _ | ⟨3, _⟩, d, _ | ⟨4, _⟩, d, _ | ⟨5, _⟩, d, _ | ⟨6, _⟩, d, _ | ⟨7, _⟩, d, _ | ⟨8, _⟩, d, _ =>
    ((dat V c).before_in_eq_fetched _ rfl (fun _ => rfl) (fun _ _ _ => rfl) (fun _ => rfl) t d).trans rfl
  | ⟨n + 9, _⟩, _, h => absurd h (Nat.not_lt.mpr (Nat.le_add_left 9 n))

theorem idle10 : ∀ t : Fin cfg0.N, ¬k0_cond2 (grid0.coords t) = 1#1 → cfg0.idle 10 (grid0.coords t) = true := by decide +kernel
theorem noFlush10 : ∀ t : Fin cfg0.N, ¬k0_cond2 (grid0.coords t) = 1#1 → (cfg0.win 10).flush t = false := by decide +kernel
theorem live10 : ∀ t : Fin cfg0.N, k0_cond2 (grid0.coords t) = 1#1 → cfg0.idle 10 (grid0.coords t) = false := by decide +kernel

theorem leaves_live (c : Dev nD) (w : Fin cfg0.W) (t : Fin cfg0.N) (hi : cfg0.idle w (cfg0.grid.coords t) = false) :
    (dat V c).leavesExact w t = owns (c : Thread nD τ) ((cfg0.win w).stage (cfg0.slots t w)) fullShare ((dat V c).after w t) := by
  unfold Dat.leavesExact; rw [hi]

theorem body_obligation (c : Dev nD) : BodyObligation (dat (F := F) V c) (defs₀ (F := F)) Variants.none () Set.univ := fun t => by
  show iprop(PhiS V c t.val (Nat.le_of_lt t.isLt) ∗ _ ∗ bigSep Finset.univ fun w : Fin cfg0.W =>
      iprop(∃ d, owns (c : Thread nD τ) ((cfg0.win w).stage (cfg0.slots t w)) fullShare ((dat V c).before w t d)))
    ⊢ wp frame _ Set.univ (bodyAt0 t) fun _ => iprop(((owns (c : Thread nD τ) scM fullShare (acc V c t.val t.isLt) ∗ others (F := F) c) ∗ (∃ r, prngReg c r))
      ∗ (dat V c).owesAt () t.castSucc ∗ bigSep Finset.univ fun w => (dat V c).leavesExact w t)
  rw [bigSep_W0, bigSep_W0]
  unfold bodyAt0
  simp (disch := first | decide | rfl) only [before_in, leaves_live]
  rw [after_0, after_1, after_2, after_3, after_4, after_5, after_6, after_7, after_8, after_9]
  have hN : t.val < 50 := lt_of_lt_of_eq t.isLt (show cfg0.N = 50 from N_0)
  by_cases h0 : t.val = 0
  · have hc1 : condFirst (grid0.coords t) := (hcondFirst t).mpr h0
    have hc2 : ¬k0_cond2 (grid0.coords t) = 1#1 := fun h => by have := (hcondLast t).mp h; omega
    rw [Dat.leavesExact_idle (dat V c) 10 t (idle10 t hc2) (noFlush10 t hc2), PhiS_zero V c _ _ h0,
      PhiA_eq, acc_zero V c t h0]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
    iapply (run_first c (grid0.coords t) _ _ _ _ _ _ _ _ _ _ _ _ _ _ _ _ _ _ _ _ _ _ _ _ (b0 V c t) (b1 V c t) (b2 V c t) (b3 V c t) (b4 V c t) (b5 V c t) (b6 V c t) (b7 V c t) (b8 V c t) Set.univ _ hc1 hc2)
    unfold withIns
    iframe H0 H1 H2 H3 H4 H5 H6 H7 H8
    isplitl [H9]; · iexists _; iexact H9
    isplitl [HS]; · iexists _; iexact HS
    iintro ⟨H0, H1, H2, H3, H4, H5, H6, H7, H8, H9, HS⟩
    iframe
  · rw [PhiS_pos V c _ _ h0, acc_pos V c t h0]
    have hc1 : ¬condFirst (grid0.coords t) := fun h => h0 ((hcondFirst t).mp h)
    by_cases h49 : t.val = 49
    · have hc2 : k0_cond2 (grid0.coords t) = 1#1 := (hcondLast t).mpr h49
      rw [leaves_live V c 10 t (live10 t hc2), after_10 V c t h49, acc_pos V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_last c (grid0.coords t) _ _ _ _ _ _ _ _ _ _ _ _ _ _ _ _ _ _ _ _ _ _ _ _ (b0 V c t) (b1 V c t) (b2 V c t) (b3 V c t) (b4 V c t) (b5 V c t) (b6 V c t) (b7 V c t) (b8 V c t) _ Set.univ _ hc1 hc2)
      unfold withIns
      iframe H0 H1 H2 H3 H4 H5 H6 H7 H8
      isplitl [H9]; · iexists _; iexact H9
      isplitl [H10]; · iexists _; iexact H10
      isplitl [HS]; · iexact HS
      iintro ⟨H0, H1, H2, H3, H4, H5, H6, H7, H8, H9, H10, HS⟩
      iframe
    · have hc2 : ¬k0_cond2 (grid0.coords t) = 1#1 := fun h => h49 ((hcondLast t).mp h)
      rw [Dat.leavesExact_idle (dat V c) 10 t (idle10 t hc2) (noFlush10 t hc2)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10⟩
      iapply (run_mid c (grid0.coords t) _ _ _ _ _ _ _ _ _ _ _ _ _ _ _ _ _ _ _ _ _ _ _ _ (b0 V c t) (b1 V c t) (b2 V c t) (b3 V c t) (b4 V c t) (b5 V c t) (b6 V c t) (b7 V c t) (b8 V c t) _ Set.univ _ hc1 hc2)
      unfold withIns
      iframe H0 H1 H2 H3 H4 H5 H6 H7 H8
      isplitl [H9]; · iexists _; iexact H9
      isplitl [HS]; · iexact HS
      iintro ⟨H0, H1, H2, H3, H4, H5, H6, H7, H8, H9, HS⟩
      iframe

theorem hin (c : Dev nD) : Pipeline.ΦA spec0 c ⊢ (dat V c).Φ 0 := .rfl

-- After the last point the accumulator's named contents are forgotten.
theorem hout (c : Dev nD) : (dat V c).Φ (Fin.last cfg0.N) ⊢ (Pipeline.ΦA spec0 c : sProp 𝕄) := by
  rw [show (dat V c).Φ (Fin.last cfg0.N) = PhiS V c (Fin.last cfg0.N).val (Nat.le_of_lt_succ (Fin.last cfg0.N).isLt) from rfl,
    PhiS_pos V c _ _ (by rw [Fin.val_last]; have : cfg0.N = 50 := N_0; omega), PhiA_eq]
  iintro ⟨⟨HS, HR⟩, Hg⟩
  iframe HR Hg
  iexists _; iexact HS

theorem owed_zero (c : Dev nD) (t : Fin (cfg0.N + 1)) : (dat V c).owed t = 0 := rfl

theorem q_full (c : Dev nD) (w : Fin cfg0.W) : (dat V c).q w = fullShare := rfl

theorem recorded_univ (c : Dev nD) (t : Fin (cfg0.N + 1)) : (dat V c).recorded t = Set.univ := rfl

end Cert.KernelIdeal.R0

end
-- ==== Proof.KI_R1.lean ====
import proofs.«412725_j14448269984048_2_alg».proof.Proof.Gen.KernelIdeal.Skeleton
import proofs.«412725_j14448269984048_2_alg».proof.Proof.Gen.KernelIdeal.Launch
import proofs.«412725_j14448269984048_2_alg».proof.Proof.Gen.KernelIdeal.Points
import proofs.«412725_j14448269984048_2_alg».proof.Proof.FrameLib

noncomputable section

namespace Cert.KernelIdeal.R1

open Cert.KernelIdeal Cert.KernelIdeal.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condFirst (i : grid1.Coords) : Prop :=
  (Scalar.cmpi .ne (Scalar.extui (Scalar.cmpi .eq (BitVec.ofNat 32 (i 0).val) 0#32)) 0#32) = 1#1
abbrev condLast (i : grid1.Coords) : Prop := k1_cond2 i = 1#1

theorem hcondFirst : ∀ t : Fin cfg1.N, condFirst (grid1.coords t) ↔ t.val = 0 := by decide +kernel
theorem hcondLast : ∀ t : Fin cfg1.N, condLast (grid1.coords t) ↔ t.val = 49 := by decide +kernel

theorem idle10 : ∀ t : Fin cfg1.N, ¬condLast (grid1.coords t) → cfg1.idle 10 (grid1.coords t) = true := by decide +kernel
theorem noFlush10 : ∀ t : Fin cfg1.N, ¬condLast (grid1.coords t) → (cfg1.win 10).flush t = false := by decide +kernel
theorem live10 : ∀ t : Fin cfg1.N, condLast (grid1.coords t) → cfg1.idle 10 (grid1.coords t) = false := by decide +kernel

section Run

variable (c : Dev nD) (i : grid1.Coords) (a1 a10 : Memref sig .tc .vmem S2000x128 .f32) (a2 : Memref sig .tc .vmem S2000x512 .f32)
  (a3 a11 a12 : Memref sig .tc .vmem S512x128 .f32) (a4 a5 a6 a7 : Memref sig .tc .vmem S128x128 .f32) (a8 a9 : Memref sig .tc .vmem S1x128 .f32)
  (h1 : a1.IsWhole) (h2 : a2.IsWhole) (h3 : a3.IsWhole) (h4 : a4.IsWhole) (h5 : a5.IsWhole) (h6 : a6.IsWhole) (h7 : a7.IsWhole) (h8 : a8.IsWhole)
  (h9 : a9.IsWhole) (h10 : a10.IsWhole) (h11 : a11.IsWhole) (h12 : a12.IsWhole)
  (x0 : Vec F S2000x128 .f32) (x1 : Vec F S2000x512 .f32) (x2 : Vec F S512x128 .f32) (x3 x4 x5 x6 : Vec F S128x128 .f32) (x7 x8 : Vec F S1x128 .f32)
  (x10 s : Vec F S512x128 .f32)

def withIns (R : sProp 𝕄) : sProp 𝕄 :=
  iprop(owns (c : Thread nD τ) a1 fullShare x0 ∗ owns (c : Thread nD τ) a2 fullShare x1 ∗ owns (c : Thread nD τ) a3 fullShare x2
    ∗ owns (c : Thread nD τ) a4 fullShare x3 ∗ owns (c : Thread nD τ) a5 fullShare x4 ∗ owns (c : Thread nD τ) a6 fullShare x5
    ∗ owns (c : Thread nD τ) a7 fullShare x6 ∗ owns (c : Thread nD τ) a8 fullShare x7 ∗ owns (c : Thread nD τ) a9 fullShare x8 ∗ R)

theorem run_first (E : Set ℕ) (K : PUnit → sProp 𝕄) (hc1 : condFirst i) (hc2 : ¬condLast i) :
    withIns c a1 a2 a3 a4 a5 a6 a7 a8 a9 x0 x1 x2 x3 x4 x5 x6 x7 x8 iprop((∃ d, owns (c : Thread nD τ) a10 fullShare d) ∗ owns (c : Thread nD τ) a11 fullShare x10 ∗ (∃ d, owns (c : Thread nD τ) a12 fullShare d)
        ∗ (withIns c a1 a2 a3 a4 a5 a6 a7 a8 a9 x0 x1 x2 x3 x4 x5 x6 x7 x8 iprop(owns (c : Thread nD τ) a10 fullShare (k1_pay2 (k1_pay5 x0) (k1_pay7 x1) (k1_pay8 x4) (k1_pay10 x7) (k1_pay12 x2 x5))
            ∗ owns (c : Thread nD τ) a11 fullShare x10 ∗ owns (c : Thread nD τ) a12 fullShare (k1_pay1 (k1_pay13 x0 x1 x3) (k1_pay4 (F := F)))) -∗ K ⟨⟩))
      ⊢ wp frame (wpE (defs₀ (F := F)) Variants.none c none) E (cc1__layer_kernel i a1 h1 a2 h2 a3 h3 a4 h4 a5 h5 a6 h6 a7 h7 a8 h8 a9 h9 a10 h10 a11 h11 a12 h12) K := by
  unfold withIns
  simp only [cc1__layer_kernel_eq_skeleton]; unfold cc1__layer_kernel_skel
  rw [owns_eq_unread h1, owns_eq_unread h2, owns_eq_unread h3, owns_eq_unread h4, owns_eq_unread h5, owns_eq_unread h6, owns_eq_unread h7, owns_eq_unread h8, owns_eq_unread h9, owns_eq_unread h11]; unfold owns
  iintro ⟨H0, H1, H2, H3, H4, H5, H6, H7, H8, ⟨%d9, %f9, -, H9⟩, H10, ⟨%ds, %fs, -, HS⟩, Hk⟩
  sl_exec (disch := first | sl_exact hc1 | sl_exact hc2)
  sl_step
  iapply Hk
  iframe H0 H1 H2 H3 H4 H5 H6 H7 H8 H10
  isplitl [H9] <;>
    (iexists _; isplitr; swap; iassumption
     ipureintro
     sl_unfold_run_names
     rw [read_writes_whole _ _ hz2]
     simp only [View.readAt_eq_ld, Memref.IsWhole.read_unread, View.readCov_unit_zero (S := S512x128) _ hz2, View.ld_unit_zero (S := S2000x128) hz2, View.ld_unit_zero (S := S2000x512) hz2, View.ld_unit_zero (S := S512x128) hz2, View.ld_unit_zero (S := S128x128) hz2, View.ld_unit_zero (S := S1x128) hz2])

theorem run_mid (E : Set ℕ) (K : PUnit → sProp 𝕄) (hc1 : ¬condFirst i) (hc2 : ¬condLast i) :
    withIns c a1 a2 a3 a4 a5 a6 a7 a8 a9 x0 x1 x2 x3 x4 x5 x6 x7 x8 iprop((∃ d, owns (c : Thread nD τ) a10 fullShare d) ∗ owns (c : Thread nD τ) a11 fullShare x10 ∗ owns (c : Thread nD τ) a12 fullShare s
        ∗ (withIns c a1 a2 a3 a4 a5 a6 a7 a8 a9 x0 x1 x2 x3 x4 x5 x6 x7 x8 iprop(owns (c : Thread nD τ) a10 fullShare (k1_pay2 (k1_pay5 x0) (k1_pay7 x1) (k1_pay8 x4) (k1_pay10 x7) (k1_pay12 x2 x5))
            ∗ owns (c : Thread nD τ) a11 fullShare x10 ∗ owns (c : Thread nD τ) a12 fullShare (k1_pay1 (k1_pay13 x0 x1 x3) s)) -∗ K ⟨⟩))
      ⊢ wp frame (wpE (defs₀ (F := F)) Variants.none c none) E (cc1__layer_kernel i a1 h1 a2 h2 a3 h3 a4 h4 a5 h5 a6 h6 a7 h7 a8 h8 a9 h9 a10 h10 a11 h11 a12 h12) K := by
  unfold withIns
  simp only [cc1__layer_kernel_eq_skeleton]; unfold cc1__layer_kernel_skel
  rw [owns_eq_unread h1, owns_eq_unread h2, owns_eq_unread h3, owns_eq_unread h4, owns_eq_unread h5, owns_eq_unread h6, owns_eq_unread h7, owns_eq_unread h8, owns_eq_unread h9, owns_eq_unread h11, owns_eq_unread h12 fullShare s]; unfold owns
  iintro ⟨H0, H1, H2, H3, H4, H5, H6, H7, H8, ⟨%d9, %f9, -, H9⟩, H10, HS, Hk⟩
  sl_exec (disch := first | sl_exact hc1 | sl_exact hc2)
  sl_step
  iapply Hk
  iframe H0 H1 H2 H3 H4 H5 H6 H7 H8 H10
  isplitl [H9] <;>
    (iexists _; isplitr; swap; iassumption
     ipureintro
     sl_unfold_run_names
     rw [read_writes_whole _ _ hz2]
     simp only [View.readAt_eq_ld, Memref.IsWhole.read_unread, View.readCov_unit_zero (S := S512x128) _ hz2, View.ld_unit_zero (S := S2000x128) hz2, View.ld_unit_zero (S := S2000x512) hz2, View.ld_unit_zero (S := S512x128) hz2, View.ld_unit_zero (S := S128x128) hz2, View.ld_unit_zero (S := S1x128) hz2])

theorem run_last (E : Set ℕ) (K : PUnit → sProp 𝕄) (hc1 : ¬condFirst i) (hc2 : condLast i) :
    withIns c a1 a2 a3 a4 a5 a6 a7 a8 a9 x0 x1 x2 x3 x4 x5 x6 x7 x8 iprop((∃ d, owns (c : Thread nD τ) a10 fullShare d) ∗ (∃ d, owns (c : Thread nD τ) a11 fullShare d) ∗ owns (c : Thread nD τ) a12 fullShare s
        ∗ (withIns c a1 a2 a3 a4 a5 a6 a7 a8 a9 x0 x1 x2 x3 x4 x5 x6 x7 x8 iprop(owns (c : Thread nD τ) a10 fullShare (k1_pay2 (k1_pay5 x0) (k1_pay7 x1) (k1_pay8 x4) (k1_pay10 x7) (k1_pay12 x2 x5))
            ∗ owns (c : Thread nD τ) a11 fullShare (k1_pay3 (k1_pay6 x2) (k1_pay9 x6) (k1_pay11 x8) (k1_pay1 (k1_pay13 x0 x1 x3) s))
            ∗ owns (c : Thread nD τ) a12 fullShare (k1_pay1 (k1_pay13 x0 x1 x3) s)) -∗ K ⟨⟩))
      ⊢ wp frame (wpE (defs₀ (F := F)) Variants.none c none) E (cc1__layer_kernel i a1 h1 a2 h2 a3 h3 a4 h4 a5 h5 a6 h6 a7 h7 a8 h8 a9 h9 a10 h10 a11 h11 a12 h12) K := by
  unfold withIns
  simp only [cc1__layer_kernel_eq_skeleton]; unfold cc1__layer_kernel_skel
  rw [owns_eq_unread h1, owns_eq_unread h2, owns_eq_unread h3, owns_eq_unread h4, owns_eq_unread h5, owns_eq_unread h6, owns_eq_unread h7, owns_eq_unread h8, owns_eq_unread h9, owns_eq_unread h12 fullShare s]; unfold owns
  iintro ⟨H0, H1, H2, H3, H4, H5, H6, H7, H8, ⟨%d9, %f9, -, H9⟩, ⟨%d10, %f10, -, H10⟩, HS, Hk⟩
  sl_exec (disch := first | sl_exact hc1 | sl_exact hc2)
  sl_step
  iapply Hk
  iframe H0 H1 H2 H3 H4 H5 H6 H7 H8
  isplitl [H9]; swap; isplitl [H10]
  all_goals
    (iexists _; isplitr; swap; iassumption
     ipureintro
     sl_unfold_run_names
     rw [read_writes_whole _ _ hz2]
     simp only [View.readAt_eq_ld, Memref.IsWhole.read_unread, View.readCov_unit_zero (S := S512x128) _ hz2, View.ld_unit_zero (S := S2000x128) hz2, View.ld_unit_zero (S := S2000x512) hz2, View.ld_unit_zero (S := S512x128) hz2, View.ld_unit_zero (S := S128x128) hz2, View.ld_unit_zero (S := S1x128) hz2])

end Run

variable (V : (c : Dev nD) → (b : Ref sig .tc) → Buf (Elt F) ((c : Thread nD τ).loc b))

abbrev b0 (c : Dev nD) (t : Fin cfg1.N) : Vec F S2000x128 .f32 := ((cfg1.win 0).blk t).view.read (Elt F) (V c (Pipeline.arrRef spec1 0))
abbrev b1 (c : Dev nD) (t : Fin cfg1.N) : Vec F S2000x512 .f32 := ((cfg1.win 1).blk t).view.read (Elt F) (V c (Pipeline.arrRef spec1 1))
abbrev b2 (c : Dev nD) (t : Fin cfg1.N) : Vec F S512x128 .f32 := ((cfg1.win 2).blk t).view.read (Elt F) (V c (Pipeline.arrRef spec1 2))
abbrev b3 (c : Dev nD) (t : Fin cfg1.N) : Vec F S128x128 .f32 := ((cfg1.win 3).blk t).view.read (Elt F) (V c (Pipeline.arrRef spec1 3))
abbrev b4 (c : Dev nD) (t : Fin cfg1.N) : Vec F S128x128 .f32 := ((cfg1.win 4).blk t).view.read (Elt F) (V c (Pipeline.arrRef spec1 4))
abbrev b5 (c : Dev nD) (t : Fin cfg1.N) : Vec F S128x128 .f32 := ((cfg1.win 5).blk t).view.read (Elt F) (V c (Pipeline.arrRef spec1 5))
abbrev b6 (c : Dev nD) (t : Fin cfg1.N) : Vec F S128x128 .f32 := ((cfg1.win 6).blk t).view.read (Elt F) (V c (Pipeline.arrRef spec1 6))
abbrev b7 (c : Dev nD) (t : Fin cfg1.N) : Vec F S1x128 .f32 := ((cfg1.win 7).blk t).view.read (Elt F) (V c (Pipeline.arrRef spec1 7))
abbrev b8 (c : Dev nD) (t : Fin cfg1.N) : Vec F S1x128 .f32 := ((cfg1.win 8).blk t).view.read (Elt F) (V c (Pipeline.arrRef spec1 8))

def acc (c : Dev nD) : (n : ℕ) → n < cfg1.N → Vec F S512x128 .f32
  | 0, h => k1_pay1 (k1_pay13 (b0 V c ⟨0, h⟩) (b1 V c ⟨0, h⟩) (b3 V c ⟨0, h⟩)) (k1_pay4 (F := F))
  | n + 1, h => k1_pay1 (k1_pay13 (b0 V c ⟨n + 1, h⟩) (b1 V c ⟨n + 1, h⟩) (b3 V c ⟨n + 1, h⟩)) (acc c n (Nat.lt_of_succ_lt h))

theorem acc_first (c : Dev nD) (t : Fin cfg1.N) (h : t.val = 0) :
    acc V c t.val t.isLt = k1_pay1 (k1_pay13 (b0 V c t) (b1 V c t) (b3 V c t)) (k1_pay4 (F := F)) := by
  obtain ⟨_ | n, hn⟩ := t
  · rfl
  · exact absurd h (Nat.succ_ne_zero n)

theorem acc_pos (c : Dev nD) (t : Fin cfg1.N) (h : t.val ≠ 0) :
    acc V c t.val t.isLt = k1_pay1 (k1_pay13 (b0 V c t) (b1 V c t) (b3 V c t))
      (acc V c (t.val - 1) (Nat.lt_of_le_of_lt (Nat.sub_le _ _) t.isLt)) := by
  obtain ⟨_ | n, hn⟩ := t
  · exact absurd rfl h
  · rfl

abbrev scM : Memref sig .tc .vmem S512x128 .f32 := Memref.whole cc1_scratch0

abbrev others (c : Dev nD) : sProp 𝕄 :=
  Pipeline.scopedRestBut (Ix := Unit) (Name := ℕ) (U := UR sig nD τ) (Lvl := ℕ) (Val := Elt F) spec1 c [cc1_scratch0]

theorem PhiA_eq (c : Dev nD) :
    (Pipeline.ΦA spec1 c : sProp 𝕄)
      = iprop(((∃ d, owns (c : Thread nD τ) scM fullShare d) ∗ others (F := F) c) ∗ (∃ r, prngReg c r)) := by
  unfold Pipeline.ΦA
  rw [Pipeline.scopedRest_split_of_list spec1 c [cc1_scratch0] (by decide) (by decide)]
  simp only [bigSepL_singleton, scM, owns_whole]; try rfl

-- Before the first point the accumulator holds anything; before a later one, what the point before left.
def PhiS (c : Dev nD) : (n : ℕ) → n ≤ cfg1.N → sProp 𝕄
  | 0, _ => Pipeline.ΦA spec1 c
  | n + 1, hn => iprop((owns (c : Thread nD τ) scM fullShare (acc V c n hn) ∗ others (F := F) c) ∗ (∃ r, prngReg c r))

theorem PhiS_zero (c : Dev nD) (n : ℕ) (h : n ≤ cfg1.N) (hz : n = 0) : PhiS V c n h = Pipeline.ΦA spec1 c := by
  subst hz; rfl

theorem PhiS_pos (c : Dev nD) (n : ℕ) (h : n ≤ cfg1.N) (hz : n ≠ 0) :
    PhiS V c n h = iprop((owns (c : Thread nD τ) scM fullShare (acc V c (n - 1) (by omega)) ∗ others (F := F) c) ∗ (∃ r, prngReg c r)) := by
  cases n with
  | zero => exact absurd rfl hz
  | succ n => rfl

def dat (c : Dev nD) : Dat τ (Elt F) Unit ℕ (UR sig nD τ) ℕ cfg1 c where
  A w := V c (Pipeline.arrRef spec1 w)
  after w t := match w with
    | ⟨0, _⟩ => b0 V c t
    | ⟨1, _⟩ => b1 V c t
    | ⟨2, _⟩ => b2 V c t
    | ⟨3, _⟩ => b3 V c t
    | ⟨4, _⟩ => b4 V c t
    | ⟨5, _⟩ => b5 V c t
    | ⟨6, _⟩ => b6 V c t
    | ⟨7, _⟩ => b7 V c t
    | ⟨8, _⟩ => b8 V c t
    | ⟨9, _⟩ => k1_pay2 (k1_pay5 (b0 V c t)) (k1_pay7 (b1 V c t)) (k1_pay8 (b4 V c t)) (k1_pay10 (b7 V c t)) (k1_pay12 (b2 V c t) (b5 V c t))
    | ⟨10, _⟩ => k1_pay3 (k1_pay6 (b2 V c t)) (k1_pay9 (b6 V c t)) (k1_pay11 (b8 V c t)) (acc V c t.val t.isLt)
  Φ t := PhiS V c t.val (Nat.le_of_lt_succ t.isLt)
  q _ := fullShare
  owed _ := 0

theorem A_eq (c : Dev nD) (w : Fin cfg1.W) : (dat V c).A w = V c (Pipeline.arrRef spec1 w) := rfl

theorem after_0 (c : Dev nD) (t : Fin cfg1.N) : (dat V c).after 0 t = b0 V c t := rfl
theorem after_1 (c : Dev nD) (t : Fin cfg1.N) : (dat V c).after 1 t = b1 V c t := rfl
theorem after_2 (c : Dev nD) (t : Fin cfg1.N) : (dat V c).after 2 t = b2 V c t := rfl
theorem after_3 (c : Dev nD) (t : Fin cfg1.N) : (dat V c).after 3 t = b3 V c t := rfl
theorem after_4 (c : Dev nD) (t : Fin cfg1.N) : (dat V c).after 4 t = b4 V c t := rfl
theorem after_5 (c : Dev nD) (t : Fin cfg1.N) : (dat V c).after 5 t = b5 V c t := rfl
theorem after_6 (c : Dev nD) (t : Fin cfg1.N) : (dat V c).after 6 t = b6 V c t := rfl
theorem after_7 (c : Dev nD) (t : Fin cfg1.N) : (dat V c).after 7 t = b7 V c t := rfl
theorem after_8 (c : Dev nD) (t : Fin cfg1.N) : (dat V c).after 8 t = b8 V c t := rfl

theorem after_9 (c : Dev nD) (t : Fin cfg1.N) :
    (dat V c).after 9 t = k1_pay2 (k1_pay5 (b0 V c t)) (k1_pay7 (b1 V c t)) (k1_pay8 (b4 V c t)) (k1_pay10 (b7 V c t)) (k1_pay12 (b2 V c t) (b5 V c t)) := rfl

theorem after_10 (c : Dev nD) (t : Fin cfg1.N) (ht : t.val = 49) :
    (dat V c).after 10 t = k1_pay3 (k1_pay6 (b2 V c t)) (k1_pay9 (b6 V c t)) (k1_pay11 (b8 V c t)) (acc V c t.val t.isLt) := rfl

theorem before_in (c : Dev nD) (t : Fin cfg1.N) : ∀ (w : Fin cfg1.W) (d), w.val < 9 → (dat V c).before w t d = (dat V c).after w t
  | ⟨0, _⟩, d, _ | ⟨1, _⟩, d, _ | ⟨2, _⟩, d, _ | ⟨3, _⟩, d, _ | ⟨4, _⟩, d, _ | ⟨5, _⟩, d, _ | ⟨6, _⟩, d, _ | ⟨7, _⟩, d, _ | ⟨8, _⟩, d, _ =>
    ((dat V c).before_in_eq_fetched _ rfl (fun _ => rfl) (fun _ _ _ => rfl) (fun _ => rfl) t d).trans rfl
  | ⟨n + 9, _⟩, _, h => absurd h (Nat.not_lt.mpr (Nat.le_add_left 9 n))

theorem leaves_live (c : Dev nD) (w : Fin cfg1.W) (t : Fin cfg1.N) (h : cfg1.idle w (grid1.coords t) = false) :
    (dat V c).leavesExact w t = owns (c : Thread nD τ) ((cfg1.win w).stage (cfg1.slots t w)) fullShare ((dat V c).after w t) := by
  unfold Dat.leavesExact; rw [h]

theorem body_obligation (c : Dev nD) : BodyObligation (dat (F := F) V c) (defs₀ (F := F)) Variants.none () Set.univ := fun t => by
  show iprop(PhiS V c t.val (Nat.le_of_lt t.isLt) ∗ _ ∗ bigSep Finset.univ fun w : Fin cfg1.W =>
      iprop(∃ d, owns (c : Thread nD τ) ((cfg1.win w).stage (cfg1.slots t w)) fullShare ((dat V c).before w t d)))
    ⊢ wp frame _ Set.univ (bodyAt1 t) fun _ => iprop(((owns (c : Thread nD τ) scM fullShare (acc V c t.val t.isLt) ∗ others (F := F) c) ∗ (∃ r, prngReg c r))
      ∗ (dat V c).owesAt () t.castSucc ∗ bigSep Finset.univ fun w => (dat V c).leavesExact w t)
  rw [bigSep_W1, bigSep_W1]
  simp (disch := first | decide | rfl) only [before_in, leaves_live]
  rw [after_0, after_1, after_2, after_3, after_4, after_5, after_6, after_7, after_8, after_9]
  have hN : t.val < 50 := lt_of_lt_of_eq t.isLt (show cfg1.N = 50 from N_1)
  by_cases h0 : t.val = 0
  · have hc1 : condFirst (grid1.coords t) := (hcondFirst t).mpr h0
    have hc2 : ¬condLast (grid1.coords t) := fun h => by have := (hcondLast t).mp h; omega
    rw [Dat.leavesExact_idle (dat V c) 10 t (idle10 t hc2) (noFlush10 t hc2), PhiS_zero V c _ _ h0, PhiA_eq, acc_first V c t h0]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_first c (grid1.coords t) _ _ _ _ _ _ _ _ _ _ _ _ _ _ _ _ _ _ _ _ _ _ _ _ (b0 V c t) (b1 V c t) (b2 V c t) (b3 V c t) (b4 V c t) (b5 V c t) (b6 V c t) (b7 V c t) (b8 V c t) _ Set.univ _ hc1 hc2)
    unfold withIns
    iframe H0 H1 H2 H3 H4 H5 H6 H7 H8
    isplitl [H9]; · iexists _; iexact H9
    isplitl [H10]; · iexact H10
    isplitl [HS]; · iexists _; iexact HS
    iintro ⟨H0, H1, H2, H3, H4, H5, H6, H7, H8, H9, H10, HS⟩
    iframe H0 H1 H2 H3 H4 H5 H6 H7 H8 H9 HS HR Hg Ho
    iexists _; iexact H10
  · rw [PhiS_pos V c _ _ h0, acc_pos V c t h0]
    have hc1 : ¬condFirst (grid1.coords t) := fun h => h0 ((hcondFirst t).mp h)
    by_cases h49 : t.val = 49
    · have hc2 : condLast (grid1.coords t) := (hcondLast t).mpr h49
      rw [leaves_live V c 10 t (live10 t hc2), after_10 V c t h49, acc_pos V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_last c (grid1.coords t) _ _ _ _ _ _ _ _ _ _ _ _ _ _ _ _ _ _ _ _ _ _ _ _ (b0 V c t) (b1 V c t) (b2 V c t) (b3 V c t) (b4 V c t) (b5 V c t) (b6 V c t) (b7 V c t) (b8 V c t) _ Set.univ _ hc1 hc2)
      unfold withIns
      iframe H0 H1 H2 H3 H4 H5 H6 H7 H8
      isplitl [H9]; · iexists _; iexact H9
      isplitl [H10]; · iexists _; iexact H10
      isplitl [HS]; · iexact HS
      iintro ⟨H0, H1, H2, H3, H4, H5, H6, H7, H8, H9, H10, HS⟩
      iframe
    · have hc2 : ¬condLast (grid1.coords t) := fun h => h49 ((hcondLast t).mp h)
      rw [Dat.leavesExact_idle (dat V c) 10 t (idle10 t hc2) (noFlush10 t hc2)]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (run_mid c (grid1.coords t) _ _ _ _ _ _ _ _ _ _ _ _ _ _ _ _ _ _ _ _ _ _ _ _ (b0 V c t) (b1 V c t) (b2 V c t) (b3 V c t) (b4 V c t) (b5 V c t) (b6 V c t) (b7 V c t) (b8 V c t) _ _ Set.univ _ hc1 hc2)
      unfold withIns
      iframe H0 H1 H2 H3 H4 H5 H6 H7 H8
      isplitl [H9]; · iexists _; iexact H9
      isplitl [H10]; · iexact H10
      isplitl [HS]; · iexact HS
      iintro ⟨H0, H1, H2, H3, H4, H5, H6, H7, H8, H9, H10, HS⟩
      iframe H0 H1 H2 H3 H4 H5 H6 H7 H8 H9 HS HR Hg Ho
      iexists _; iexact H10

theorem hin (c : Dev nD) : Pipeline.ΦA spec1 c ⊢ (dat V c).Φ 0 := .rfl

-- After the last point the accumulator's named contents are forgotten.
theorem hout (c : Dev nD) : (dat V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 50 := N_1; omega), PhiA_eq]
  iintro ⟨⟨HS, HR⟩, Hg⟩
  iframe HR Hg
  iexists _; iexact HS

theorem owed_zero (c : Dev nD) (t : Fin (cfg1.N + 1)) : (dat V c).owed t = 0 := rfl

theorem q_full (c : Dev nD) (w : Fin cfg1.W) : (dat V c).q w = fullShare := rfl

theorem recorded_univ (c : Dev nD) (t : Fin (cfg1.N + 1)) : (dat V c).recorded t = Set.univ := rfl

end Cert.KernelIdeal.R1

end
-- ==== Proof.KI_R2.lean ====
import proofs.«412725_j14448269984048_2_alg».proof.Proof.Gen.KernelIdeal.Skeleton
import proofs.«412725_j14448269984048_2_alg».proof.Proof.Gen.KernelIdeal.Launch
import proofs.«412725_j14448269984048_2_alg».proof.Proof.Gen.KernelIdeal.Points
import proofs.«412725_j14448269984048_2_alg».proof.Proof.FrameLib

noncomputable section

namespace Cert.KernelIdeal.R2

open Cert.KernelIdeal Cert.KernelIdeal.Gen Cert.FrameLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev b0 (c : Dev nD) (t : Fin cfg2.N) : Vec F S2000x128 .f32 := ((cfg2.win 0).blk t).view.read (Elt F) (V c (Pipeline.arrRef spec2 0))
abbrev b1 (c : Dev nD) (t : Fin cfg2.N) : Vec F S512x128 .f32 := ((cfg2.win 1).blk t).view.read (Elt F) (V c (Pipeline.arrRef spec2 1))

theorem sound_kernel (c : Dev nD) (E : Set ℕ) (i : grid2.Coords)
    (arg1 : Memref sig .tc .vmem S2000x128 .f32) (harg1 : arg1.IsWhole)
    (arg2 : Memref sig .tc .vmem S512x128 .f32) (harg2 : arg2.IsWhole)
    (arg3 : Memref sig .tc .vmem S2000x512 .f32) (harg3 : arg3.IsWhole)
    (x0 : Vec F S2000x128 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (k2_pay1 x0 x1)) -∗ K ⟨⟩))
      ⊢ wp frame (wpE (defs₀ (F := F)) Variants.none c none) E (cc2__pred_kernel i arg1 harg1 arg2 harg2 arg3 harg3) K := by
  simp only [cc2__pred_kernel_eq_skeleton]; unfold cc2__pred_kernel_skel
  rw [owns_eq_unread harg1, owns_eq_unread harg2]; unfold owns
  iintro ⟨H0, H1, ⟨%d2, %f2, -, H2⟩, Hk⟩
  sl_exec
  sl_step
  iapply Hk
  iframe H0 H1
  iexists _; isplitr
  swap; · iexact H2
  ipureintro
  rw [read_writes_whole _ _ hz2, readAt_unit_unread harg1 hz2, readAt_unit_unread harg2 hz2]

def dat (c : Dev nD) : Dat τ (Elt F) Unit ℕ (UR sig nD τ) ℕ cfg2 c where
  A w := V c (Pipeline.arrRef spec2 w)
  after w t := match w with
    | ⟨0, _⟩ => b0 V c t
    | ⟨1, _⟩ => b1 V c t
    | ⟨2, _⟩ => k2_pay1 (b0 V c t) (b1 V c t)
  Φ _ := Pipeline.ΦA spec2 c
  q _ := fullShare
  owed _ := 0

theorem A_eq (c : Dev nD) (w : Fin cfg2.W) : (dat V c).A w = V c (Pipeline.arrRef spec2 w) := rfl

theorem after_2 (c : Dev nD) (t : Fin cfg2.N) : (dat V c).after 2 t = k2_pay1 (b0 V c t) (b1 V c t) := rfl

theorem before_0 (c : Dev nD) (t : Fin cfg2.N) (d) : (dat V c).before 0 t d = b0 V c t :=
  ((dat V c).before_in_eq_fetched 0 rfl (fun _ => rfl) (fun _ _ _ => rfl) (fun _ => rfl) t d).trans rfl
theorem before_1 (c : Dev nD) (t : Fin cfg2.N) (d) : (dat V c).before 1 t d = b1 V c t :=
  ((dat V c).before_in_eq_fetched 1 rfl (fun _ => rfl) (fun _ _ _ => rfl) (fun _ => rfl) t d).trans rfl

theorem body_obligation (c : Dev nD) : BodyObligation (dat (F := F) V c) (defs₀ (F := F)) Variants.none () Set.univ := fun t => by
  rw [bigSep_W2, bigSep_W2]
  show iprop((dat V c).Φ t.castSucc ∗ (dat V c).owesAt () t.castSucc
      ∗ (∃ d, owns (c : Thread nD τ) (st2_0 t) fullShare ((dat V c).before 0 t d))
      ∗ (∃ d, owns (c : Thread nD τ) (st2_1 t) fullShare ((dat V c).before 1 t d))
      ∗ (∃ d, owns (c : Thread nD τ) (st2_2 t) fullShare ((dat V c).before 2 t d)))
    ⊢ wp frame (wpE (defs₀ (F := F)) Variants.none c none) Set.univ (bodyAt2 t) fun _ =>
      iprop((dat V c).Φ t.castSucc ∗ (dat V c).owesAt () t.castSucc
        ∗ owns (c : Thread nD τ) (st2_0 t) fullShare (b0 V c t)
        ∗ owns (c : Thread nD τ) (st2_1 t) fullShare (b1 V c t)
        ∗ owns (c : Thread nD τ) (st2_2 t) fullShare (k2_pay1 (b0 V c t) (b1 V c t)))
  unfold bodyAt2
  simp only [before_0, before_1]
  iintro ⟨HΦ, Ho, ⟨%d0, H0⟩, ⟨%d1, H1⟩, ⟨%d2, H2⟩⟩
  iapply (sound_kernel c Set.univ _ _ _ _ _ _ _ (b0 V c t) (b1 V c t) _)
  iframe H0 H1
  isplitl [H2]; · iexists _; iexact H2
  iintro ⟨H0, H1, H2⟩
  iframe

theorem hin (c : Dev nD) : Pipeline.ΦA spec2 c ⊢ (dat V c).Φ 0 := .rfl

theorem hout (c : Dev nD) : (dat V c).Φ (Fin.last cfg2.N) ⊢ (Pipeline.ΦA spec2 c : sProp 𝕄) := .rfl

theorem owed_zero (c : Dev nD) (t : Fin (cfg2.N + 1)) : (dat V c).owed t = 0 := rfl

theorem q_full (c : Dev nD) (w : Fin cfg2.W) : (dat V c).q w = fullShare := rfl

theorem recorded_univ (c : Dev nD) (t : Fin (cfg2.N + 1)) : (dat V c).recorded t = Set.univ := rfl

end Cert.KernelIdeal.R2

end
-- ==== Proof.KI_RunAll.lean ====
import proofs.«412725_j14448269984048_2_alg».proof.Proof.KI_R0
import proofs.«412725_j14448269984048_2_alg».proof.Proof.KI_R1
import proofs.«412725_j14448269984048_2_alg».proof.Proof.KI_R2
import proofs.«412725_j14448269984048_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.RunAll

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

section Exit

variable {cfg : Pipeline.Cfg sig Λ₀} (c : Dev nD) (W : Valuation τ sig (Elt F)) (d : Dat τ (Elt F) Unit ℕ (UR sig nD τ) ℕ cfg c)

def exitW : Valuation τ sig (Elt F) := Pipeline.withArrays cfg.spec c W fun w => d.arrAt w cfg.N

theorem exitW_arr (hw : Pipeline.WinFacts cfg.spec) (w : Fin cfg.W) :
    exitW c W d (Proc.devRef .tc (Pipeline.arrRef cfg.spec w)) = d.arrAt w cfg.N :=
  Pipeline.withArrays_arr cfg.spec hw.arr_inj c _ _ w

theorem exitW_rest (b : Ref sig .tc) (hb : b ∉ Finset.univ.image (Pipeline.arrRef cfg.spec)) :
    exitW c W d (Proc.devRef .tc b) = W (Proc.devRef .tc b) :=
  Pipeline.withArrays_of_ne cfg.spec c _ _ b fun w e => hb (Finset.mem_image.mpr ⟨w, Finset.mem_univ _, e⟩)

theorem exitW_of (hw : Pipeline.WinFacts cfg.spec) (hA : ∀ w, d.A w = W (Proc.devRef .tc (Pipeline.arrRef cfg.spec w)))
    {O : List (Ref sig .tc)} (hO : ∀ w, Pipeline.arrRef cfg.spec w ∉ O → (cfg.win w).isOut = false) (r : Ref sig .tc) (h : r ∉ O) :
    exitW c W d (Proc.devRef .tc r) = W (Proc.devRef .tc r) := by
  by_cases hr : r ∈ Finset.univ.image (Pipeline.arrRef cfg.spec)
  · obtain ⟨w, -, rfl⟩ := Finset.mem_image.mp hr
    exact (exitW_arr c W d hw w).trans ((d.arrAt_in w (hO w h) _).trans (hA w))
  · exact exitW_rest c W d r hr

theorem owes_first (ho : d.owed 0 = 0) (hr : d.recorded 0 = Set.univ) :
    iprop(∃ W, owes (c : Thread nD τ) (0 : CellTallies nD τ sig Unit) W) ⊢ (d.owesAt () 0 : sProp 𝕄) := by
  unfold Pipeline.Dat.owesAt Pipeline.owesWithin Pipeline.Dat.bound
  rw [ho, hr]
  iintro ⟨%W, HO⟩; iexists W; isplitr; · ipureintro; exact fun _ _ => Or.inl trivial
  iexact HO

theorem owes_last (ho : d.owed (Fin.last _) = 0) :
    (d.owesAt () (Fin.last _) : sProp 𝕄) ⊢ iprop(∃ W, owes (c : Thread nD τ) (0 : CellTallies nD τ sig Unit) W) := by
  unfold Pipeline.Dat.owesAt Pipeline.owesWithin
  rw [ho]
  iintro ⟨%W, -, HO⟩; iexists W; iexact HO

end Exit

abbrev tcv (W : Dev nD → Valuation τ sig (Elt F)) : (c : Dev nD) → (b : Ref sig .tc) → Buf (Elt F) ((c : Thread nD τ).loc b) := fun c b => W c b

abbrev W0 (c : Dev nD) : Valuation τ sig (Elt F) := fun b => m (c, b)
abbrev W1 (c : Dev nD) : Valuation τ sig (Elt F) := StableHlo.after hostOps0 (W0 m c)
abbrev V1 : (c : Dev nD) → (b : Ref sig .tc) → Buf (Elt F) ((c : Thread nD τ).loc b) := tcv (W1 m)
def W2 (c : Dev nD) : Valuation τ sig (Elt F) := exitW c (W1 m c) (R0.dat (V1 m) c)
abbrev W3 (c : Dev nD) : Valuation τ sig (Elt F) := StableHlo.after hostOps1 (W2 m c)
abbrev V3 : (c : Dev nD) → (b : Ref sig .tc) → Buf (Elt F) ((c : Thread nD τ).loc b) := tcv (W3 m)
def W4 (c : Dev nD) : Valuation τ sig (Elt F) := exitW c (W3 m c) (R1.dat (V3 m) c)
abbrev V4 : (c : Dev nD) → (b : Ref sig .tc) → Buf (Elt F) ((c : Thread nD τ).loc b) := tcv (W4 m)
def W5 (c : Dev nD) : Valuation τ sig (Elt F) := exitW c (W4 m c) (R2.dat (V4 m) c)
abbrev W6 (c : Dev nD) : Valuation τ sig (Elt F) := StableHlo.after hostOps3 (W5 m c)
abbrev W7 (c : Dev nD) : Valuation τ sig (Elt F) := StableHlo.after hostOps3_1 (W6 m c)
abbrev W8 (c : Dev nD) : Valuation τ sig (Elt F) := StableHlo.after hostOps3_2 (W7 m c)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ ([main_v21_0, main_v21_1] : List (Ref sig .tc))) :
    W2 m c (Proc.devRef .tc r) = W1 m c (Proc.devRef .tc r) :=
  exitW_of c (W1 m c) (R0.dat (V1 m) c) launch0.win (R0.A_eq (V1 m) c) (by decide) r h
theorem W3_of (c : Dev nD) (r : Ref sig .tc) (h : r ∉ hostOps1_W) : W3 m c (Proc.devRef .tc r) = W2 m c (Proc.devRef .tc r) :=
  StableHlo.after_of_writes_sub hostOps1 _ hostOps1_writes h
theorem W4_of (c : Dev nD) (r : Ref sig .tc) (h : r ∉ ([main_v36_0, main_v36_1] : List (Ref sig .tc))) :
    W4 m c (Proc.devRef .tc r) = W3 m c (Proc.devRef .tc r) :=
  exitW_of c (W3 m c) (R1.dat (V3 m) c) launch1.win (R1.A_eq (V3 m) c) (by decide) r h
theorem W5_of (c : Dev nD) (r : Ref sig .tc) (h : r ∉ ([main_v37] : List (Ref sig .tc))) :
    W5 m c (Proc.devRef .tc r) = W4 m c (Proc.devRef .tc r) :=
  exitW_of c (W4 m c) (R2.dat (V4 m) c) launch2.win (R2.A_eq (V4 m) c) (by decide) r h

theorem W8_main_v47 (c : Dev nD) : W8 m c (Proc.devRef .tc main_v47)
    = StableHlo.after hostOps3_2 (StableHlo.after hostOps3_1 (StableHlo.after hostOps3 (W5 m c))) (Proc.devRef .tc main_v47) := rfl

theorem W2_main_v21_0 (c : Dev nD) : W2 m c (Proc.devRef .tc main_v21_0) = (R0.dat (V1 m) c).arrAt 9 cfg0.N := exitW_arr c _ _ launch0.win 9
theorem W2_main_v21_1 (c : Dev nD) : W2 m c (Proc.devRef .tc main_v21_1) = (R0.dat (V1 m) c).arrAt 10 cfg0.N := exitW_arr c _ _ launch0.win 10
theorem W4_main_v36_0 (c : Dev nD) : W4 m c (Proc.devRef .tc main_v36_0) = (R1.dat (V3 m) c).arrAt 9 cfg1.N := exitW_arr c _ _ launch1.win 9
theorem W4_main_v36_1 (c : Dev nD) : W4 m c (Proc.devRef .tc main_v36_1) = (R1.dat (V3 m) c).arrAt 10 cfg1.N := exitW_arr c _ _ launch1.win 10
theorem W5_main_v37 (c : Dev nD) : W5 m c (Proc.devRef .tc main_v37) = (R2.dat (V4 m) c).arrAt 2 cfg2.N := exitW_arr c _ _ launch2.win 2

abbrev written : List (Ref sig .tc) :=
  hostOps0_W ++ [main_v21_0, main_v21_1] ++ hostOps1_W ++ [main_v36_0, main_v36_1] ++ [main_v37] ++ hostOps3_W ++ hostOps3_1_W ++ hostOps3_2_W

theorem W8_arg (c : Dev nD) (r : Ref sig .tc) (h : r ∉ written) : W8 m c (Proc.devRef .tc r) = m ((c : Thread nD τ).loc r) := by
  simp only [written, List.mem_append, not_or, and_assoc] at h
  obtain ⟨h1, h2, h3, h4, h5, h6, h7, h8⟩ := h
  exact (StableHlo.after_of_writes_sub hostOps3_2 _ hostOps3_2_writes h8).trans <|
    (StableHlo.after_of_writes_sub hostOps3_1 _ hostOps3_1_writes h7).trans <|
    (StableHlo.after_of_writes_sub hostOps3 _ hostOps3_writes h6).trans <| (W5_of m c r h5).trans <| (W4_of m c r h4).trans <|
    (W3_of m c r h3).trans <| (W2_of m c r h2).trans <| (W1_of m c r h1).trans rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev ArgsKept (s : (ℓ : Loc nD τ sig) → Buf (Elt F) ℓ) (c : Dev nD) : Prop :=
  s ((c.tc : Thread nD τ).loc main_arg0) = m ((c.tc : Thread nD τ).loc main_arg0)
    ∧ s ((c.tc : Thread nD τ).loc main_arg1) = m ((c.tc : Thread nD τ).loc main_arg1)
    ∧ s ((c.tc : Thread nD τ).loc main_arg2) = m ((c.tc : Thread nD τ).loc main_arg2)
    ∧ s ((c.tc : Thread nD τ).loc main_arg3) = m ((c.tc : Thread nD τ).loc main_arg3)
    ∧ s ((c.tc : Thread nD τ).loc main_arg4) = m ((c.tc : Thread nD τ).loc main_arg4)
    ∧ s ((c.tc : Thread nD τ).loc main_arg5) = m ((c.tc : Thread nD τ).loc main_arg5)
    ∧ s ((c.tc : Thread nD τ).loc main_arg6) = m ((c.tc : Thread nD τ).loc main_arg6)
    ∧ s ((c.tc : Thread nD τ).loc main_arg7) = m ((c.tc : Thread nD τ).loc main_arg7)
    ∧ s ((c.tc : Thread nD τ).loc main_arg8) = m ((c.tc : Thread nD τ).loc main_arg8)
    ∧ s ((c.tc : Thread nD τ).loc main_arg9) = m ((c.tc : Thread nD τ).loc main_arg9)
    ∧ s ((c.tc : Thread nD τ).loc main_arg10) = m ((c.tc : Thread nD τ).loc main_arg10)
    ∧ s ((c.tc : Thread nD τ).loc main_arg11) = m ((c.tc : Thread nD τ).loc main_arg11)

theorem arg_kept {s : (ℓ : Loc nD τ sig) → Buf (Elt F) ℓ} {c : Dev nD}
    (h : ∀ b ∈ Pipeline.ucRefs τ sig, s (((c : Thread nD τ)).1, b) = W8 m c b) (a : Ref sig .tc)
    (hu : ¬ (Proc.devRef .tc a : DevRef τ sig).isScoped := by decide) (hw : a ∉ written := by decide) :
    s ((c.tc : Thread nD τ).loc a) = m ((c.tc : Thread nD τ).loc a) :=
  (h _ (mem_uc a hu)).trans (W8_arg m c a hw)

theorem args_kept (r : PUnit × MemSt nD τ sig (Elt F))
    (h : ∀ c : Dev nD, ∀ b ∈ Pipeline.ucRefs τ sig, r.2.mem (((c : Thread nD τ)).1, b) = W8 m c b) (c : Dev nD) : ArgsKept m r.2.mem c :=
  ⟨arg_kept m (h c) main_arg0, arg_kept m (h c) main_arg1, arg_kept m (h c) main_arg2, arg_kept m (h c) main_arg3,
    arg_kept m (h c) main_arg4, arg_kept m (h c) main_arg5, arg_kept m (h c) main_arg6, arg_kept m (h c) main_arg7,
    arg_kept m (h c) main_arg8, arg_kept m (h c) main_arg9, arg_kept m (h c) main_arg10, arg_kept m (h c) main_arg11⟩

def pdats : (p : Fin 3) → (c : Dev nD) → Dat τ (Elt F) Unit ℕ (UR sig nD τ) ℕ (cfgs p) c
  | ⟨0, _⟩ => fun c => R0.dat (V1 m) c
  | ⟨1, _⟩ => fun c => R1.dat (V3 m) c
  | ⟨2, _⟩ => fun c => R2.dat (V4 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
def reg (p : Fin 3) (lf : Pipeline.LaunchFacts (nD := nD) (τ := τ) cfgs p) (V : Dev nD → Valuation τ sig (Elt F))
    (hbody : ∀ c, BodyObligation (pdats m p c) (defs₀ (F := F)) Variants.none () Set.univ)
    (hq : ∀ c w, (pdats m p c).q w = fullShare)
    (hA : ∀ c w, (pdats m p c).A w = V c (Proc.devRef .tc (Pipeline.arrRef (cfgs p).spec w)))
    (ho : ∀ c t, (pdats m p c).owed t = 0) (hr : ∀ c t, (pdats m p c).recorded t = Set.univ)
    (hin : ∀ c, Pipeline.ΦA (cfgs p).spec c ⊢ (pdats m p c).Φ 0)
    (hout : ∀ c, (pdats m p c).Φ (Fin.last (cfgs p).N) ⊢ (Pipeline.ΦA (cfgs p).spec c : sProp 𝕄)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig) (exitW c (V c) (pdats m p c)) ∗ R c)
  X c := iprop(∃ r, prngReg c r)
  Y c := iprop(∃ r, prngReg c r)
  Z c := Pipeline.unscopedRest (Ix := Unit) (Name := ℕ) (U := UR sig nD τ) (Lvl := ℕ) (cfgs p).spec c (tcv V c)
  hentry c := by
    have hsplit := Pipeline.arrays_of_unscopedBufs (p := p) (pcfgs (F := F)) adm (pdats m) lf.win lf.arr_whole c
      ((pdats m p c).share_full (hq c)) (tcv V c) (hA c)
    rw [Pipeline.unscopedBufs_held] at hsplit
    iintro ⟨⟨Hub, Hp, HO⟩, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply owes_first c _ (ho c 0) (hr c 0); iexact HO
    isplitl [Hp] <;> iassumption
  hin c := .trans (by unfold Pipeline.ΦA; iintro ⟨Hp, -, Hr⟩; isplitl [Hr] <;> iassumption) (hin c)
  hout c := by
    rw [Pipeline.ownSems0_none]
    refine BIBase.Entails.trans (hout c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c)) (tcv V c) (fun b => exitW c (V c) (pdats m p c) b)
      ((pdats m p c).arrAt · (cfgs p).N) (fun w => (exitW_arr c _ _ lf.win w).symm) (exitW_rest c _ _)
    rw [Pipeline.unscopedBufs_held] at hjoin
    iintro ⟨Ha, HO, HY, Hrest⟩
    imodintro
    isplitl [Ha Hrest]
    · iapply hjoin; isplitl [Ha] <;> iassumption
    isplitl [HY]; · iexact HY
    iapply owes_last c _ (ho c _); iexact HO

abbrev reg0 := reg m 0 launch0 (W1 m) (R0.body_obligation (V1 m)) (R0.q_full (V1 m)) (R0.A_eq (V1 m)) (R0.owed_zero (V1 m))
  (R0.recorded_univ (V1 m)) (R0.hin (V1 m)) (R0.hout (V1 m))
abbrev reg1 := reg m 1 launch1 (W3 m) (R1.body_obligation (V3 m)) (R1.q_full (V3 m)) (R1.A_eq (V3 m)) (R1.owed_zero (V3 m))
  (R1.recorded_univ (V3 m)) (R1.hin (V3 m)) (R1.hout (V3 m))
abbrev reg2 := reg m 2 launch2 (W4 m) (R2.body_obligation (V4 m)) (R2.q_full (V4 m)) (R2.A_eq (V4 m)) (R2.owed_zero (V4 m))
  (R2.recorded_univ (V4 m)) (R2.hin (V4 m)) (R2.hout (V4 m))

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .host (hseg hostOps3_1 hostOps3_1_sub hostOps3_1_fresh (W6 m)),
    .host (hseg hostOps3_2 hostOps3_2_sub hostOps3_2_fresh (W7 m)) ]

set_option backward.isDefEq.respectTransparency.types false in
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W8 m c b) :=
  Pipeline.θ_run_regions_kit_dev (pcfgs (F := F)) adm (pdats m) () cellOf_inj emb₁ defs₀ 𝒱₀ L lv m ρ main (fun _ => segs m)
    (fun c Q => by
      rewrite [main_chain c, Pipeline.Seg.run_eq_chain]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W8 m c))
    (hch := fun c => ⟨.rfl, .rfl, .rfl, .rfl, .rfl, .rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨Hh, HSI⟩
      unfold StableHlo.held
      imodintro
      iapply (pointsTo_read_all (Pipeline.ucRefs τ sig) (fun b => (((c : Thread nD τ)).1, b)) (W8 m c) s')
      isplitl [Hh] <;> iassumption)
    (hQ := fun s h => h)

theorem frame (ρ : Dev nD → PrngReg) :
    θ_run defs (onTc (τ := τ) (main (F := F))) ⟨m, fun _ => 0, ρ⟩ (fun r => ∀ c : Dev nD, ArgsKept m r.2.mem c) :=
  (θ_run defs _ _).mono (fun r h c => args_kept m r h c) (run_all m ρ)

end Cert.KernelIdeal.RunAll

end
-- ==== Proof.Spec.lean ====
import Idealize.ShloMosaic.PureOps.Ideal

noncomputable section

namespace Cert.Spec

open Idealize.ShloMosaic

def eps : EReal := Ideal.ofBits .f32 0x2B8CBCCC#32

-- Each row divided by its Euclidean length, the length bounded below by eps.
def l2n {R D : ℕ} (x : Fin R → Fin D → EReal) : Fin R → Fin D → EReal :=
  fun r j => Ideal.div (x r j) (max (Ideal.sqrt (∑ k, x r k * x r k)) eps)

def mm {R K D : ℕ} (a : Fin R → Fin K → EReal) (w : Fin K → Fin D → EReal) : Fin R → Fin D → EReal :=
  fun r j => ∑ k, a r k * w k j

def actf {R D : ℕ} (act : Bool) (a : Fin R → Fin D → EReal) : Fin R → Fin D → EReal :=
  fun r j => if act then max (a r j) 0 else a r j

-- Entry (r, t) is the sum of the weights of the edges joining r and t.
def dense {E R T : ℕ} (ed : Fin E → Fin R) (et : Fin E → Fin T) (ev : Fin E → EReal) : Fin R → Fin T → EReal :=
  fun r t => ∑ e ∈ Finset.univ.filter (fun e => ed e = r ∧ et e = t), ev e

section Layers

variable {E R T D : ℕ}

-- One layer's new data rows with the messages passed by a product with the gathered weight matrix.
def denseData (act : Bool) (S : Fin R → Fin T → EReal) (xd : Fin R → Fin D → EReal) (xt : Fin T → Fin D → EReal)
    (Wsd Wmt : Fin D → Fin D → EReal) (bd : Fin D → EReal) : Fin R → Fin D → EReal :=
  l2n (actf act fun r j => mm xd Wsd r j + mm S (mm xt Wmt) r j + bd j)

def denseTask (act : Bool) (S : Fin R → Fin T → EReal) (xd : Fin R → Fin D → EReal) (xt : Fin T → Fin D → EReal)
    (Wst Wmd : Fin D → Fin D → EReal) (bt : Fin D → EReal) : Fin T → Fin D → EReal :=
  l2n (actf act fun t j => mm xt Wst t j + (∑ r, S r t * mm xd Wmd r j) + bt j)

-- The same with the message to row r summed over the edges at r.
def edgeData (act : Bool) (ed : Fin E → Fin R) (et : Fin E → Fin T) (ev : Fin E → EReal)
    (xd : Fin R → Fin D → EReal) (xt : Fin T → Fin D → EReal) (Wsd Wmt : Fin D → Fin D → EReal) (bd : Fin D → EReal) :
    Fin R → Fin D → EReal :=
  l2n (actf act fun r j => mm xd Wsd r j + (∑ e ∈ Finset.univ.filter (fun e => ed e = r), mm xt Wmt (et e) j * ev e) + bd j)

def edgeTask (act : Bool) (ed : Fin E → Fin R) (et : Fin E → Fin T) (ev : Fin E → EReal)
    (xd : Fin R → Fin D → EReal) (xt : Fin T → Fin D → EReal) (Wst Wmd : Fin D → Fin D → EReal) (bt : Fin D → EReal) :
    Fin T → Fin D → EReal :=
  l2n (actf act fun t j => mm xt Wst t j + (∑ e ∈ Finset.univ.filter (fun e => et e = t), mm xd Wmd (ed e) j * ev e) + bt j)

def table (xd : Fin R → Fin D → EReal) (xt : Fin T → Fin D → EReal) : Fin R → Fin T → EReal :=
  fun r t => ∑ k, xd r k * xt t k

end Layers

structure Params (D : ℕ) where
  Wsd : Fin 2 → Fin D → Fin D → EReal
  Wst : Fin 2 → Fin D → Fin D → EReal
  Wmd : Fin 2 → Fin D → Fin D → EReal
  Wmt : Fin 2 → Fin D → Fin D → EReal
  bd : Fin 2 → Fin D → EReal
  bt : Fin 2 → Fin D → EReal

section Whole

variable {E R T D N : ℕ}

def denseOut (P : Params D) (ed : Fin E → Fin R) (et : Fin E → Fin T) (ev : Fin E → EReal)
    (gf : Fin R → Fin D → EReal) (te : Fin T → Fin D → EReal) (p0 : Fin N → Fin R) (p1 : Fin N → Fin T) : Fin N → EReal :=
  let S := dense ed et ev
  let xd0 := l2n gf
  let xt0 := l2n te
  let xd1 := denseData true S xd0 xt0 (P.Wsd 0) (P.Wmt 0) (P.bd 0)
  let xt1 := denseTask true S xd0 xt0 (P.Wst 0) (P.Wmd 0) (P.bt 0)
  let xd2 := denseData false S xd1 xt1 (P.Wsd 1) (P.Wmt 1) (P.bd 1)
  let xt2 := denseTask false S xd1 xt1 (P.Wst 1) (P.Wmd 1) (P.bt 1)
  fun n => table xd2 xt2 (p0 n) (p1 n)

def edgeOut (P : Params D) (ed : Fin E → Fin R) (et : Fin E → Fin T) (ev : Fin E → EReal)
    (gf : Fin R → Fin D → EReal) (te : Fin T → Fin D → EReal) (p0 : Fin N → Fin R) (p1 : Fin N → Fin T) : Fin N → EReal :=
  let xd0 := l2n gf
  let xt0 := l2n te
  let xd1 := edgeData true ed et ev xd0 xt0 (P.Wsd 0) (P.Wmt 0) (P.bd 0)
  let xt1 := edgeTask true ed et ev xd0 xt0 (P.Wst 0) (P.Wmd 0) (P.bt 0)
  let xd2 := edgeData false ed et ev xd1 xt1 (P.Wsd 1) (P.Wmt 1) (P.bd 1)
  let xt2 := edgeTask false ed et ev xd1 xt1 (P.Wst 1) (P.Wmd 1) (P.bt 1)
  fun n => table xd2 xt2 (p0 n) (p1 n)

def IsReal (x : EReal) : Prop := ∃ a : ℝ, x = (a : EReal)

def Params.Real {D : ℕ} (P : Params D) : Prop :=
  (∀ l a b, IsReal (P.Wsd l a b)) ∧ (∀ l a b, IsReal (P.Wst l a b)) ∧ (∀ l a b, IsReal (P.Wmd l a b)) ∧ (∀ l a b, IsReal (P.Wmt l a b))
    ∧ (∀ l a, IsReal (P.bd l a)) ∧ (∀ l a, IsReal (P.bt l a))

end Whole

end Cert.Spec

end
-- ==== Proof.Bridge.lean ====
import Idealize.ShloMosaic.PureOps.Ideal
import Idealize.ShloMosaic.Lib.ValueIdx
import Idealize.ShloMosaic.Lib.ValueIdxRank1
import proofs.«412725_j14448269984048_2_alg».proof.Proof.Spec

noncomputable section

namespace Cert.Bridge

open Idealize.ShloMosaic Idealize.ShloMosaic.ValueIdx

def mat {R C : ℕ} (a : (⟨2, ![R, C]⟩ : Shape).Idx → EReal) : Fin R → Fin C → EReal := fun r j => a (ix2 r j)

def row1 {C : ℕ} (a : (⟨2, ![1, C]⟩ : Shape).Idx → EReal) : Fin C → EReal := fun j => a (ix2 0 j)

def vec {N : ℕ} (a : (⟨1, ![N]⟩ : Shape).Idx → EReal) : Fin N → EReal := fun e => a (ix1 e)

def slab {A B : ℕ} (a : (⟨3, ![2, A, B]⟩ : Shape).Idx → EReal) (l : Fin 2) : Fin A → Fin B → EReal := fun p q => a (ix3 l p q)

def layerRow {C : ℕ} (a : (⟨2, ![2, C]⟩ : Shape).Idx → EReal) (l : Fin 2) : Fin C → EReal := fun j => a (ix2 l j)

-- An index word read as a coordinate below n: reduced modulo n so that the reading is total.
def coord (n : ℕ) [NeZero n] (w : BitVec 32) : Fin n := ⟨w.toNat % n, Nat.mod_lt _ (Nat.pos_of_ne_zero (NeZero.ne n))⟩

theorem coord_val (n : ℕ) [NeZero n] (w : BitVec 32) (h : w.toNat < n) : (coord n w).val = w.toNat := Nat.mod_eq_of_lt h

def coords {N : ℕ} (n : ℕ) [NeZero n] (a : (⟨1, ![N]⟩ : Shape).Idx → BitVec 32) : Fin N → Fin n := fun e => coord n (a (ix1 e))

def coordsRow {N : ℕ} (n : ℕ) [NeZero n] (a : (⟨2, ![2, N]⟩ : Shape).Idx → BitVec 32) (l : Fin 2) : Fin N → Fin n :=
  fun e => coord n (a (ix2 l e))

variable (gf : (⟨2, ![100000, 128]⟩ : Shape).Idx → EReal) (te : (⟨2, ![512, 128]⟩ : Shape).Idx → EReal)
  (ev : (⟨1, ![500000]⟩ : Shape).Idx → EReal) (Wsd Wst Wmd Wmt : (⟨3, ![2, 128, 128]⟩ : Shape).Idx → EReal)
  (bd bt : (⟨2, ![2, 128]⟩ : Shape).Idx → EReal) (eD eT : (⟨1, ![500000]⟩ : Shape).Idx → BitVec 32)
  (pi : (⟨2, ![2, 500000]⟩ : Shape).Idx → BitVec 32)

def params : Spec.Params 128 where
  Wsd := slab Wsd
  Wst := slab Wst
  Wmd := slab Wmd
  Wmt := slab Wmt
  bd := layerRow bd
  bt := layerRow bt

def denseResult : (⟨2, ![500000, 1]⟩ : Shape).Idx → EReal :=
  fun i => Spec.denseOut (params Wsd Wst Wmd Wmt bd bt) (coords 100000 eD) (coords 512 eT) (vec ev) (mat gf) (mat te)
    (coordsRow 100000 pi 0) (coordsRow 512 pi 1) (i 0)

def edgeResult : (⟨2, ![500000, 1]⟩ : Shape).Idx → EReal :=
  fun i => Spec.edgeOut (params Wsd Wst Wmd Wmt bd bt) (coords 100000 eD) (coords 512 eT) (vec ev) (mat gf) (mat te)
    (coordsRow 100000 pi 0) (coordsRow 512 pi 1) (i 0)

structure Admissible : Prop where
  gf_real : ∀ i, Spec.IsReal (gf i)
  te_real : ∀ i, Spec.IsReal (te i)
  ev_real : ∀ i, Spec.IsReal (ev i)
  Wsd_real : ∀ i, Spec.IsReal (Wsd i)
  Wst_real : ∀ i, Spec.IsReal (Wst i)
  Wmd_real : ∀ i, Spec.IsReal (Wmd i)
  Wmt_real : ∀ i, Spec.IsReal (Wmt i)
  bd_real : ∀ i, Spec.IsReal (bd i)
  bt_real : ∀ i, Spec.IsReal (bt i)
  eD_lt : ∀ i, (eD i).toNat < 100000
  eT_lt : ∀ i, (eT i).toNat < 512
  p0_lt : ∀ n : Fin 500000, (pi (ix2 0 n)).toNat < 100000
  p1_lt : ∀ n : Fin 500000, (pi (ix2 1 n)).toNat < 512

end Cert.Bridge

end
-- ==== Proof.KI_Host.lean ====
import proofs.«412725_j14448269984048_2_alg».proof.Proof.Gen.KernelIdeal.Launch
import proofs.«412725_j14448269984048_2_alg».proof.Proof.Bridge
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Host

open Cert Cert.KernelIdeal Cert.KernelIdeal.Gen
open Idealize.ShloMosaic Idealize.ShloMosaic.TcCoe Idealize.ShloMosaic.ValueIdx
open Idealize.ShloMosaic.StableHlo (after_cons after_nil)

theorem ofFin_eq_ix1 {n : Nat} (k : Fin n) : Shape.Idx.ofFin k = ix1 k := by
  funext a; match a with | ⟨0, _⟩ => rfl

theorem ixP_eq_ix2 {n : Nat} (k : Fin n) : StableHlo.Predicate.ixP k = ix2 k (0 : Fin 1) := by
  funext a; match a with | ⟨0, _⟩ => rfl | ⟨1, _⟩ => rfl

theorem bcast_col_apply {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p 0) = v (ix1 p) := by
  have hb := StableHlo.Predicate.bcast_col1 h₁ v p
  rw [ixP_eq_ix2, ofFin_eq_ix1] at hb
  exact hb

open Idealize.ShloMosaic.StableHlo.Predicate in

theorem flat_toNat (d t : BitVec 32) (hd : d.toNat < 100000) (ht : t.toNat < 512) :
    (IntOp.addi (IntOp.muli d 512#32) t).toNat = d.toNat * 512 + t.toNat := by
  unfold IntOp.addi IntOp.muli
  rw [BitVec.toNat_add, BitVec.toNat_mul]
  have h512 : (512#32 : BitVec 32).toNat = 512 := rfl
  rw [h512, Nat.mod_eq_of_lt (a := d.toNat * 512) (by omega), Nat.mod_eq_of_lt (by omega)]

theorem slab_read (A : S2x128x128.Idx → EReal) (l : Fin 2) (hs : S2x128x128.Slices ![l.val, 0, 0] S1x128x128)
    (hc : S1x128x128.ShapeCasts S128x128) :
    Bridge.mat (shapeCast S128x128 (extractStridedSlice S1x128x128 ![l.val, 0, 0] A hs) hc) = Bridge.slab A l := by
  funext p q
  show shapeCast S128x128 (extractStridedSlice S1x128x128 ![l.val, 0, 0] A hs) hc (ix2 p q) = A (ix3 l p q)
  rw [shapeCast_1ab_ab_apply]
  refine extractStridedSlice_apply _ _ _ _ _ (fun ax => ?_)
  match ax with
  | ⟨0, _⟩ => exact (Nat.add_zero _).symm
  | ⟨1, _⟩ => exact (Nat.zero_add _).symm
  | ⟨2, _⟩ => exact (Nat.zero_add _).symm

theorem layerRow_read (A : S2x128.Idx → EReal) (l : Fin 2) (hs : S2x128.Slices ![l.val, 0] S1x128)
    (h1 : S1x128.ShapeCasts S128) (h2 : S128.ShapeCasts S1x128) :
    Bridge.row1 (shapeCast S1x128 (shapeCast S128 (extractStridedSlice S1x128 ![l.val, 0] A hs) h1) h2) = Bridge.layerRow A l := by
  funext j
  show shapeCast S1x128 (shapeCast S128 (extractStridedSlice S1x128 ![l.val, 0] A hs) h1) h2 (ix2 0 j) = A (ix2 l j)
  rw [shapeCast_a_1a_apply, shapeCast_1a_a_apply]
  exact slice2_axis0_apply l.val A hs 0 j l (Nat.add_zero _).symm

theorem v8_eq (X : Valuation τ sig (Elt Ideal)) :
    Bridge.mat (StableHlo.after hostOps0 X main_v8 : S128x128.Idx → EReal) = Bridge.slab (X main_arg5 : S2x128x128.Idx → EReal) 0 := by
  dsimp only [hostOps0]; after_results; exact slab_read _ 0 _ _

theorem v10_eq (X : Valuation τ sig (Elt Ideal)) :
    Bridge.mat (StableHlo.after hostOps0 X main_v10 : S128x128.Idx → EReal) = Bridge.slab (X main_arg3 : S2x128x128.Idx → EReal) 0 := by
  dsimp only [hostOps0]; after_results; exact slab_read _ 0 _ _

theorem v12_eq (X : Valuation τ sig (Elt Ideal)) :
    Bridge.mat (StableHlo.after hostOps0 X main_v12 : S128x128.Idx → EReal) = Bridge.slab (X main_arg6 : S2x128x128.Idx → EReal) 0 := by
  dsimp only [hostOps0]; after_results; exact slab_read _ 0 _ _

theorem v14_eq (X : Valuation τ sig (Elt Ideal)) :
    Bridge.mat (StableHlo.after hostOps0 X main_v14 : S128x128.Idx → EReal) = Bridge.slab (X main_arg4 : S2x128x128.Idx → EReal) 0 := by
  dsimp only [hostOps0]; after_results; exact slab_read _ 0 _ _

theorem v19_eq (X : Valuation τ sig (Elt Ideal)) :
    Bridge.row1 (StableHlo.after hostOps0 X main_v19 : S1x128.Idx → EReal) = Bridge.layerRow (X main_arg7 : S2x128.Idx → EReal) 0 := by
  dsimp only [hostOps0]; after_results; exact layerRow_read _ 0 _ _ _

theorem v20_eq (X : Valuation τ sig (Elt Ideal)) :
    Bridge.row1 (StableHlo.after hostOps0 X main_v20 : S1x128.Idx → EReal) = Bridge.layerRow (X main_arg8 : S2x128.Idx → EReal) 0 := by
  dsimp only [hostOps0]; after_results; exact layerRow_read _ 0 _ _ _

theorem v23_eq (X : Valuation τ sig (Elt Ideal)) :
    Bridge.mat (StableHlo.after hostOps1 X main_v23 : S128x128.Idx → EReal) = Bridge.slab (X main_arg5 : S2x128x128.Idx → EReal) 1 := by
  dsimp only [hostOps1]; after_results; exact slab_read _ 1 _ _

theorem v25_eq (X : Valuation τ sig (Elt Ideal)) :
    Bridge.mat (StableHlo.after hostOps1 X main_v25 : S128x128.Idx → EReal) = Bridge.slab (X main_arg3 : S2x128x128.Idx → EReal) 1 := by
  dsimp only [hostOps1]; after_results; exact slab_read _ 1 _ _

theorem v27_eq (X : Valuation τ sig (Elt Ideal)) :
    Bridge.mat (StableHlo.after hostOps1 X main_v27 : S128x128.Idx → EReal) = Bridge.slab (X main_arg6 : S2x128x128.Idx → EReal) 1 := by
  dsimp only [hostOps1]; after_results; exact slab_read _ 1 _ _

theorem v29_eq (X : Valuation τ sig (Elt Ideal)) :
    Bridge.mat (StableHlo.after hostOps1 X main_v29 : S128x128.Idx → EReal) = Bridge.slab (X main_arg4 : S2x128x128.Idx → EReal) 1 := by
  dsimp only [hostOps1]; after_results; exact slab_read _ 1 _ _

theorem v34_eq (X : Valuation τ sig (Elt Ideal)) :
    Bridge.row1 (StableHlo.after hostOps1 X main_v34 : S1x128.Idx → EReal) = Bridge.layerRow (X main_arg7 : S2x128.Idx → EReal) 1 := by
  dsimp only [hostOps1]; after_results; exact layerRow_read _ 1 _ _ _

theorem v35_eq (X : Valuation τ sig (Elt Ideal)) :
    Bridge.row1 (StableHlo.after hostOps1 X main_v35 : S1x128.Idx → EReal) = Bridge.layerRow (X main_arg8 : S2x128.Idx → EReal) 1 := by
  dsimp only [hostOps1]; after_results; exact layerRow_read _ 1 _ _ _

theorem scatter_resultIdx_take {N n w : Nat} (d : ScatterDims ⟨1, ![N]⟩ ⟨2, ![n, 1]⟩ ⟨1, ![n]⟩)
    (hins : d.insertedWindowDims = [0]) (hsd : d.scatterDimsToOperandDims = [0]) (hivd : d.indexVectorDim = 1)
    (idx : IVec ⟨2, ![n, 1]⟩ w) (e : Fin n) (f : Nat) (hf : f < N) (hidx : (idx (ix2 e 0)).toInt = (f : Int)) :
    d.resultIdx? (ix1 e) idx = some (ix1 ⟨f, hf⟩) := by
  have hm : (0 : Fin 1) ∈ d.scatterDimsToOperandDims := by rw [hsd]; exact List.mem_singleton.mpr rfl
  have hsi : d.siIdx (ix1 e) ⟨d.scatterDimsToOperandDims.idxOf 0, List.idxOf_lt_length_iff.2 hm⟩ = ix2 e 0 := by
    funext b
    match b with
    | ⟨0, _⟩ =>
      unfold ScatterDims.siIdx
      rw [dif_neg (by rw [hivd]; simp)]
      unfold ScatterDims.siCoord
      apply Fin.ext
      simp only [Fin.val_cast]
      have e' : ∀ X : Fin 1, ((ix1 e : (⟨1, ![n]⟩ : Shape).Idx) X).val = e.val := fun X => by
        have hX : X = 0 := Subsingleton.elim _ _
        subst hX; rfl
      exact e' _
    | ⟨1, _⟩ =>
      unfold ScatterDims.siIdx
      rw [dif_pos (by rw [hivd])]
      apply Fin.ext
      show List.idxOf (0 : Fin 1) d.scatterDimsToOperandDims = 0
      rw [hsd]; simp
  have hstart : ∀ a, d.start (ix1 e) idx a = (f : Int) := fun a => by
    obtain rfl : a = 0 := Subsingleton.elim _ _
    unfold ScatterDims.start
    rw [dif_pos hm, hsi, hidx]
  have hwin : ∀ a, d.window (ix1 e) a = 0 := fun a => by
    obtain rfl : a = 0 := Subsingleton.elim _ _
    unfold ScatterDims.window
    rw [dif_neg]
    simp [ScatterDims.sKept, Shape.kept, hins]
  unfold ScatterDims.resultIdx?
  rw [dif_pos (fun a => by
    obtain rfl : a = 0 := Subsingleton.elim _ _
    rw [hstart, hwin]; exact ⟨by omega, by show (f : Int) + ((0 : Nat) : Int) < (N : Int); omega⟩)]
  refine congrArg some (funext fun a => Fin.ext ?_)
  obtain rfl : a = 0 := Subsingleton.elim _ _
  show ((d.start (ix1 e) idx 0 + (d.window (ix1 e) 0 : Int)).toNat) = f
  rw [hstart, hwin]; simp

def flatIdx (d t : IVec S500000 32) : IVec S500000 32 :=
  addi (muli d (broadcastInDim S500000 ![] bcast_S_S500000 (constantI S_ 32 512#32))) t

theorem flatIdx_apply (d t : IVec S500000 32) (e : Fin 500000) :
    flatIdx d t (ix1 e) = IntOp.addi (IntOp.muli (d (ix1 e)) 512#32) (t (ix1 e)) := rfl

def denseTerm (d t : IVec S500000 32) (v : S500000.Idx → EReal) : S100000x512.Idx → EReal :=
  shapeCast S100000x512
    (Host.scatterAdd (F := Ideal) scatter_S51200000_S500000x1_S500000_n_0_0_1
      (broadcastInDim S51200000 ![] bcast_S_S51200000 (constant (F := Ideal) S_ .f32 0x00000000#32))
      (broadcastInDim S500000x1 ![0] bcast_S500000_S500000x1_0 (flatIdx d t)) v)
    shapeCasts_S51200000_S100000x512

open Idealize.ShloMosaic.StableHlo.Predicate in

theorem denseTerm_eq (d t : IVec S500000 32) (v : S500000.Idx → EReal)
    (hd : ∀ i, (d i).toNat < 100000) (ht : ∀ i, (t i).toNat < 512) :
    Bridge.mat (denseTerm d t v) = Spec.dense (Bridge.coords 100000 d) (Bridge.coords 512 t) (Bridge.vec v) := by
  funext r c
  have hpos : r.val * 512 + c.val < 51200000 := by have := r.isLt; have := c.isLt; omega
  show denseTerm d t v (ix2 r c) = ∑ e ∈ Finset.univ.filter (fun e => Bridge.coords 100000 d e = r ∧ Bridge.coords 512 t e = c), Bridge.vec v e
  unfold denseTerm
  rw [shapeCast_apply _ _ (ix2 r c) (ix1 ⟨r.val * 512 + c.val, hpos⟩) (by rw [Shape.rowMajor_val_one, Shape.rowMajor_val_two]; rfl)]
  show Ideal.ofBits .f32 0x00000000#32 + ∑ j ∈ Finset.univ.filter (fun j : S500000.Idx =>
      scatter_S51200000_S500000x1_S500000_n_0_0_1.resultIdx? j
        (broadcastInDim S500000x1 ![0] bcast_S500000_S500000x1_0 (flatIdx d t)) = some (ix1 ⟨r.val * 512 + c.val, hpos⟩)), v j = _
  rw [Ideal.ofBits_zero_f32, zero_add, Finset.sum_filter, Finset.sum_filter]
  refine Fintype.sum_equiv idxEquiv1 _ _ (fun j => ?_)
  obtain ⟨e, rfl⟩ : ∃ e : Fin 500000, j = ix1 e := ⟨j 0, eq_ix1 j⟩
  show (if _ then v (ix1 e) else 0)
    = if (Bridge.coords 100000 d e = r ∧ Bridge.coords 512 t e = c) then Bridge.vec v e else 0
  have hde := hd (ix1 e)
  have hte := ht (ix1 e)
  have hfl : (flatIdx d t (ix1 e)).toNat = (d (ix1 e)).toNat * 512 + (t (ix1 e)).toNat := by
    rw [flatIdx_apply]; exact flat_toNat _ _ hde hte
  have hf : (d (ix1 e)).toNat * 512 + (t (ix1 e)).toNat < 51200000 := by omega
  have hres := scatter_resultIdx_take scatter_S51200000_S500000x1_S500000_n_0_0_1 rfl rfl rfl
    (broadcastInDim S500000x1 ![0] bcast_S500000_S500000x1_0 (flatIdx d t)) e _ hf (by
      rw [bcast_col_apply, toInt_eq_toNat_of_lt (by omega), hfl])
  rw [hres]
  refine if_congr ?_ rfl rfl
  rw [Option.some_inj]
  have hcd : (Bridge.coords 100000 d e).val = (d (ix1 e)).toNat := Bridge.coord_val 100000 _ hde
  have hct : (Bridge.coords 512 t e).val = (t (ix1 e)).toNat := Bridge.coord_val 512 _ hte
  have hc := c.isLt
  constructor
  · intro h
    have h0 : (d (ix1 e)).toNat * 512 + (t (ix1 e)).toNat = r.val * 512 + c.val := congrArg (fun i : S51200000.Idx => (i 0).val) h
    exact ⟨Fin.ext (by rw [hcd]; omega), Fin.ext (by rw [hct]; omega)⟩
  · rintro ⟨h1, h2⟩
    have h1' : (d (ix1 e)).toNat = r.val := by rw [← hcd, h1]
    have h2' : (t (ix1 e)).toNat = c.val := by rw [← hct, h2]
    exact congrArg ix1 (Fin.ext (by show (d (ix1 e)).toNat * 512 + (t (ix1 e)).toNat = r.val * 512 + c.val; omega))

theorem v6_eq (X : Valuation τ sig (Elt Ideal)) (hd : ∀ i, ((X main_arg9 : IVec S500000 32) i).toNat < 100000)
    (ht : ∀ i, ((X main_arg10 : IVec S500000 32) i).toNat < 512) :
    Bridge.mat (StableHlo.after hostOps0 X main_v6 : S100000x512.Idx → EReal)
      = Spec.dense (Bridge.coords 100000 (X main_arg9 : IVec S500000 32)) (Bridge.coords 512 (X main_arg10 : IVec S500000 32))
          (Bridge.vec (X main_arg2 : S500000.Idx → EReal)) := by
  have e : (StableHlo.after hostOps0 X main_v6 : S100000x512.Idx → EReal)
      = denseTerm (X main_arg9 : IVec S500000 32) (X main_arg10 : IVec S500000 32) (X main_arg2 : S500000.Idx → EReal) := by
    dsimp only [hostOps0]; after_results; rfl
  rw [e]
  exact denseTerm_eq _ _ _ hd ht

theorem foldl_andi_ones {ι : Type} (f : ι → BitVec 1) (hf : ∀ n, f n = 1#1) :
    ∀ (l : List ι), l.foldl (fun r n => IntOp.andi r (f n)) 1#1 = 1#1
  | [] => rfl
  | a :: l => by
    rw [List.foldl_cons, hf a]
    exact foldl_andi_ones f hf l

theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_andi_ones (fun n => x (s.rowMajor.symm n)) (fun n => hx _) _

def wrapIdx (i : IVec S500000 32) : IVec S500000 32 :=
  select (cmpi .slt i (broadcastInDim S500000 ![] bcast_S_S500000 (constantI S_ 32 0#32)))
    (addi i (broadcastInDim S500000 ![] bcast_S_S500000 (constantI S_ 32 51200000#32))) i

def colIdx (i : IVec S500000 32) : IVec S500000x1 32 :=
  broadcastInDim S500000x1 ![0] bcast_S500000_S500000x1_0 (wrapIdx i)

def inRange (i : IVec S500000 32) : IVec S500000x1 1 :=
  andi (cmpi .sge (colIdx i) (broadcastInDim S500000x1 ![] bcast_S_S500000x1 (constantI S_ 32 0#32)))
    (cmpi .sle (colIdx i) (broadcastInDim S500000x1 ![0, 1] bcast_S1x1_S500000x1_0_1
      (broadcastInDim S1x1 ![1] bcast_S1_S1x1_1 (constantI S1 32 51199999#32))))

def takeTerm (i : IVec S500000 32) (x : S51200000.Idx → EReal) : S500000.Idx → EReal :=
  select (Host.reduce IntOp.andi (inRange i) (constantI S_ 1 1#1) reducesTo_S500000x1_S500000_d1 h_S_)
    (Host.gather gather_S51200000_S500000x1_S500000_n_0_n_n_0_1_1 x (colIdx i))
    (broadcastInDim S500000 ![] bcast_S_S500000 (constant (F := Ideal) S_ .f32 0x7FC00000#32))

open Idealize.ShloMosaic.StableHlo.Predicate in

theorem wrapIdx_apply (i : IVec S500000 32) (n : Fin 500000) (h : (i (ix1 n)).toNat < 51200000) :
    wrapIdx i (ix1 n) = i (ix1 n) := by
  unfold wrapIdx
  rw [select_apply]
  have hc : cmpi .slt i (broadcastInDim S500000 ![] bcast_S_S500000 (constantI S_ 32 0#32)) (ix1 n) = 0#1 := by
    refine eq_zero_of_ne_one (fun e => ?_)
    have := (slt_iff_toNat (a := i (ix1 n)) (b := 0#32) (by omega) (by decide)).1 e
    exact absurd this (Nat.not_lt_zero _)
  rw [hc, select_zero]

open Idealize.ShloMosaic.StableHlo.Predicate in
theorem colIdx_apply (i : IVec S500000 32) (n : Fin 500000) (h : (i (ix1 n)).toNat < 51200000) :
    colIdx i (ix2 n 0) = i (ix1 n) := by
  unfold colIdx
  have hb := bcast_col1 bcast_S500000_S500000x1_0 (wrapIdx i) n
  rw [ixP_eq_ix2, ofFin_eq_ix1, wrapIdx_apply i n h] at hb
  exact hb

open Idealize.ShloMosaic.StableHlo.Predicate in
theorem inRange_apply (i : IVec S500000 32) (n : Fin 500000) (h : (i (ix1 n)).toNat < 51200000) :
    inRange i (ix2 n 0) = 1#1 := by
  unfold inRange
  show IntOp.andi (IntOp.cmpi .sge (colIdx i (ix2 n 0)) 0#32) (IntOp.cmpi .sle (colIdx i (ix2 n 0)) 51199999#32) = 1#1
  rw [colIdx_apply i n h]
  have h1 : IntOp.cmpi .sge (i (ix1 n)) 0#32 = 1#1 := (sge_iff_toNat (by omega) (by decide)).2 (Nat.zero_le _)
  have h2 : IntOp.cmpi .sle (i (ix1 n)) 51199999#32 = 1#1 :=
    (sle_iff_toNat (by omega) (by decide)).2 (by show _ ≤ 51199999; omega)
  rw [h1, h2]; rfl

open Idealize.ShloMosaic.StableHlo.Predicate in

theorem takeTerm_apply (i : IVec S500000 32) (x : S51200000.Idx → EReal)
    (h : ∀ n : Fin 500000, (i (ix1 n)).toNat < 51200000) (n : Fin 500000) :
    takeTerm i x (ix1 n) = x (ix1 ⟨(i (ix1 n)).toNat, h n⟩) := by
  unfold takeTerm
  rw [select_apply]
  have hall : ∀ j : S500000x1.Idx, inRange i j = 1#1 := fun j => by
    obtain ⟨p, q, rfl⟩ : ∃ (p : Fin 500000) (q : Fin 1), j = ix2 p q := ⟨j 0, j 1, eq_ix2 j⟩
    obtain rfl : q = 0 := Subsingleton.elim _ _
    exact inRange_apply i p (h p)
  have hr := reduce_andi_ones (inRange i) (constantI S_ 1 1#1) reducesTo_S500000x1_S500000_d1 h_S_ hall (fun _ => rfl) (ix1 n)
  rw [hr, select_one]
  have hg := gather_take gather_S51200000_S500000x1_S500000_n_0_n_n_0_1_1 rfl rfl rfl rfl x (colIdx i) n (by decide)
  rw [ofFin_eq_ix1, ofFin_eq_ix1] at hg
  refine hg.trans (congrArg x (congrArg ix1 (Fin.ext ?_)))
  show min (colIdx i (StableHlo.Predicate.ixP n)).toInt.toNat (51200000 - 1) = (i (ix1 n)).toNat
  rw [ixP_eq_ix2, colIdx_apply i n (h n), toInt_eq_toNat_of_lt (by have := h n; omega), Int.toNat_natCast]
  have := h n; omega

def pairRow (l : Fin 2) (A : IVec S2x500000 32) (hs : S2x500000.Slices ![l.val, 0] S1x500000) : IVec S500000 32 :=
  shapeCast S500000 (extractStridedSlice S1x500000 ![l.val, 0] A hs) shapeCasts_S1x500000_S500000

theorem pairRow_apply (l : Fin 2) (A : IVec S2x500000 32) (hs : S2x500000.Slices ![l.val, 0] S1x500000) (n : Fin 500000) :
    pairRow l A hs (ix1 n) = A (ix2 l n) := by
  unfold pairRow
  rw [shapeCast_1a_a_apply]
  exact slice2_axis0_apply l.val A hs 0 n l (Nat.add_zero _).symm

def pairFlat (A : IVec S2x500000 32) : IVec S500000 32 :=
  addi (muli (pairRow 0 A slices_S2x500000_S1x500000_0_0) (broadcastInDim S500000 ![] bcast_S_S500000 (constantI S_ 32 512#32)))
    (pairRow 1 A slices_S2x500000_S1x500000_1_0)

theorem pairFlat_apply (A : IVec S2x500000 32) (n : Fin 500000) :
    pairFlat A (ix1 n) = IntOp.addi (IntOp.muli (A (ix2 0 n)) 512#32) (A (ix2 1 n)) := by
  show IntOp.addi (IntOp.muli (pairRow 0 A slices_S2x500000_S1x500000_0_0 (ix1 n)) 512#32) (pairRow 1 A slices_S2x500000_S1x500000_1_0 (ix1 n)) = _
  rw [pairRow_apply, pairRow_apply]

theorem flatTable_apply (T : S100000x512.Idx → EReal) (r : Fin 100000) (c : Fin 512) (p : Fin 51200000)
    (hp : p.val = r.val * 512 + c.val) :
    shapeCast S51200000 T shapeCasts_S100000x512_S51200000 (ix1 p) = T (ix2 r c) :=
  shapeCast_apply T _ _ _ (by rw [Shape.rowMajor_val_one, Shape.rowMajor_val_two]; exact hp.symm)

theorem tail_read (A : IVec S2x500000 32) (T : S100000x512.Idx → EReal)
    (h0 : ∀ n : Fin 500000, (A (ix2 0 n)).toNat < 100000) (h1 : ∀ n : Fin 500000, (A (ix2 1 n)).toNat < 512) :
    broadcastInDim S500000x1 ![0] bcast_S500000_S500000x1_0
        (takeTerm (pairFlat A) (shapeCast S51200000 T shapeCasts_S100000x512_S51200000))
      = fun i => T (ix2 (Bridge.coord 100000 (A (ix2 0 (i 0)))) (Bridge.coord 512 (A (ix2 1 (i 0))))) := by
  funext i
  obtain ⟨n, q, rfl⟩ : ∃ (n : Fin 500000) (q : Fin 1), i = ix2 n q := ⟨i 0, i 1, eq_ix2 i⟩
  obtain rfl : q = 0 := Subsingleton.elim _ _
  show broadcastInDim S500000x1 ![0] bcast_S500000_S500000x1_0
        (takeTerm (pairFlat A) (shapeCast S51200000 T shapeCasts_S100000x512_S51200000)) (ix2 n 0)
      = T (ix2 (Bridge.coord 100000 (A (ix2 0 n))) (Bridge.coord 512 (A (ix2 1 n))))
  have hfl : ∀ m : Fin 500000, (pairFlat A (ix1 m)).toNat = (A (ix2 0 m)).toNat * 512 + (A (ix2 1 m)).toNat := fun m => by
    rw [pairFlat_apply]; exact flat_toNat _ _ (h0 m) (h1 m)
  have hin : ∀ m : Fin 500000, (pairFlat A (ix1 m)).toNat < 51200000 := fun m => by
    rw [hfl]; have := h0 m; have := h1 m; omega
  rw [bcast_col_apply, takeTerm_apply _ _ hin n]
  refine flatTable_apply T _ _ _ ?_
  show (pairFlat A (ix1 n)).toNat = (Bridge.coord 100000 _).val * 512 + (Bridge.coord 512 _).val
  rw [hfl, Bridge.coord_val _ _ (h0 n), Bridge.coord_val _ _ (h1 n)]

theorem v47_eq (X : Valuation τ sig (Elt Ideal))
    (h0 : ∀ n : Fin 500000, ((X main_arg11 : IVec S2x500000 32) (ix2 0 n)).toNat < 100000)
    (h1 : ∀ n : Fin 500000, ((X main_arg11 : IVec S2x500000 32) (ix2 1 n)).toNat < 512) :
    (StableHlo.after hostOps3_2 (StableHlo.after hostOps3_1 (StableHlo.after hostOps3 X)) main_v47 : S500000x1.Idx → EReal)
      = fun i => (X main_v37 : S100000x512.Idx → EReal)
          (ix2 (Bridge.coord 100000 ((X main_arg11 : IVec S2x500000 32) (ix2 0 (i 0))))
            (Bridge.coord 512 ((X main_arg11 : IVec S2x500000 32) (ix2 1 (i 0))))) := by
  have e44 : (StableHlo.after hostOps3 X main_v44 : IVec S500000 32) = pairFlat (X main_arg11 : IVec S2x500000 32) := by
    dsimp only [hostOps3]; after_results; rfl
  have e45 : (StableHlo.after hostOps3 X main_v45 : S51200000.Idx → EReal)
      = shapeCast S51200000 (X main_v37 : S100000x512.Idx → EReal) shapeCasts_S100000x512_S51200000 := by
    dsimp only [hostOps3]; after_results; rfl
  have e46 : ∀ Y : Valuation τ sig (Elt Ideal), (StableHlo.after hostOps3_1 Y main_v46 : S500000.Idx → EReal)
      = takeTerm (Y main_v44 : IVec S500000 32) (Y main_v45 : S51200000.Idx → EReal) := fun Y => by
    dsimp only [hostOps3_1]; after_results_simp
    simp only [StableHlo.TRef.ofBuf, StableHlo.TRef.toBuf, cast_eq]
    rfl
  have e47 : ∀ Z : Valuation τ sig (Elt Ideal), (StableHlo.after hostOps3_2 Z main_v47 : S500000x1.Idx → EReal)
      = broadcastInDim S500000x1 ![0] bcast_S500000_S500000x1_0 (Z main_v46 : S500000.Idx → EReal) := fun Z => by
    dsimp only [hostOps3_2]; after_results
  rw [e47, e46, e44, e45]
  exact tail_read _ _ h0 h1

end Cert.KernelIdeal.Host
end
-- ==== Proof.KI_Layer.lean ====
import proofs.«412725_j14448269984048_2_alg».proof.Proof.Gen.KernelIdeal.Skeleton
import proofs.«412725_j14448269984048_2_alg».proof.Proof.Bridge
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Group.Finset.Basic
import Mathlib.Algebra.BigOperators.Fin
import Mathlib.Data.Fintype.BigOperators
import Mathlib.Logic.Equiv.Fin.Basic

noncomputable section

namespace Cert.KernelIdeal.Layer

open Cert.KernelIdeal Cert.KernelIdeal.Gen
open Idealize.ShloMosaic Idealize.ShloMosaic.ValueIdx Idealize.ShloMosaic.TcCoe

/-- A kept axis of the left operand reads the output index at that axis's place among the output's axes. -/
theorem lhsIdx_non {sl sr so : Shape} (d : DotDims sl sr so) (a : Fin sl.rank) (hb : a ∉ d.lhsBatch) (hn : a ∈ d.lhsNonContracting)
    (o : Fin so.rank) (ho : d.lhsBatch.length + d.lhsNonContracting.idxOf a = o.val) (j : so.Idx) (k : d.contr.Idx) :
    (d.lhsIdx j k a).val = (j o).val := by
  have key : ∀ (x : ℕ) (hx : x < so.rank), x = o.val → (j ⟨x, hx⟩).val = (j o).val := fun x hx h => by subst h; rfl
  unfold DotDims.lhsIdx
  rw [dif_neg hb, dif_pos hn]
  exact key _ _ ho

theorem rhsIdx_non {sl sr so : Shape} (d : DotDims sl sr so) (a : Fin sr.rank) (hb : a ∉ d.rhsBatch) (hn : a ∈ d.rhsNonContracting)
    (o : Fin so.rank) (ho : d.lhsBatch.length + d.lhsNonContracting.length + d.rhsNonContracting.idxOf a = o.val) (j : so.Idx)
    (k : d.contr.Idx) : (d.rhsIdx j k a).val = (j o).val := by
  have key : ∀ (x : ℕ) (hx : x < so.rank), x = o.val → (j ⟨x, hx⟩).val = (j o).val := fun x hx h => by subst h; rfl
  unfold DotDims.rhsIdx
  rw [dif_neg hb, dif_pos hn]
  exact key _ _ ho

/-- A product into zero with one summed axis, read at an entry, is the sum over that axis. -/
theorem mm_apply {sl sr : Shape} {P Q n : ℕ} {φ₁ φ₂ : FTy} (d : DotDims sl sr ⟨2, ![P, Q]⟩) (hr : d.contr.rank = 1)
    (hs : d.contr.size ⟨0, by omega⟩ = n) (a : FVec Ideal sl φ₁) (w : FVec Ideal sr φ₂) (p : Fin P) (q : Fin Q)
    (li : Fin n → sl.Idx) (ri : Fin n → sr.Idx)
    (hl : ∀ k, d.lhsIdx (ix2 p q) ((contrEquiv1 d n hr hs).symm k) = li k)
    (hr' : ∀ k, d.rhsIdx (ix2 p q) ((contrEquiv1 d n hr hs).symm k) = ri k) :
    matmul d none a w (constant (F := Ideal) ⟨2, ![P, Q]⟩ .f32 0x00000000#32) (ix2 p q) = ∑ k : Fin n, a (li k) * w (ri k) := by
  simp only [matmul]
  rw [Ideal.matmul_constant_zero_apply, ← Equiv.sum_comp (contrEquiv1 d n hr hs).symm]
  exact Finset.sum_congr rfl fun k _ => by rw [hl, hr']

theorem mmA_apply {φ₁ φ₂ : FTy} (a : FVec Ideal S2000x128 φ₁) (w : FVec Ideal S128x128 φ₂) (p : Fin 2000) (q : Fin 128) :
    matmul dot_S2000x128_S128x128_S2000x128_1_0_0_1_n_n none a w (constant (F := Ideal) S2000x128 .f32 0x00000000#32) (ix2 p q)
      = ∑ k : Fin 128, a (ix2 p k) * w (ix2 k q) :=
  mm_apply dot_S2000x128_S128x128_S2000x128_1_0_0_1_n_n rfl rfl a w p q _ _
    (fun k => funext fun x => Fin.ext (by
      match x with
      | ⟨0, _⟩ => exact lhsIdx_non dot_S2000x128_S128x128_S2000x128_1_0_0_1_n_n 0 (by decide) (by decide) 0 (by decide) _ _
      | ⟨1, _⟩ => exact (DotDims.lhsIdx_val_of_single _ rfl _ _).trans (contrEquiv1_symm_val dot_S2000x128_S128x128_S2000x128_1_0_0_1_n_n 128 rfl rfl k)))
    (fun k => funext fun x => Fin.ext (by
      match x with
      | ⟨0, _⟩ => exact (DotDims.rhsIdx_val_of_single _ rfl _ _).trans (contrEquiv1_symm_val dot_S2000x128_S128x128_S2000x128_1_0_0_1_n_n 128 rfl rfl k)
      | ⟨1, _⟩ => exact rhsIdx_non dot_S2000x128_S128x128_S2000x128_1_0_0_1_n_n 1 (by decide) (by decide) 1 (by decide) _ _))

theorem mmB_apply {φ₁ φ₂ : FTy} (a : FVec Ideal S512x128 φ₁) (w : FVec Ideal S128x128 φ₂) (p : Fin 512) (q : Fin 128) :
    matmul dot_S512x128_S128x128_S512x128_1_0_0_1_n_n none a w (constant (F := Ideal) S512x128 .f32 0x00000000#32) (ix2 p q)
      = ∑ k : Fin 128, a (ix2 p k) * w (ix2 k q) :=
  mm_apply dot_S512x128_S128x128_S512x128_1_0_0_1_n_n rfl rfl a w p q _ _
    (fun k => funext fun x => Fin.ext (by
      match x with
      | ⟨0, _⟩ => exact lhsIdx_non dot_S512x128_S128x128_S512x128_1_0_0_1_n_n 0 (by decide) (by decide) 0 (by decide) _ _
      | ⟨1, _⟩ => exact (DotDims.lhsIdx_val_of_single _ rfl _ _).trans (contrEquiv1_symm_val dot_S512x128_S128x128_S512x128_1_0_0_1_n_n 128 rfl rfl k)))
    (fun k => funext fun x => Fin.ext (by
      match x with
      | ⟨0, _⟩ => exact (DotDims.rhsIdx_val_of_single _ rfl _ _).trans (contrEquiv1_symm_val dot_S512x128_S128x128_S512x128_1_0_0_1_n_n 128 rfl rfl k)
      | ⟨1, _⟩ => exact rhsIdx_non dot_S512x128_S128x128_S512x128_1_0_0_1_n_n 1 (by decide) (by decide) 1 (by decide) _ _))

theorem mmC_apply {φ₁ φ₂ : FTy} (a : FVec Ideal S2000x512 φ₁) (w : FVec Ideal S512x128 φ₂) (p : Fin 2000) (q : Fin 128) :
    matmul dot_S2000x512_S512x128_S2000x128_1_0_0_1_n_n none a w (constant (F := Ideal) S2000x128 .f32 0x00000000#32) (ix2 p q)
      = ∑ k : Fin 512, a (ix2 p k) * w (ix2 k q) :=
  mm_apply dot_S2000x512_S512x128_S2000x128_1_0_0_1_n_n rfl rfl a w p q _ _
    (fun k => funext fun x => Fin.ext (by
      match x with
      | ⟨0, _⟩ => exact lhsIdx_non dot_S2000x512_S512x128_S2000x128_1_0_0_1_n_n 0 (by decide) (by decide) 0 (by decide) _ _
      | ⟨1, _⟩ => exact (DotDims.lhsIdx_val_of_single _ rfl _ _).trans (contrEquiv1_symm_val dot_S2000x512_S512x128_S2000x128_1_0_0_1_n_n 512 rfl rfl k)))
    (fun k => funext fun x => Fin.ext (by
      match x with
      | ⟨0, _⟩ => exact (DotDims.rhsIdx_val_of_single _ rfl _ _).trans (contrEquiv1_symm_val dot_S2000x512_S512x128_S2000x128_1_0_0_1_n_n 512 rfl rfl k)
      | ⟨1, _⟩ => exact rhsIdx_non dot_S2000x512_S512x128_S2000x128_1_0_0_1_n_n 1 (by decide) (by decide) 1 (by decide) _ _))

theorem mmT_apply {φ₁ φ₂ : FTy} (a : FVec Ideal S2000x512 φ₁) (w : FVec Ideal S2000x128 φ₂) (u : Fin 512) (j : Fin 128) :
    matmul dot_S2000x512_S2000x128_S512x128_0_0_1_1_n_n none a w (constant (F := Ideal) S512x128 .f32 0x00000000#32) (ix2 u j)
      = ∑ p : Fin 2000, a (ix2 p u) * w (ix2 p j) :=
  mm_apply dot_S2000x512_S2000x128_S512x128_0_0_1_1_n_n rfl rfl a w u j _ _
    (fun p => funext fun x => Fin.ext (by
      match x with
      | ⟨0, _⟩ => exact (DotDims.lhsIdx_val_of_single _ rfl _ _).trans (contrEquiv1_symm_val dot_S2000x512_S2000x128_S512x128_0_0_1_1_n_n 2000 rfl rfl p)
      | ⟨1, _⟩ => exact lhsIdx_non dot_S2000x512_S2000x128_S512x128_0_0_1_1_n_n 1 (by decide) (by decide) 0 (by decide) _ _))
    (fun p => funext fun x => Fin.ext (by
      match x with
      | ⟨0, _⟩ => exact (DotDims.rhsIdx_val_of_single _ rfl _ _).trans (contrEquiv1_symm_val dot_S2000x512_S2000x128_S512x128_0_0_1_1_n_n 2000 rfl rfl p)
      | ⟨1, _⟩ => exact rhsIdx_non dot_S2000x512_S2000x128_S512x128_0_0_1_1_n_n 1 (by decide) (by decide) 1 (by decide) _ _))

theorem mmD_apply {φ₁ φ₂ : FTy} (a : FVec Ideal S2000x128 φ₁) (w : FVec Ideal S512x128 φ₂) (p : Fin 2000) (q : Fin 512) :
    matmul dot_S2000x128_S512x128_S2000x512_1_1_0_0_n_n none a w (constant (F := Ideal) S2000x512 .f32 0x00000000#32) (ix2 p q)
      = ∑ k : Fin 128, a (ix2 p k) * w (ix2 q k) :=
  mm_apply dot_S2000x128_S512x128_S2000x512_1_1_0_0_n_n rfl rfl a w p q _ _
    (fun k => funext fun x => Fin.ext (by
      match x with
      | ⟨0, _⟩ => exact lhsIdx_non dot_S2000x128_S512x128_S2000x512_1_1_0_0_n_n 0 (by decide) (by decide) 0 (by decide) _ _
      | ⟨1, _⟩ => exact (DotDims.lhsIdx_val_of_single _ rfl _ _).trans (contrEquiv1_symm_val dot_S2000x128_S512x128_S2000x512_1_1_0_0_n_n 128 rfl rfl k)))
    (fun k => funext fun x => Fin.ext (by
      match x with
      | ⟨0, _⟩ => exact rhsIdx_non dot_S2000x128_S512x128_S2000x512_1_1_0_0_n_n 0 (by decide) (by decide) 1 (by decide) _ _
      | ⟨1, _⟩ => exact (DotDims.rhsIdx_val_of_single _ rfl _ _).trans (contrEquiv1_symm_val dot_S2000x128_S512x128_S2000x512_1_1_0_0_n_n 128 rfl rfl k)))

/-- Dividing every entry of a row by max(√Σ x², ε) is `Spec.l2n`. -/
theorem unit_rows_eq {R C : ℕ} (hR : R ≠ 1) (x : FVec Ideal ⟨2, ![R, C]⟩ .f32)
    (hr : (⟨2, ![R, C]⟩ : Shape).Reduces [1] ⟨1, ![R]⟩) (hφ : FKind.Formats .f32)
    (hacc : (0x00000000#32 : BitVec 32) = FKind.add.neutral .f32 hφ)
    (hc : (⟨1, ![R]⟩ : Shape).ShapeCasts ⟨2, ![R, 1]⟩) (hb : (⟨2, ![R, 1]⟩ : Shape).Broadcasts ⟨2, ![R, C]⟩)
    (f : Fin R → Fin C → EReal) (hx : ∀ r k, x (ix2 r k) = f r k) (p : Fin R) (q : Fin C) :
    divf x (broadcastTo ⟨2, ![R, C]⟩
      (maximumf (sqrt (shapeCast ⟨2, ![R, 1]⟩ (multiReduction (F := Ideal) .add [1] ⟨1, ![R]⟩ (mulf x x) 0x00000000#32 hr hφ hacc) hc))
        (broadcast ⟨2, ![R, 1]⟩ (Scalar.ofBits (F := Ideal) .f32 0x2B8CBCCC#32))) hb) (ix2 p q)
      = Spec.l2n f p q := by
  rw [divf_apply]
  rw [broadcastTo_apply _ hb (ix2 p q) (ix2 p (0 : Fin 1)) (fun a => match a with
    | ⟨0, _⟩ => by show p.val = if R = 1 then 0 else p.val; rw [if_neg hR]
    | ⟨1, _⟩ => by show 0 = if (1 : ℕ) = 1 then 0 else q.val; rw [if_pos rfl])]
  rw [maximumf_apply, broadcast_apply]
  show Ideal.div (x (ix2 p q)) (max (Ideal.sqrt (shapeCast ⟨2, ![R, 1]⟩ (multiReduction (F := Ideal) .add [1] ⟨1, ![R]⟩ (mulf x x) 0x00000000#32 hr hφ hacc) hc (ix2 p 0))) Spec.eps) = _
  rw [shapeCast_apply _ hc (ix2 p (0 : Fin 1)) (ix1 p) (by
    rw [Shape.rowMajor_val_one, Shape.rowMajor_val_two]; show p.val = p.val * 1 + 0; omega)]
  rw [Ideal.multiReduction_add_single (mulf x x) 0x00000000#32 hr hφ hacc (ix1 p)]
  have e : ∀ k : Fin C, hr.lift (ix1 p) k = ix2 p k := fun k => funext fun a => Fin.ext (by
    match a with
    | ⟨0, _⟩ => rfl
    | ⟨1, _⟩ => rfl)
  show Ideal.div (x (ix2 p q)) (max (Ideal.sqrt (∑ k : Fin C, mulf x x (hr.lift (ix1 p) k))) Spec.eps) = _
  simp only [e, mulf_apply, hx]
  rfl

theorem l2n_row {R R' D : ℕ} (x : Fin R → Fin D → EReal) (x' : Fin R' → Fin D → EReal) (r : Fin R) (r' : Fin R')
    (h : ∀ k, x' r' k = x r k) (j : Fin D) : Spec.l2n x' r' j = Spec.l2n x r j := by
  unfold Spec.l2n
  simp only [h]

/-- Row locality: an output row of the layer depends on that same row of its two row-indexed inputs. -/
theorem denseData_row {R R' T D : ℕ} (act : Bool) (S : Fin R → Fin T → EReal) (S' : Fin R' → Fin T → EReal)
    (xd : Fin R → Fin D → EReal) (xd' : Fin R' → Fin D → EReal) (xt : Fin T → Fin D → EReal) (Wsd Wmt : Fin D → Fin D → EReal)
    (bd : Fin D → EReal) (r : Fin R) (r' : Fin R') (hS : ∀ u, S' r' u = S r u) (hx : ∀ k, xd' r' k = xd r k) (j : Fin D) :
    Spec.denseData act S' xd' xt Wsd Wmt bd r' j = Spec.denseData act S xd xt Wsd Wmt bd r j := by
  unfold Spec.denseData
  refine l2n_row _ _ r r' (fun k => ?_) j
  unfold Spec.actf Spec.mm
  simp only [hS, hx]

/-- A block that is the whole array sits in it at its own coordinates. -/
theorem emb_whole {A B : ℕ} (e : (⟨2, ![A, B]⟩ : Shape).Idx → (⟨2, ![A, B]⟩ : Shape).Idx) (ix : Fin 2 → ℕ) (h : ∀ a, ix a = 0)
    (he : ∀ y, (e y (0 : Fin 2)).val = ix 0 * A + 1 * (y (0 : Fin 2)).val ∧ (e y (1 : Fin 2)).val = ix 1 * B + 1 * (y (1 : Fin 2)).val)
    (y : (⟨2, ![A, B]⟩ : Shape).Idx) : e y = y :=
  Shape.idx_ext₂ ((he y).1.trans (by rw [h 0]; omega)) ((he y).2.trans (by rw [h 1]; omega))

/-- Row p of the t-th block of a rows is row a·t + p of the array. -/
theorem emb_rows {A B a : ℕ} (e : (⟨2, ![a, B]⟩ : Shape).Idx → (⟨2, ![A, B]⟩ : Shape).Idx) (ix : Fin 2 → ℕ) (t : ℕ)
    (h : ix 0 = t ∧ ix 1 = 0)
    (he : ∀ y, (e y (0 : Fin 2)).val = ix 0 * a + 1 * (y (0 : Fin 2)).val ∧ (e y (1 : Fin 2)).val = ix 1 * B + 1 * (y (1 : Fin 2)).val)
    (p : Fin a) (k : Fin B) (r : Fin A) (hr : r.val = a * t + p.val) : e (ix2 p k) = ix2 r k :=
  Shape.idx_ext₂
    ((he _).1.trans (by show ix 0 * a + 1 * p.val = r.val; rw [h.1, hr, Nat.one_mul, Nat.mul_comm]))
    ((he _).2.trans (by show ix 1 * B + 1 * k.val = k.val; rw [h.2]; omega))

/-- A block that is the whole array, read back, is the array. -/
theorem read_whole {A B : ℕ} (X : (⟨2, ![A, B]⟩ : Shape).Idx → EReal) (e : (⟨2, ![A, B]⟩ : Shape).Idx → (⟨2, ![A, B]⟩ : Shape).Idx)
    (ix : Fin 2 → ℕ) (h : ∀ a, ix a = 0)
    (he : ∀ y, (e y (0 : Fin 2)).val = ix 0 * A + 1 * (y (0 : Fin 2)).val ∧ (e y (1 : Fin 2)).val = ix 1 * B + 1 * (y (1 : Fin 2)).val) :
    (fun y => X (e y)) = X :=
  funext fun y => congrArg X (emb_whole e ix h he y)

/-- Row r of 100000 lies in the block of 2000 rows numbered r / 2000. -/
theorem cover_rows {N B : ℕ} (hN : N = 50) (i : (⟨2, ![100000, B]⟩ : Shape).Idx) (ix : Fin N → Fin 2 → ℕ) (sz : Fin 2 → ℕ)
    (h : ∀ t, ix t 0 = t.val ∧ ix t 1 = 0) (h0 : sz 0 = 2000) (h1 : sz 1 = B) :
    ∃ t : Fin N, ∀ a : Fin 2, ix t a * sz a ≤ (i a).val ∧ (i a).val < ix t a * sz a + sz a := by
  have hi0 : (i 0).val < 100000 := (i 0).isLt
  have hi1 : (i 1).val < B := (i 1).isLt
  have hlt : (i 0).val / 2000 < N := by omega
  obtain ⟨e0, e1⟩ := h ⟨_, hlt⟩
  have e0' : ix ⟨_, hlt⟩ 0 = (i 0).val / 2000 := e0
  refine ⟨⟨_, hlt⟩, fun a => ?_⟩
  match a with
  | ⟨0, _⟩ => show ix _ 0 * sz 0 ≤ (i 0).val ∧ (i 0).val < ix _ 0 * sz 0 + sz 0; rw [e0', h0]; omega
  | ⟨1, _⟩ => show ix _ 1 * sz 1 ≤ (i 1).val ∧ (i 1).val < ix _ 1 * sz 1 + sz 1; rw [e1, h1]; omega

/-- A block at index zero on both axes and as large as the array holds every index. -/
theorem cover_whole {A B : ℕ} (i : (⟨2, ![A, B]⟩ : Shape).Idx) (ix sz : Fin 2 → ℕ) (h : ∀ a, ix a = 0) (h0 : sz 0 = A) (h1 : sz 1 = B) :
    ∀ a : Fin 2, ix a * sz a ≤ (i a).val ∧ (i a).val < ix a * sz a + sz a := fun a => by
  have hi0 : (i 0).val < A := (i 0).isLt
  have hi1 : (i 1).val < B := (i 1).isLt
  match a with
  | ⟨0, _⟩ => show ix 0 * sz 0 ≤ (i 0).val ∧ (i 0).val < ix 0 * sz 0 + sz 0; rw [h 0, h0]; omega
  | ⟨1, _⟩ => show ix 1 * sz 1 ≤ (i 1).val ∧ (i 1).val < ix 1 * sz 1 + sz 1; rw [h 1, h1]; omega

/-- Row p of block t of the fifty blocks of 2000 rows. -/
def row {N : ℕ} (hN : N = 50) (t : Fin N) (p : Fin 2000) : Fin 100000 :=
  ⟨2000 * t.val + p.val, by have := t.isLt; have := p.isLt; omega⟩

theorem sum_rows {M : Type*} [AddCommMonoid M] (f : Fin 100000 → M) :
    ∑ r, f r = ∑ m : Fin 50, ∑ p : Fin 2000, f ⟨2000 * m.val + p.val, by have := m.isLt; have := p.isLt; omega⟩ := by
  rw [← Fintype.sum_prod_type' (f := fun (m : Fin 50) (p : Fin 2000) => f ⟨2000 * m.val + p.val, by have := m.isLt; have := p.isLt; omega⟩)]
  rw [← Equiv.sum_comp (finProdFinEquiv (m := 50) (n := 2000)) f]
  refine Finset.sum_congr rfl fun x _ => congrArg f (Fin.ext ?_)
  show x.2.val + 2000 * x.1.val = 2000 * x.1.val + x.2.val
  omega

theorem acc_apply {N : ℕ} {ι : Type} (acc : (n : ℕ) → n < N → ι → EReal) (i : ι) (g : Fin N → EReal)
    (h0 : ∀ h, acc 0 h i = g ⟨0, h⟩) (hs : ∀ n h, acc (n + 1) h i = acc n (Nat.lt_of_succ_lt h) i + g ⟨n + 1, h⟩) :
    ∀ (n : ℕ) (h : n < N), acc n h i = ∑ m : Fin (n + 1), g ⟨m.val, Nat.lt_of_lt_of_le m.isLt h⟩
  | 0, h => by rw [h0, Fin.sum_univ_one]; rfl
  | n + 1, h => by rw [Fin.sum_univ_castSucc (n := n + 1), hs, acc_apply acc i g h0 hs n (Nat.lt_of_succ_lt h)]; rfl

/-- A sum carried over the fifty points, each adding its 2000 rows' terms, ends as the sum over all rows. -/
theorem acc_total {N : ℕ} (hN : N = 50) {ι : Type} (acc : (n : ℕ) → n < N → ι → EReal) (i : ι) (f : Fin 100000 → EReal)
    (h0 : ∀ h, acc 0 h i = ∑ p : Fin 2000, f (row hN ⟨0, h⟩ p))
    (hs : ∀ n h, acc (n + 1) h i = acc n (Nat.lt_of_succ_lt h) i + ∑ p : Fin 2000, f (row hN ⟨n + 1, h⟩ p))
    (h : 49 < N) : acc 49 h i = ∑ r, f r := by
  rw [acc_apply acc i (fun t => ∑ p : Fin 2000, f (row hN t p)) h0 hs, sum_rows]
  rfl

end Cert.KernelIdeal.Layer

end
-- ==== Proof.KI_Val0.lean ====
import proofs.«412725_j14448269984048_2_alg».proof.Proof.KI_R0
import proofs.«412725_j14448269984048_2_alg».proof.Proof.KI_Layer

noncomputable section

namespace Cert.KernelIdeal.Val0

open Cert.KernelIdeal Cert.KernelIdeal.Gen Cert.KernelIdeal.Layer
open Idealize.ShloMosaic Idealize.ShloMosaic.TcCoe Idealize.ShloMosaic.ValueIdx Idealize.SL.Sem
open Idealize.ShloMosaic.Pipeline (Dat)

theorem pay5_mat (x : Vec Ideal S2000x128 .f32) : Bridge.mat (k0_pay5 x) = Spec.l2n (Bridge.mat x) :=
  funext fun p => funext fun k =>
    unit_rows_eq (by decide) x reduces_S2000x128_S2000 _ _ shapeCasts_S2000_S2000x1 broadcasts_S2000x1_S2000x128 _ (fun _ _ => rfl) p k

theorem pay6_mat (x : Vec Ideal S512x128 .f32) : Bridge.mat (k0_pay6 x) = Spec.l2n (Bridge.mat x) :=
  funext fun u => funext fun k =>
    unit_rows_eq (by decide) x reduces_S512x128_S512 _ _ shapeCasts_S512_S512x1 broadcasts_S512x1_S512x128 _ (fun _ _ => rfl) u k

theorem pay7_eq (x : Vec Ideal S2000x512 .f32) : k0_pay7 x = x := shapeCast_self x _
theorem pay8_eq (x : Vec Ideal S128x128 .f32) : k0_pay8 x = x := shapeCast_self x _
theorem pay9_eq (x : Vec Ideal S128x128 .f32) : k0_pay9 x = x := shapeCast_self x _
theorem pay10_eq (x : Vec Ideal S128x128 .f32) : k0_pay10 x = x := shapeCast_self x _
theorem pay11_eq (x : Vec Ideal S128x128 .f32) : k0_pay11 x = x := shapeCast_self x _

theorem pay4_apply (i : S512x128.Idx) : (k0_pay4 (F := Ideal)) i = 0 := by
  unfold k0_pay4
  simp only [shapeCast_self, broadcast_apply]
  exact Ideal.ofBits_zero_f32

theorem pay1_apply (v23 : FVec Ideal S2000x128 .bf16) (v25 : FVec Ideal S2000x512 .bf16) (v28 : FVec Ideal S128x128 .bf16)
    (v46 : Vec Ideal S512x128 .f32) (u : Fin 512) (j : Fin 128) :
    k0_pay1 v23 v25 v28 v46 (ix2 u j)
      = v46 (ix2 u j) + ∑ p : Fin 2000, v25 (ix2 p u) * ∑ k : Fin 128, v23 (ix2 p k) * v28 (ix2 k j) := by
  unfold k0_pay1
  simp only [shapeCast_self, addf_apply, mmT_apply, truncf_apply, mmA_apply]

theorem pay2_mat (v23 : FVec Ideal S2000x128 .bf16) (v24 : FVec Ideal S512x128 .bf16) (v25 : FVec Ideal S2000x512 .bf16)
    (v31 v34 : FVec Ideal S128x128 .bf16) (v38 : Vec Ideal S1x128 .f32) (p : Fin 2000) (q : Fin 128) :
    k0_pay2 v23 v24 v25 v31 v34 v38 (ix2 p q)
      = Spec.denseData true (Bridge.mat v25) (Bridge.mat v23) (Bridge.mat v24) (Bridge.mat v31) (Bridge.mat v34) (Bridge.row1 v38) p q := by
  unfold k0_pay2
  refine unit_rows_eq (by decide) _ _ _ _ _ _ _ (fun r k => ?_) p q
  rw [maximumf_apply, broadcast_apply, addf_apply, addf_apply, mmA_apply, mmC_apply, broadcastTo_1b_ab_apply]
  simp only [shapeCast_self, truncf_apply, mmB_apply]
  rw [Ideal.ofBits_def, Ideal.ofBits_zero_f32]
  rfl

theorem pay3_mat (v24 : FVec Ideal S512x128 .bf16) (v37 : FVec Ideal S128x128 .bf16) (v40 : Vec Ideal S1x128 .f32) (v72 : Vec Ideal S512x128 .f32)
    (u : Fin 512) (j : Fin 128) :
    k0_pay3 v24 v37 v40 v72 (ix2 u j)
      = Spec.l2n (Spec.actf true fun t j => Spec.mm (Bridge.mat v24) (Bridge.mat v37) t j + Bridge.mat v72 t j + Bridge.row1 v40 j) u j := by
  unfold k0_pay3
  refine unit_rows_eq (by decide) _ _ _ _ _ _ _ (fun r k => ?_) u j
  rw [maximumf_apply, broadcast_apply, addf_apply, addf_apply, mmB_apply, broadcastTo_1b_ab_apply, shapeCast_self, Ideal.ofBits_def,
    Ideal.ofBits_zero_f32]
  rfl

variable (V : (c : Dev nD) → (b : Ref sig .tc) → Buf (Elt Ideal) ((c : Thread nD τ).loc b))

theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_9.index t (0 : Fin 2) = t.val ∧ win0_9.index t (1 : Fin 2) = 0) :=
  (by decide +kernel : ∀ t : Fin grid0.N, _)

theorem idx_whole : ∀ (t : Fin cfg0.N) (a : Fin 2),
    win0_2.index t a = 0 ∧ win0_3.index t a = 0 ∧ win0_4.index t a = 0 ∧ win0_5.index t a = 0 ∧ win0_6.index t a = 0
    ∧ win0_7.index t a = 0 ∧ win0_8.index t a = 0 ∧ win0_10.index t a = 0 :=
  (by decide +kernel : ∀ t : Fin grid0.N, _)

theorem b0_apply (c : Dev nD) (t : Fin cfg0.N) (p : Fin 2000) (k : Fin 128) (r : Fin 100000) (hr : r.val = 2000 * t.val + p.val) :
    Bridge.mat (R0.b0 V c t) p k = Bridge.mat (V c main_arg0) r k :=
  congrArg (V c main_arg0 : S100000x128.Idx → EReal)
    (emb_rows (a := 2000) ((cfg0.win 0).blk t).view.emb (win0_0.index t) t.val (idx_rows t).1 (fun _ => ⟨rfl, rfl⟩) p k r hr)

theorem b1_apply (c : Dev nD) (t : Fin cfg0.N) (p : Fin 2000) (u : Fin 512) (r : Fin 100000) (hr : r.val = 2000 * t.val + p.val) :
    Bridge.mat (R0.b1 V c t) p u = Bridge.mat (V c main_v6) r u :=
  congrArg (V c main_v6 : S100000x512.Idx → EReal)
    (emb_rows (a := 2000) ((cfg0.win 1).blk t).view.emb (win0_1.index t) t.val (idx_rows t).2.1 (fun _ => ⟨rfl, rfl⟩) p u r hr)

theorem b2_eq (c : Dev nD) (t : Fin cfg0.N) : (R0.b2 V c t : S512x128.Idx → EReal) = V c main_arg1 :=
  read_whole (V c main_arg1) ((cfg0.win 2).blk t).view.emb (win0_2.index t) (fun a => (idx_whole t a).1) fun _ => ⟨rfl, rfl⟩

theorem b3_eq (c : Dev nD) (t : Fin cfg0.N) : (R0.b3 V c t : S128x128.Idx → EReal) = V c main_v8 :=
  read_whole (V c main_v8) ((cfg0.win 3).blk t).view.emb (win0_3.index t) (fun a => (idx_whole t a).2.1) fun _ => ⟨rfl, rfl⟩

theorem b4_eq (c : Dev nD) (t : Fin cfg0.N) : (R0.b4 V c t : S128x128.Idx → EReal) = V c main_v10 :=
  read_whole (V c main_v10) ((cfg0.win 4).blk t).view.emb (win0_4.index t) (fun a => (idx_whole t a).2.2.1) fun _ => ⟨rfl, rfl⟩

theorem b5_eq (c : Dev nD) (t : Fin cfg0.N) : (R0.b5 V c t : S128x128.Idx → EReal) = V c main_v12 :=
  read_whole (V c main_v12) ((cfg0.win 5).blk t).view.emb (win0_5.index t) (fun a => (idx_whole t a).2.2.2.1) fun _ => ⟨rfl, rfl⟩

theorem b6_eq (c : Dev nD) (t : Fin cfg0.N) : (R0.b6 V c t : S128x128.Idx → EReal) = V c main_v14 :=
  read_whole (V c main_v14) ((cfg0.win 6).blk t).view.emb (win0_6.index t) (fun a => (idx_whole t a).2.2.2.2.1) fun _ => ⟨rfl, rfl⟩

theorem b7_eq (c : Dev nD) (t : Fin cfg0.N) : (R0.b7 V c t : S1x128.Idx → EReal) = V c main_v19 :=
  read_whole (V c main_v19) ((cfg0.win 7).blk t).view.emb (win0_7.index t) (fun a => (idx_whole t a).2.2.2.2.2.1) fun _ => ⟨rfl, rfl⟩

theorem b8_eq (c : Dev nD) (t : Fin cfg0.N) : (R0.b8 V c t : S1x128.Idx → EReal) = V c main_v20 :=
  read_whole (V c main_v20) ((cfg0.win 8).blk t).view.emb (win0_8.index t) (fun a => (idx_whole t a).2.2.2.2.2.2.1) fun _ => ⟨rfl, rfl⟩

def newData (c : Dev nD) : S100000x128.Idx → EReal := fun i =>
  Spec.denseData true (Bridge.mat (V c main_v6))
    (Spec.l2n (Bridge.mat (V c main_arg0))) (Spec.l2n (Bridge.mat (V c main_arg1)))
    (Bridge.mat (V c main_v10)) (Bridge.mat (V c main_v12))
    (Bridge.row1 (V c main_v19)) (i 0) (i 1)

theorem flushed9_eq (c : Dev nD) (t : Fin cfg0.N) :
    (R0.dat (F := Ideal) V c).flushed 9 t = ((cfg0.win 9).blk t).view.read (Elt Ideal) (newData V c) := by
  show (cfg0.win 9).cut (grid0.coords t) ((R0.dat (F := Ideal) V c).after 9 t) = _
  rw [R0.after_9]
  funext y
  obtain ⟨p, q, rfl⟩ : ∃ (p : Fin 2000) (q : Fin 128), y = ix2 p q := ⟨y 0, y 1, eq_ix2 y⟩
  show k0_pay2 (k0_pay5 (R0.b0 V c t)) (k0_pay6 (R0.b2 V c t)) (k0_pay7 (R0.b1 V c t)) (k0_pay9 (R0.b4 V c t)) (k0_pay10 (R0.b5 V c t)) (R0.b7 V c t) (ix2 p q)
    = newData V c (((cfg0.win 9).blk t).view.emb (ix2 p q))
  rw [emb_rows (a := 2000) ((cfg0.win 9).blk t).view.emb (win0_9.index t) t.val (idx_rows t).2.2 (fun _ => ⟨rfl, rfl⟩) p q (row N_0 t p) rfl,
    pay2_mat, pay7_eq, pay9_eq, pay10_eq, pay5_mat, pay6_mat, b2_eq, b4_eq, b5_eq, b7_eq]
  exact denseData_row true _ _ _ _ _ _ _ _ (row N_0 t p) p (fun u => b1_apply V c t p u _ rfl)
    (fun k => l2n_row _ _ (row N_0 t p) p (fun k' => b0_apply V c t p k' _ rfl) k) q

theorem cover9 (i : S100000x128.Idx) : ∃ t : Fin cfg0.N, (cfg0.win 9).flush t = true ∧ i ∈ ((cfg0.win 9).blk t).view.set := by
  obtain ⟨t, ht⟩ := cover_rows N_0 i (fun t => win0_9.index t) S2000x128.size (fun t => (idx_rows t).2.2) rfl rfl
  refine ⟨t, flush0_9 t, ?_⟩
  show i ∈ ((View.whole main_v21_0).slice (win0_9.rect t)).set
  rw [View.set_slice_whole, Rect.mem_set_unit]
  exact ht

theorem data_rows (c : Dev nD) :
    Bridge.mat ((R0.dat (F := Ideal) V c).arrAt 9 cfg0.N : S100000x128.Idx → EReal)
      = Spec.denseData true (Bridge.mat (V c main_v6)) (Spec.l2n (Bridge.mat (V c main_arg0))) (Spec.l2n (Bridge.mat (V c main_arg1)))
          (Bridge.mat (V c main_v10)) (Bridge.mat (V c main_v12)) (Bridge.row1 (V c main_v19)) := by
  rw [(R0.dat V c).arrAt_eq_of_cover 9 (newData V c) (fun t _ => flushed9_eq V c t) cover9]
  rfl

theorem step_apply (c : Dev nD) (t : Fin cfg0.N) (a : Vec Ideal S512x128 .f32) (u : Fin 512) (j : Fin 128) :
    k0_pay1 (k0_pay5 (R0.b0 V c t)) (k0_pay7 (R0.b1 V c t)) (k0_pay8 (R0.b3 V c t)) a (ix2 u j)
      = a (ix2 u j) + ∑ p : Fin 2000, Bridge.mat (V c main_v6) (row N_0 t p) u
          * Spec.mm (Spec.l2n (Bridge.mat (V c main_arg0))) (Bridge.mat (V c main_v8)) (row N_0 t p) j := by
  rw [pay1_apply, pay7_eq, pay8_eq]
  refine congrArg (a (ix2 u j) + ·) (Finset.sum_congr rfl fun p _ => congrArg₂ (· * ·) (b1_apply V c t p u _ rfl) ?_)
  unfold Spec.mm
  refine Finset.sum_congr rfl fun k _ => congrArg₂ (· * ·) ?_ (congrFun (b3_eq V c t) (ix2 k j))
  exact (congrFun (congrFun (pay5_mat _) p) k).trans (l2n_row _ _ (row N_0 t p) p (fun k' => b0_apply V c t p k' _ rfl) k)

theorem acc_last (c : Dev nD) (u : Fin 512) (j : Fin 128) (n : ℕ) (h : n < cfg0.N) (hn : n = 49) :
    R0.acc V c n h (ix2 u j)
      = ∑ r : Fin 100000, Bridge.mat (V c main_v6) r u
          * Spec.mm (Spec.l2n (Bridge.mat (V c main_arg0))) (Bridge.mat (V c main_v8)) r j := by
  subst hn
  exact acc_total N_0 (R0.acc V c) (ix2 u j) _ (fun h => by rw [R0.acc, step_apply, pay4_apply, zero_add])
    (fun n h => by rw [R0.acc, step_apply]) h

def newTask (c : Dev nD) : S512x128.Idx → EReal := fun i =>
  Spec.denseTask true (Bridge.mat (V c main_v6))
    (Spec.l2n (Bridge.mat (V c main_arg0))) (Spec.l2n (Bridge.mat (V c main_arg1)))
    (Bridge.mat (V c main_v14)) (Bridge.mat (V c main_v8))
    (Bridge.row1 (V c main_v20)) (i 0) (i 1)

theorem flushed10_eq (c : Dev nD) (t : Fin cfg0.N) (hf : (cfg0.win 10).flush t = true) :
    (R0.dat (F := Ideal) V c).flushed 10 t = ((cfg0.win 10).blk t).view.read (Elt Ideal) (newTask V c) := by
  have hN : cfg0.N = 50 := N_0
  have ht : t.val = 49 := by have := (flush0_10 t).mp hf; have := t.isLt; omega
  show (cfg0.win 10).cut (grid0.coords t) ((R0.dat (F := Ideal) V c).after 10 t) = _
  rw [R0.after_10 V c t ht]
  funext i
  obtain ⟨u, j, rfl⟩ : ∃ (u : Fin 512) (j : Fin 128), i = ix2 u j := ⟨i 0, i 1, eq_ix2 i⟩
  show k0_pay3 (k0_pay6 (R0.b2 V c t)) (k0_pay11 (R0.b6 V c t)) (R0.b8 V c t) (R0.acc V c t.val t.isLt) (ix2 u j)
    = newTask V c (((cfg0.win 10).blk t).view.emb (ix2 u j))
  rw [emb_whole ((cfg0.win 10).blk t).view.emb (win0_10.index t) (fun a => (idx_whole t a).2.2.2.2.2.2.2) (fun _ => ⟨rfl, rfl⟩),
    pay3_mat, pay11_eq, pay6_mat, b2_eq, b6_eq, b8_eq]
  refine congrArg (fun x => Spec.l2n (Spec.actf true x) u j) (funext fun r => funext fun k => ?_)
  exact congrArg (fun a => _ + a + _) (acc_last V c r k t.val t.isLt ht)

theorem cover10 (i : S512x128.Idx) : ∃ t : Fin cfg0.N, (cfg0.win 10).flush t = true ∧ i ∈ ((cfg0.win 10).blk t).view.set := by
  have hN : cfg0.N = 50 := N_0
  let t : Fin cfg0.N := ⟨49, by omega⟩
  refine ⟨t, (flush0_10 t).mpr rfl, ?_⟩
  show i ∈ ((View.whole main_v21_1).slice (win0_10.rect t)).set
  rw [View.set_slice_whole, Rect.mem_set_unit]
  exact cover_whole i (win0_10.index t) S512x128.size (fun a => (idx_whole t a).2.2.2.2.2.2.2) rfl rfl

theorem task_rows (c : Dev nD) :
    Bridge.mat ((R0.dat (F := Ideal) V c).arrAt 10 cfg0.N : S512x128.Idx → EReal)
      = Spec.denseTask true (Bridge.mat (V c main_v6)) (Spec.l2n (Bridge.mat (V c main_arg0))) (Spec.l2n (Bridge.mat (V c main_arg1)))
          (Bridge.mat (V c main_v14)) (Bridge.mat (V c main_v8)) (Bridge.row1 (V c main_v20)) := by
  rw [(R0.dat V c).arrAt_eq_of_cover 10 (newTask V c) (fun t ht => flushed10_eq V c t ht) cover10]
  rfl

end Cert.KernelIdeal.Val0

end
-- ==== Proof.KI_Val1.lean ====
import proofs.«412725_j14448269984048_2_alg».proof.Proof.KI_R1
import proofs.«412725_j14448269984048_2_alg».proof.Proof.KI_Layer

noncomputable section

namespace Cert.KernelIdeal.Val1

open Cert.KernelIdeal Cert.KernelIdeal.Gen Cert.KernelIdeal.Layer
open Idealize.ShloMosaic Idealize.ShloMosaic.TcCoe Idealize.ShloMosaic.ValueIdx Idealize.SL.Sem
open Idealize.ShloMosaic.Pipeline (Dat)

theorem pay5_eq (x : Vec Ideal S2000x128 .f32) : k1_pay5 x = x := shapeCast_self x _
theorem pay6_eq (x : Vec Ideal S512x128 .f32) : k1_pay6 x = x := shapeCast_self x _
theorem pay7_eq (x : Vec Ideal S2000x512 .f32) : k1_pay7 x = x := shapeCast_self x _
theorem pay8_eq (x : Vec Ideal S128x128 .f32) : k1_pay8 x = x := shapeCast_self x _
theorem pay9_eq (x : Vec Ideal S128x128 .f32) : k1_pay9 x = x := shapeCast_self x _
theorem pay10_eq (x : Vec Ideal S1x128 .f32) : k1_pay10 x = x := shapeCast_self x _
theorem pay11_eq (x : Vec Ideal S1x128 .f32) : k1_pay11 x = x := shapeCast_self x _

theorem pay12_apply (xt : Vec Ideal S512x128 .f32) (W : Vec Ideal S128x128 .f32) (u : Fin 512) (q : Fin 128) :
    k1_pay12 xt W (ix2 u q) = Spec.mm (Bridge.mat xt) (Bridge.mat W) u q := by
  unfold k1_pay12
  refine (mmB_apply _ _ u q).trans ?_
  rw [pay6_eq, shapeCast_self]
  rfl

theorem pay13_apply (x0 : Vec Ideal S2000x128 .f32) (s1 : Vec Ideal S2000x512 .f32) (W : Vec Ideal S128x128 .f32) (u : Fin 512) (j : Fin 128) :
    k1_pay13 x0 s1 W (ix2 u j) = ∑ p : Fin 2000, Bridge.mat s1 p u * Spec.mm (Bridge.mat x0) (Bridge.mat W) p j := by
  unfold k1_pay13
  refine (mmT_apply _ _ u j).trans (Finset.sum_congr rfl fun p _ => ?_)
  rw [pay7_eq]
  refine congrArg (s1 (ix2 p u) * ·) ((mmA_apply _ _ p j).trans ?_)
  rw [pay5_eq, shapeCast_self]
  rfl

theorem pay1_apply (cn : FVec Ideal S512x128 .f32) (A : Vec Ideal S512x128 .f32) (i : S512x128.Idx) :
    k1_pay1 cn A i = A i + cn i := by
  unfold k1_pay1; rw [shapeCast_self]; rfl

theorem pay4_apply (i : S512x128.Idx) : (k1_pay4 (F := Ideal)) i = 0 := by
  unfold k1_pay4; rw [shapeCast_self]
  exact Ideal.ofBits_zero_f32

theorem pay2_eq (x0 : Vec Ideal S2000x128 .f32) (s1 : Vec Ideal S2000x512 .f32) (Wsd : Vec Ideal S128x128 .f32) (bd : Vec Ideal S1x128 .f32)
    (xt : Vec Ideal S512x128 .f32) (Wmt : Vec Ideal S128x128 .f32) (p : Fin 2000) (q : Fin 128) :
    k1_pay2 (k1_pay5 x0) (k1_pay7 s1) (k1_pay8 Wsd) (k1_pay10 bd) (k1_pay12 xt Wmt) (ix2 p q)
      = Spec.denseData false (Bridge.mat s1) (Bridge.mat x0) (Bridge.mat xt) (Bridge.mat Wsd) (Bridge.mat Wmt) (Bridge.row1 bd) p q := by
  unfold k1_pay2
  refine unit_rows_eq (by decide) _ _ _ _ _ _ _ (fun r k => ?_) p q
  show matmul dot_S2000x128_S128x128_S2000x128_1_0_0_1_n_n none (k1_pay5 x0) (k1_pay8 Wsd) (constant S2000x128 .f32 0x00000000#32) (ix2 r k)
      + matmul dot_S2000x512_S512x128_S2000x128_1_0_0_1_n_n none (k1_pay7 s1) (truncf .bf16 (k1_pay12 xt Wmt) bitsLt_bf16_f32) (constant S2000x128 .f32 0x00000000#32) (ix2 r k)
      + broadcastTo S2000x128 (k1_pay10 bd) broadcasts_S1x128_S2000x128 (ix2 r k) = _
  rw [mmA_apply, mmC_apply, broadcastTo_1b_ab_apply, pay5_eq, pay7_eq, pay8_eq, pay10_eq]
  refine congrArg₂ (· + ·) (congrArg₂ (· + ·) rfl (Finset.sum_congr rfl fun u _ => ?_)) rfl
  exact congrArg (s1 (ix2 r u) * ·) (pay12_apply xt Wmt u k)

theorem pay3_eq (xt : Vec Ideal S512x128 .f32) (Wst : Vec Ideal S128x128 .f32) (bt : Vec Ideal S1x128 .f32) (A : Vec Ideal S512x128 .f32)
    (u : Fin 512) (j : Fin 128) :
    k1_pay3 (k1_pay6 xt) (k1_pay9 Wst) (k1_pay11 bt) A (ix2 u j)
      = Spec.l2n (fun t k => Spec.mm (Bridge.mat xt) (Bridge.mat Wst) t k + Bridge.mat A t k + Bridge.row1 bt k) u j := by
  unfold k1_pay3
  refine unit_rows_eq (by decide) _ _ _ _ _ _ _ (fun r k => ?_) u j
  show matmul dot_S512x128_S128x128_S512x128_1_0_0_1_n_n none (k1_pay6 xt) (k1_pay9 Wst) (constant S512x128 .f32 0x00000000#32) (ix2 r k)
      + A (ix2 r k) + broadcastTo S512x128 (k1_pay11 bt) broadcasts_S1x128_S512x128 (ix2 r k) = _
  rw [mmB_apply, broadcastTo_1b_ab_apply, pay6_eq, pay9_eq, pay11_eq]
  rfl

variable (V : (c : Dev nD) → (b : Ref sig .tc) → Buf (Elt Ideal) ((c : Thread nD τ).loc b))

theorem idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_9.index t (0 : Fin 2) = t.val ∧ win1_9.index t (1 : Fin 2) = 0) :=
  (by decide +kernel : ∀ t : Fin grid1.N, _)

theorem idx_whole : ∀ (t : Fin cfg1.N) (a : Fin 2),
    win1_2.index t a = 0 ∧ win1_3.index t a = 0 ∧ win1_4.index t a = 0 ∧ win1_5.index t a = 0 ∧ win1_6.index t a = 0
    ∧ win1_7.index t a = 0 ∧ win1_8.index t a = 0 ∧ win1_10.index t a = 0 :=
  (by decide +kernel : ∀ t : Fin grid1.N, _)

theorem b0_apply (c : Dev nD) (t : Fin cfg1.N) (p : Fin 2000) (k : Fin 128) (r : Fin 100000) (hr : r.val = 2000 * t.val + p.val) :
    Bridge.mat (R1.b0 V c t) p k = Bridge.mat (V c main_v21_0) r k :=
  congrArg (V c main_v21_0 : S100000x128.Idx → EReal)
    (emb_rows (a := 2000) ((cfg1.win 0).blk t).view.emb (win1_0.index t) t.val (idx_rows t).1 (fun _ => ⟨rfl, rfl⟩) p k r hr)

theorem b1_apply (c : Dev nD) (t : Fin cfg1.N) (p : Fin 2000) (u : Fin 512) (r : Fin 100000) (hr : r.val = 2000 * t.val + p.val) :
    Bridge.mat (R1.b1 V c t) p u = Bridge.mat (V c main_v6) r u :=
  congrArg (V c main_v6 : S100000x512.Idx → EReal)
    (emb_rows (a := 2000) ((cfg1.win 1).blk t).view.emb (win1_1.index t) t.val (idx_rows t).2.1 (fun _ => ⟨rfl, rfl⟩) p u r hr)

theorem b2_eq (c : Dev nD) (t : Fin cfg1.N) : (R1.b2 V c t : S512x128.Idx → EReal) = V c main_v21_1 :=
  read_whole (V c main_v21_1) ((cfg1.win 2).blk t).view.emb (win1_2.index t) (fun a => (idx_whole t a).1) fun _ => ⟨rfl, rfl⟩

theorem b3_eq (c : Dev nD) (t : Fin cfg1.N) : (R1.b3 V c t : S128x128.Idx → EReal) = V c main_v23 :=
  read_whole (V c main_v23) ((cfg1.win 3).blk t).view.emb (win1_3.index t) (fun a => (idx_whole t a).2.1) fun _ => ⟨rfl, rfl⟩

theorem b4_eq (c : Dev nD) (t : Fin cfg1.N) : (R1.b4 V c t : S128x128.Idx → EReal) = V c main_v25 :=
  read_whole (V c main_v25) ((cfg1.win 4).blk t).view.emb (win1_4.index t) (fun a => (idx_whole t a).2.2.1) fun _ => ⟨rfl, rfl⟩

theorem b5_eq (c : Dev nD) (t : Fin cfg1.N) : (R1.b5 V c t : S128x128.Idx → EReal) = V c main_v27 :=
  read_whole (V c main_v27) ((cfg1.win 5).blk t).view.emb (win1_5.index t) (fun a => (idx_whole t a).2.2.2.1) fun _ => ⟨rfl, rfl⟩

theorem b6_eq (c : Dev nD) (t : Fin cfg1.N) : (R1.b6 V c t : S128x128.Idx → EReal) = V c main_v29 :=
  read_whole (V c main_v29) ((cfg1.win 6).blk t).view.emb (win1_6.index t) (fun a => (idx_whole t a).2.2.2.2.1) fun _ => ⟨rfl, rfl⟩

theorem b7_eq (c : Dev nD) (t : Fin cfg1.N) : (R1.b7 V c t : S1x128.Idx → EReal) = V c main_v34 :=
  read_whole (V c main_v34) ((cfg1.win 7).blk t).view.emb (win1_7.index t) (fun a => (idx_whole t a).2.2.2.2.2.1) fun _ => ⟨rfl, rfl⟩

theorem b8_eq (c : Dev nD) (t : Fin cfg1.N) : (R1.b8 V c t : S1x128.Idx → EReal) = V c main_v35 :=
  read_whole (V c main_v35) ((cfg1.win 8).blk t).view.emb (win1_8.index t) (fun a => (idx_whole t a).2.2.2.2.2.2.1) fun _ => ⟨rfl, rfl⟩

def newData (c : Dev nD) : S100000x128.Idx → EReal := fun i =>
  Spec.denseData false (Bridge.mat (V c main_v6)) (Bridge.mat (V c main_v21_0))
    (Bridge.mat (V c main_v21_1)) (Bridge.mat (V c main_v25))
    (Bridge.mat (V c main_v27)) (Bridge.row1 (V c main_v34)) (i 0) (i 1)

theorem flushed9_eq (c : Dev nD) (t : Fin cfg1.N) :
    (R1.dat (F := Ideal) V c).flushed 9 t = ((cfg1.win 9).blk t).view.read (Elt Ideal) (newData V c) := by
  show (cfg1.win 9).cut (grid1.coords t) ((R1.dat (F := Ideal) V c).after 9 t) = _
  rw [R1.after_9]
  funext y
  obtain ⟨p, q, rfl⟩ : ∃ (p : Fin 2000) (q : Fin 128), y = ix2 p q := ⟨y 0, y 1, eq_ix2 y⟩
  show k1_pay2 (k1_pay5 (R1.b0 V c t)) (k1_pay7 (R1.b1 V c t)) (k1_pay8 (R1.b4 V c t)) (k1_pay10 (R1.b7 V c t)) (k1_pay12 (R1.b2 V c t) (R1.b5 V c t)) (ix2 p q)
      = newData V c (((cfg1.win 9).blk t).view.emb (ix2 p q))
  rw [emb_rows (a := 2000) ((cfg1.win 9).blk t).view.emb (win1_9.index t) t.val (idx_rows t).2.2 (fun _ => ⟨rfl, rfl⟩) p q (row N_1 t p) rfl,
    pay2_eq, b2_eq, b4_eq, b5_eq, b7_eq]
  exact denseData_row false _ _ _ _ _ _ _ _ (row N_1 t p) p (fun u => b1_apply V c t p u _ rfl) (fun k => b0_apply V c t p k _ rfl) q

theorem cover9 (i : S100000x128.Idx) : ∃ t : Fin cfg1.N, (cfg1.win 9).flush t = true ∧ i ∈ ((cfg1.win 9).blk t).view.set := by
  obtain ⟨t, ht⟩ := cover_rows N_1 i (fun t => win1_9.index t) S2000x128.size (fun t => (idx_rows t).2.2) rfl rfl
  refine ⟨t, flush1_9 t, ?_⟩
  show i ∈ ((View.whole main_v36_0).slice (win1_9.rect t)).set
  rw [View.set_slice_whole, Rect.mem_set_unit]
  exact ht

theorem data_rows (c : Dev nD) :
    Bridge.mat ((R1.dat (F := Ideal) V c).arrAt 9 cfg1.N : S100000x128.Idx → EReal)
      = Spec.denseData false (Bridge.mat (V c main_v6)) (Bridge.mat (V c main_v21_0))
          (Bridge.mat (V c main_v21_1)) (Bridge.mat (V c main_v25))
          (Bridge.mat (V c main_v27)) (Bridge.row1 (V c main_v34)) := by
  rw [(R1.dat (F := Ideal) V c).arrAt_eq_of_cover 9 (newData V c) (fun t _ => flushed9_eq V c t) cover9]
  rfl

theorem step_apply (c : Dev nD) (t : Fin cfg1.N) (a : Vec Ideal S512x128 .f32) (u : Fin 512) (j : Fin 128) :
    k1_pay1 (k1_pay13 (R1.b0 V c t) (R1.b1 V c t) (R1.b3 V c t)) a (ix2 u j)
      = a (ix2 u j) + ∑ p : Fin 2000, Bridge.mat (V c main_v6) (row N_1 t p) u
          * Spec.mm (Bridge.mat (V c main_v21_0)) (Bridge.mat (V c main_v23)) (row N_1 t p) j := by
  rw [pay1_apply, pay13_apply, b3_eq]
  refine congrArg (a (ix2 u j) + ·) (Finset.sum_congr rfl fun p _ => congrArg₂ (· * ·) (b1_apply V c t p u _ rfl) ?_)
  unfold Spec.mm
  exact Finset.sum_congr rfl fun k _ => congrArg (· * _) (b0_apply V c t p k _ rfl)

theorem acc_last (c : Dev nD) (u : Fin 512) (j : Fin 128) (n : ℕ) (h : n < cfg1.N) (hn : n = 49) :
    R1.acc V c n h (ix2 u j)
      = ∑ r : Fin 100000, Bridge.mat (V c main_v6) r u
          * Spec.mm (Bridge.mat (V c main_v21_0)) (Bridge.mat (V c main_v23)) r j := by
  subst hn
  exact acc_total N_1 (R1.acc V c) (ix2 u j) _ (fun h => by rw [R1.acc, step_apply, pay4_apply, zero_add])
    (fun n h => by rw [R1.acc, step_apply]) h

def newTask (c : Dev nD) : S512x128.Idx → EReal := fun i =>
  Spec.denseTask false (Bridge.mat (V c main_v6)) (Bridge.mat (V c main_v21_0))
    (Bridge.mat (V c main_v21_1)) (Bridge.mat (V c main_v29))
    (Bridge.mat (V c main_v23)) (Bridge.row1 (V c main_v35)) (i 0) (i 1)

theorem flushed10_eq (c : Dev nD) (t : Fin cfg1.N) (hf : (cfg1.win 10).flush t = true) :
    (R1.dat (F := Ideal) V c).flushed 10 t = ((cfg1.win 10).blk t).view.read (Elt Ideal) (newTask V c) := by
  have hN : cfg1.N = 50 := N_1
  have ht : t.val = 49 := by have := (flush1_10 t).mp hf; have := t.isLt; omega
  show (cfg1.win 10).cut (grid1.coords t) ((R1.dat (F := Ideal) V c).after 10 t) = _
  rw [R1.after_10 V c t ht]
  funext i
  obtain ⟨u, j, rfl⟩ : ∃ (u : Fin 512) (j : Fin 128), i = ix2 u j := ⟨i 0, i 1, eq_ix2 i⟩
  show k1_pay3 (k1_pay6 (R1.b2 V c t)) (k1_pay9 (R1.b6 V c t)) (k1_pay11 (R1.b8 V c t)) (R1.acc V c t.val t.isLt) (ix2 u j)
      = newTask V c (((cfg1.win 10).blk t).view.emb (ix2 u j))
  rw [emb_whole ((cfg1.win 10).blk t).view.emb (win1_10.index t) (fun a => (idx_whole t a).2.2.2.2.2.2.2) (fun _ => ⟨rfl, rfl⟩),
    pay3_eq, b2_eq, b6_eq, b8_eq]
  refine congrArg (fun x => Spec.l2n x u j) (funext fun r => funext fun k => ?_)
  exact congrArg (fun a => _ + a + _) (acc_last V c r k t.val t.isLt ht)

theorem cover10 (i : S512x128.Idx) : ∃ t : Fin cfg1.N, (cfg1.win 10).flush t = true ∧ i ∈ ((cfg1.win 10).blk t).view.set := by
  have hN : cfg1.N = 50 := N_1
  let t : Fin cfg1.N := ⟨49, by omega⟩
  refine ⟨t, (flush1_10 t).mpr rfl, ?_⟩
  show i ∈ ((View.whole main_v36_1).slice (win1_10.rect t)).set
  rw [View.set_slice_whole, Rect.mem_set_unit]
  exact cover_whole i (win1_10.index t) S512x128.size (fun a => (idx_whole t a).2.2.2.2.2.2.2) rfl rfl

theorem task_rows (c : Dev nD) :
    Bridge.mat ((R1.dat (F := Ideal) V c).arrAt 10 cfg1.N : S512x128.Idx → EReal)
      = Spec.denseTask false (Bridge.mat (V c main_v6)) (Bridge.mat (V c main_v21_0))
          (Bridge.mat (V c main_v21_1)) (Bridge.mat (V c main_v29))
          (Bridge.mat (V c main_v23)) (Bridge.row1 (V c main_v35)) := by
  rw [(R1.dat (F := Ideal) V c).arrAt_eq_of_cover 10 (newTask V c) (fun t hf => flushed10_eq V c t hf) cover10]
  rfl

end Cert.KernelIdeal.Val1

end
-- ==== Proof.KI_Val2.lean ====
import proofs.«412725_j14448269984048_2_alg».proof.Proof.KI_R2
import proofs.«412725_j14448269984048_2_alg».proof.Proof.KI_Layer

noncomputable section

namespace Cert.KernelIdeal.Val2

open Cert.KernelIdeal Cert.KernelIdeal.Gen Cert.KernelIdeal.Layer
open Idealize.ShloMosaic Idealize.ShloMosaic.TcCoe Idealize.ShloMosaic.ValueIdx
open Idealize.SL.Sem
open Idealize.ShloMosaic.Pipeline (Dat)

theorem pay_apply (x0 : Vec Ideal S2000x128 .f32) (x1 : Vec Ideal S512x128 .f32) (p : Fin 2000) (q : Fin 512) :
    k2_pay1 (F := Ideal) x0 x1 (ix2 p q) = ∑ k : Fin 128, x0 (ix2 p k) * x1 (ix2 q k) := by
  unfold k2_pay1
  simp only [shapeCast_self]
  exact mmD_apply _ _ p q

def tableArr (xd : S100000x128.Idx → EReal) (xt : S512x128.Idx → EReal) : S100000x512.Idx → EReal :=
  fun i => Spec.table (Bridge.mat xd) (Bridge.mat xt) (i 0) (i 1)

theorem idx_rows : ∀ t : Fin cfg2.N, (win2_0.index t (0 : Fin 2) = t.val ∧ win2_0.index t (1 : Fin 2) = 0)
    ∧ (win2_2.index t (0 : Fin 2) = t.val ∧ win2_2.index t (1 : Fin 2) = 0) :=
  (by decide +kernel : ∀ t : Fin grid2.N, _)

theorem idx_whole : ∀ (t : Fin cfg2.N) (a : Fin 2), win2_1.index t a = 0 :=
  (by decide +kernel : ∀ t : Fin grid2.N, _)

variable (V : (c : Dev nD) → (b : Ref sig .tc) → Buf (Elt Ideal) ((c : Thread nD τ).loc b)) (c : Dev nD)

theorem flushed_eq (t : Fin cfg2.N) :
    (R2.dat (F := Ideal) V c).flushed 2 t
      = ((cfg2.win 2).blk t).view.read (Elt Ideal) (tableArr (V c main_v36_0) (V c main_v36_1)) := by
  show (cfg2.win 2).cut (grid2.coords t) ((R2.dat (F := Ideal) V c).after 2 t) = _
  rw [R2.after_2]
  funext y
  obtain ⟨p, q, rfl⟩ : ∃ (p : Fin 2000) (q : Fin 512), y = ix2 p q := ⟨y 0, y 1, eq_ix2 y⟩
  show k2_pay1 (F := Ideal) (R2.b0 V c t) (R2.b1 V c t) (ix2 p q)
    = tableArr (V c main_v36_0) (V c main_v36_1) (((cfg2.win 2).blk t).view.emb (ix2 p q))
  rw [emb_rows (a := 2000) ((cfg2.win 2).blk t).view.emb (win2_2.index t) t.val (idx_rows t).2 (fun _ => ⟨rfl, rfl⟩) p q (row N_2 t p) rfl,
    pay_apply]
  exact Finset.sum_congr rfl fun k _ => congrArg₂ (fun x y : EReal => x * y)
    (congrArg (V c main_v36_0 : S100000x128.Idx → EReal)
      (emb_rows (a := 2000) ((cfg2.win 0).blk t).view.emb (win2_0.index t) t.val (idx_rows t).1 (fun _ => ⟨rfl, rfl⟩) p k (row N_2 t p) rfl))
    (congrArg (V c main_v36_1 : S512x128.Idx → EReal)
      (emb_whole ((cfg2.win 1).blk t).view.emb (win2_1.index t) (idx_whole t) (fun _ => ⟨rfl, rfl⟩) (ix2 q k)))

theorem cover (i : S100000x512.Idx) : ∃ t : Fin cfg2.N, (cfg2.win 2).flush t = true ∧ i ∈ ((cfg2.win 2).blk t).view.set := by
  obtain ⟨t, ht⟩ := cover_rows N_2 i (fun t => win2_2.index t) S2000x512.size (fun t => (idx_rows t).2) rfl rfl
  refine ⟨t, flush2_2 t, ?_⟩
  show i ∈ ((View.whole main_v37).slice (win2_2.rect t)).set
  rw [View.set_slice_whole, Rect.mem_set_unit]
  exact ht

theorem table_eq :
    Bridge.mat ((R2.dat (F := Ideal) V c).arrAt 2 cfg2.N : S100000x512.Idx → EReal)
      = Spec.table (Bridge.mat (V c main_v36_0)) (Bridge.mat (V c main_v36_1)) := by
  rw [(R2.dat (F := Ideal) V c).arrAt_eq_of_cover 2 (tableArr (V c main_v36_0) (V c main_v36_1)) (fun t _ => flushed_eq V c t) cover]
  rfl

end Cert.KernelIdeal.Val2

end
-- ==== Proof.KI_Value.lean ====
import proofs.«412725_j14448269984048_2_alg».proof.Proof.KI_RunAll
import proofs.«412725_j14448269984048_2_alg».proof.Proof.KI_Host
import proofs.«412725_j14448269984048_2_alg».proof.Proof.KI_Val0
import proofs.«412725_j14448269984048_2_alg».proof.Proof.KI_Val1
import proofs.«412725_j14448269984048_2_alg».proof.Proof.KI_Val2
import proofs.«412725_j14448269984048_2_alg».proof.Proof.Bridge

noncomputable section

namespace Cert.KernelIdeal.Value

open Cert Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

abbrev a0 : S100000x128.Idx → EReal := m ((c : Thread nD τ).loc main_arg0)
abbrev a1 : S512x128.Idx → EReal := m ((c : Thread nD τ).loc main_arg1)
abbrev a2 : S500000.Idx → EReal := m ((c : Thread nD τ).loc main_arg2)
abbrev a3 : S2x128x128.Idx → EReal := m ((c : Thread nD τ).loc main_arg3)
abbrev a4 : S2x128x128.Idx → EReal := m ((c : Thread nD τ).loc main_arg4)
abbrev a5 : S2x128x128.Idx → EReal := m ((c : Thread nD τ).loc main_arg5)
abbrev a6 : S2x128x128.Idx → EReal := m ((c : Thread nD τ).loc main_arg6)
abbrev a7 : S2x128.Idx → EReal := m ((c : Thread nD τ).loc main_arg7)
abbrev a8 : S2x128.Idx → EReal := m ((c : Thread nD τ).loc main_arg8)
abbrev a9 : IVec S500000 32 := m ((c : Thread nD τ).loc main_arg9)
abbrev a10 : IVec S500000 32 := m ((c : Thread nD τ).loc main_arg10)
abbrev a11 : IVec S2x500000 32 := m ((c : Thread nD τ).loc main_arg11)

section Kept
open RunAll

theorem W1_arg (r : Ref sig .tc) (h : r ∉ hostOps0_W) : RunAll.W1 m c (Proc.devRef .tc r) = m ((c : Thread nD τ).loc r) :=
  (RunAll.W1_of m c r h).trans rfl

theorem W2_arg (r : Ref sig .tc) (h0 : r ∉ hostOps0_W) (h1 : r ∉ ([main_v21_0, main_v21_1] : List (Ref sig .tc))) :
    RunAll.W2 m c (Proc.devRef .tc r) = m ((c : Thread nD τ).loc r) :=
  (RunAll.W2_of m c r h1).trans (W1_arg m c r h0)

theorem W5_arg (r : Ref sig .tc) (h0 : r ∉ hostOps0_W) (h1 : r ∉ ([main_v21_0, main_v21_1] : List (Ref sig .tc))) (h2 : r ∉ hostOps1_W)
    (h3 : r ∉ ([main_v36_0, main_v36_1] : List (Ref sig .tc))) (h4 : r ∉ ([main_v37] : List (Ref sig .tc))) :
    RunAll.W5 m c (Proc.devRef .tc r) = m ((c : Thread nD τ).loc r) :=
  (RunAll.W5_of m c r h4).trans ((RunAll.W4_of m c r h3).trans ((RunAll.W3_of m c r h2).trans (W2_arg m c r h0 h1)))

theorem V1_a0 : (RunAll.V1 m c main_arg0 : S100000x128.Idx → EReal) = a0 m c := W1_arg m c main_arg0 (by decide)
theorem V1_a1 : (RunAll.V1 m c main_arg1 : S512x128.Idx → EReal) = a1 m c := W1_arg m c main_arg1 (by decide)
theorem V3_S : (RunAll.V3 m c main_v6 : S100000x512.Idx → EReal) = RunAll.W1 m c main_v6 :=
  (RunAll.W3_of m c main_v6 (by decide)).trans (RunAll.W2_of m c main_v6 (by decide))
theorem V3_D : (RunAll.V3 m c main_v21_0 : S100000x128.Idx → EReal) = RunAll.W2 m c main_v21_0 := RunAll.W3_of m c main_v21_0 (by decide)
theorem V3_T : (RunAll.V3 m c main_v21_1 : S512x128.Idx → EReal) = RunAll.W2 m c main_v21_1 := RunAll.W3_of m c main_v21_1 (by decide)

end Kept

abbrev Sd : Fin 100000 → Fin 512 → EReal :=
  Spec.dense (Bridge.coords 100000 (a9 m c)) (Bridge.coords 512 (a10 m c)) (Bridge.vec (a2 m c))

abbrev xd0 : Fin 100000 → Fin 128 → EReal := Spec.l2n (Bridge.mat (a0 m c))
abbrev xt0 : Fin 512 → Fin 128 → EReal := Spec.l2n (Bridge.mat (a1 m c))

abbrev xd1 : Fin 100000 → Fin 128 → EReal :=
  Spec.denseData true (Sd m c) (xd0 m c) (xt0 m c) (Bridge.slab (a3 m c) 0) (Bridge.slab (a6 m c) 0) (Bridge.layerRow (a7 m c) 0)
abbrev xt1 : Fin 512 → Fin 128 → EReal :=
  Spec.denseTask true (Sd m c) (xd0 m c) (xt0 m c) (Bridge.slab (a4 m c) 0) (Bridge.slab (a5 m c) 0) (Bridge.layerRow (a8 m c) 0)

abbrev xd2 : Fin 100000 → Fin 128 → EReal :=
  Spec.denseData false (Sd m c) (xd1 m c) (xt1 m c) (Bridge.slab (a3 m c) 1) (Bridge.slab (a6 m c) 1) (Bridge.layerRow (a7 m c) 1)
abbrev xt2 : Fin 512 → Fin 128 → EReal :=
  Spec.denseTask false (Sd m c) (xd1 m c) (xt1 m c) (Bridge.slab (a4 m c) 1) (Bridge.slab (a5 m c) 1) (Bridge.layerRow (a8 m c) 1)

variable (hd : ∀ i, (a9 m c i).toNat < 100000) (ht : ∀ i, (a10 m c i).toNat < 512)

include hd ht in
theorem S_at_W1 : Bridge.mat (RunAll.W1 m c main_v6 : S100000x512.Idx → EReal) = Sd m c :=
  Host.v6_eq (RunAll.W0 m c) hd ht

include hd ht in
theorem xd1_at_W2 : Bridge.mat (RunAll.W2 m c main_v21_0 : S100000x128.Idx → EReal) = xd1 m c := by
  rw [RunAll.W2_main_v21_0 m c]
  refine (Val0.data_rows (RunAll.V1 m) c).trans ?_
  rw [S_at_W1 m c hd ht, V1_a0 m c, V1_a1 m c, Host.v10_eq (RunAll.W0 m c), Host.v12_eq (RunAll.W0 m c), Host.v19_eq (RunAll.W0 m c)]

include hd ht in
theorem xt1_at_W2 : Bridge.mat (RunAll.W2 m c main_v21_1 : S512x128.Idx → EReal) = xt1 m c := by
  rw [RunAll.W2_main_v21_1 m c]
  refine (Val0.task_rows (RunAll.V1 m) c).trans ?_
  rw [S_at_W1 m c hd ht, V1_a0 m c, V1_a1 m c, Host.v14_eq (RunAll.W0 m c), Host.v8_eq (RunAll.W0 m c), Host.v20_eq (RunAll.W0 m c)]

include hd ht in
theorem xd2_at_W4 : Bridge.mat (RunAll.W4 m c main_v36_0 : S100000x128.Idx → EReal) = xd2 m c := by
  rw [RunAll.W4_main_v36_0 m c]
  refine (Val1.data_rows (RunAll.V3 m) c).trans ?_
  have e3 : (RunAll.W2 m c main_arg3 : S2x128x128.Idx → EReal) = a3 m c := W2_arg m c main_arg3 (by decide) (by decide)
  have e6 : (RunAll.W2 m c main_arg6 : S2x128x128.Idx → EReal) = a6 m c := W2_arg m c main_arg6 (by decide) (by decide)
  have e7 : (RunAll.W2 m c main_arg7 : S2x128.Idx → EReal) = a7 m c := W2_arg m c main_arg7 (by decide) (by decide)
  rw [V3_S m c, V3_D m c, V3_T m c, S_at_W1 m c hd ht, xd1_at_W2 m c hd ht, xt1_at_W2 m c hd ht,
    Host.v25_eq (RunAll.W2 m c), Host.v27_eq (RunAll.W2 m c), Host.v34_eq (RunAll.W2 m c), e3, e6, e7]

include hd ht in
theorem xt2_at_W4 : Bridge.mat (RunAll.W4 m c main_v36_1 : S512x128.Idx → EReal) = xt2 m c := by
  rw [RunAll.W4_main_v36_1 m c]
  refine (Val1.task_rows (RunAll.V3 m) c).trans ?_
  have e4 : (RunAll.W2 m c main_arg4 : S2x128x128.Idx → EReal) = a4 m c := W2_arg m c main_arg4 (by decide) (by decide)
  have e5 : (RunAll.W2 m c main_arg5 : S2x128x128.Idx → EReal) = a5 m c := W2_arg m c main_arg5 (by decide) (by decide)
  have e8 : (RunAll.W2 m c main_arg8 : S2x128.Idx → EReal) = a8 m c := W2_arg m c main_arg8 (by decide) (by decide)
  rw [V3_S m c, V3_D m c, V3_T m c, S_at_W1 m c hd ht, xd1_at_W2 m c hd ht, xt1_at_W2 m c hd ht,
    Host.v29_eq (RunAll.W2 m c), Host.v23_eq (RunAll.W2 m c), Host.v35_eq (RunAll.W2 m c), e4, e5, e8]

include hd ht in
theorem table_at_W5 : Bridge.mat (RunAll.W5 m c main_v37 : S100000x512.Idx → EReal) = Spec.table (xd2 m c) (xt2 m c) := by
  rw [RunAll.W5_main_v37 m c]
  refine (Val2.table_eq (RunAll.V4 m) c).trans ?_
  rw [xd2_at_W4 m c hd ht, xt2_at_W4 m c hd ht]

theorem kernel_value
    (hadm : Bridge.Admissible (a0 m c) (a1 m c) (a2 m c) (a3 m c) (a4 m c) (a5 m c) (a6 m c) (a7 m c) (a8 m c) (a9 m c) (a10 m c) (a11 m c)) :
    (RunAll.W8 m c (Proc.devRef .tc main_v47) : S500000x1.Idx → EReal)
      = Bridge.denseResult (a0 m c) (a1 m c) (a2 m c) (a3 m c) (a4 m c) (a5 m c) (a6 m c) (a7 m c) (a8 m c) (a9 m c) (a10 m c) (a11 m c) := by
  have e11 : (RunAll.W5 m c main_arg11 : IVec S2x500000 32) = a11 m c :=
    W5_arg m c main_arg11 (by decide) (by decide) (by decide) (by decide) (by decide)
  rw [RunAll.W8_main_v47 m c]
  rw [Host.v47_eq (RunAll.W5 m c) (by rw [e11]; exact hadm.p0_lt) (by rw [e11]; exact hadm.p1_lt)]
  funext i
  rw [e11]
  show Bridge.mat (RunAll.W5 m c main_v37 : S100000x512.Idx → EReal) _ _ = _
  rw [table_at_W5 m c hadm.eD_lt hadm.eT_lt]
  rfl

end Cert.KernelIdeal.Value

end
-- ==== Proof.RefOps.lean ====
import Mathlib.Algebra.BigOperators.Group.Finset.Basic
import Mathlib.Algebra.BigOperators.Group.Finset.Piecewise
import Mathlib.Data.Finset.Filter
import Idealize.ShloMosaic.PureOps.Ideal
import Idealize.ShloMosaic.PureOps.Ideal.Laws
import Idealize.ShloMosaic.Lib.ValueIdx
import Idealize.ShloMosaic.Lib.ValueIdxRank1
import Idealize.ShloMosaic.Lib.StableHlo.Predicate
import proofs.«412725_j14448269984048_2_alg».proof.Proof.Bridge

noncomputable section

namespace Cert.RefOps

open Idealize.ShloMosaic Idealize.ShloMosaic.ValueIdx

theorem ix2_eq {A B : ℕ} {i : (⟨2, ![A, B]⟩ : Shape).Idx} {a : Fin A} {b : Fin B}
    (h0 : (i 0).val = a.val) (h1 : (i 1).val = b.val) : i = ix2 a b :=
  (eq_ix2 i).trans (congrArg₂ ix2 (Fin.ext h0) (Fin.ext h1))

/-- A word below 2 ^ 31 is not negative read signed, so the wrap of negative words keeps it. -/
theorem wrap_keeps (w a : BitVec 32) (h : w.toNat < 2 ^ 31) :
    Scalar.select (IntOp.cmpi .slt w 0#32) a w = w := by
  have hn : ¬ IntOp.cmpi .slt w 0#32 = 1#1 := by
    rw [StableHlo.Predicate.slt_iff_toNat h (by decide)]
    exact Nat.not_lt_zero _
  rw [eq_zero_of_ne_one hn, select_zero]

theorem wrap_at {ι : Type} (x : ι → BitVec 32) {i e : ι} (a : BitVec 32) (hi : i = e) (h : (x e).toNat < 2 ^ 31) :
    Scalar.select (IntOp.cmpi .slt (x i) 0#32) a (x i) = x e := by
  subst hi; exact wrap_keeps _ _ h

/-- A word below N, read signed and clamped into the N rows, is the coordinate it names. -/
theorem clamp_coord (N : ℕ) [NeZero N] (hN : N ≤ 2 ^ 31) (w : BitVec 32) (h : w.toNat < N) :
    min w.toInt.toNat (N - 1) = (Bridge.coord N w).val := by
  rw [Bridge.coord_val N w h, BitVec.toInt_eq_toNat_of_lt (by omega), Int.toNat_natCast]
  omega

theorem slab_at (W : (⟨3, ![2, 128, 128]⟩ : Shape).Idx → EReal) (l : Fin 2) (k j : Fin 128)
    (i : (⟨3, ![2, 128, 128]⟩ : Shape).Idx) (h0 : (i 0).val = l.val)
    (h1 : (i 1).val = (k.val * 128 + j.val) / 128 % 128) (h2 : (i 2).val = (k.val * 128 + j.val) % 128) :
    W i = Bridge.slab W l k j := by
  have hk := k.isLt; have hj := j.isLt
  show W i = W (ix3 l k j)
  refine congrArg W (funext fun a => Fin.ext ?_)
  match a with
  | ⟨0, _⟩ => exact h0
  | ⟨1, _⟩ => show (i 1).val = k.val; omega
  | ⟨2, _⟩ => show (i 2).val = j.val; omega

theorem row_at (b : (⟨2, ![2, 128]⟩ : Shape).Idx → EReal) (l : Fin 2) (j : Fin 128) (i : (⟨2, ![2, 128]⟩ : Shape).Idx)
    (h0 : (i 0).val = l.val) (h1 : (i 1).val = j.val % 128) : b i = Bridge.layerRow b l j :=
  congrArg b (ix2_eq h0 (h1.trans (Nat.mod_eq_of_lt j.isLt)))

/-- A sum of products along row r of A and column j of W is the matrix product's entry (r, j). -/
theorem mm_at {R K D : ℕ} (A : (⟨2, ![R, K]⟩ : Shape).Idx → EReal) (W : Fin K → Fin D → EReal) (r : Fin R) (j : Fin D)
    (li : Fin K → (⟨2, ![R, K]⟩ : Shape).Idx) (f : Fin K → EReal) (hl : ∀ k, li k = ix2 r k) (hf : ∀ k, f k = W k j) :
    ∑ k, A (li k) * f k = Spec.mm (Bridge.mat A) W r j := by
  unfold Spec.mm Bridge.mat
  exact Finset.sum_congr rfl fun k _ => congrArg₂ (· * ·) (congrArg A (hl k)) (hf k)

/-- An entry over the root of its row's sum of squares, bounded below, is the unit-length row's entry. -/
theorem l2n_at {R D : ℕ} (A : (⟨2, ![R, D]⟩ : Shape).Idx → EReal) (r : Fin R) (j : Fin D)
    (li : Fin D → (⟨2, ![R, D]⟩ : Shape).Idx) (hl : ∀ k, li k = ix2 r k) :
    Ideal.div (A (ix2 r j)) (max (Ideal.sqrt (Ideal.ofBits .f32 0#32 + ∑ k, A (li k) * A (li k))) Spec.eps)
      = Spec.l2n (Bridge.mat A) r j := by
  unfold Spec.l2n Bridge.mat
  rw [Ideal.ofBits_zero_f32, zero_add, Finset.sum_congr rfl fun k _ => congrArg (fun i => A i * A i) (hl k)]

section Rows

theorem one_not_mem_zero : ¬ (1 : Fin 2) ∈ ([0] : List (Fin 2)) := by decide

abbrev rowsGather (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

abbrev rowsScatter (N E C : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {α : Type} {N E C : ℕ} (wg : GatherDims.WF ⟨2, ![N, C]⟩ ⟨2, ![E, 1]⟩ ⟨2, ![E, C]⟩ [1] [0] [] [0] [] 1 ![1, C])
  (ws : ScatterDims.WF ⟨2, ![N, C]⟩ ⟨2, ![E, 1]⟩ ⟨2, ![E, C]⟩ [1] [0] [0] 1) (idx : IVec ⟨2, ![E, 1]⟩ 32) (e : Fin E) (c : Fin C)

theorem rowsGather_axis0 : ((rowsGather N E C wg).operandIdx (ix2 e c) idx 0).val = min (idx (ix2 e 0)).toInt.toNat (N - 1) := by
  show (rowsGather N E C wg).start (ix2 e c) idx 0 + (rowsGather N E C wg).batchCoord (ix2 e c) 0 + (rowsGather N E C wg).offCoord (ix2 e c) 0 = _
  rw [GatherDims.batchCoord_eq_zero _ _ _ List.not_mem_nil,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsGather N E C wg).startIndexMap from List.mem_singleton.mpr rfl)]
  have hsi : (rowsGather N E C wg).siIdx (ix2 e c) ⟨List.idxOf (0 : Fin 2) (rowsGather N E C wg).startIndexMap,
      List.idxOf_lt_length_iff.2 (List.mem_singleton.mpr rfl)⟩ = ix2 e 0 := ix2_eq rfl rfl
  rw [hsi]
  rfl

theorem rowsGather_axis1 : ((rowsGather N E C wg).operandIdx (ix2 e c) idx 1).val = c.val := by
  show (rowsGather N E C wg).start (ix2 e c) idx 1 + (rowsGather N E C wg).batchCoord (ix2 e c) 1 + (rowsGather N E C wg).offCoord (ix2 e c) 1 = _
  rw [GatherDims.batchCoord_eq_zero _ _ _ List.not_mem_nil, Nat.add_zero]
  have hs : (rowsGather N E C wg).start (ix2 e c) idx 1 = 0 := by
    unfold GatherDims.start
    rw [dif_neg (show ¬ (1 : Fin 2) ∈ (rowsGather N E C wg).startIndexMap from one_not_mem_zero)]
  rw [hs, Nat.zero_add]
  unfold GatherDims.offCoord
  rw [dif_pos ((GatherDims.mem_sKept _ _).mpr ⟨one_not_mem_zero, List.not_mem_nil⟩ : (1 : Fin 2) ∈ (rowsGather N E C wg).sKept)]
  rfl

/-- Whole rows read at row words in range: result row e is the row its word names. -/
theorem gather_rows [NeZero N] (hN : N ≤ 2 ^ 31) (x : (⟨2, ![N, C]⟩ : Shape).Idx → α) (hin : (idx (ix2 e 0)).toNat < N) :
    Host.gather (rowsGather N E C wg) x idx (ix2 e c) = x (ix2 (Bridge.coord N (idx (ix2 e 0))) c) := by
  unfold Host.gather
  exact congrArg x (ix2_eq ((rowsGather_axis0 wg idx e c).trans (clamp_coord N hN _ hin)) (rowsGather_axis1 wg idx e c))

theorem rowsScatter_start0 : (rowsScatter N E C ws).start (ix2 e c) idx 0 = (idx (ix2 e 0)).toInt := by
  unfold ScatterDims.start
  rw [dif_pos (show (0 : Fin 2) ∈ (rowsScatter N E C ws).scatterDimsToOperandDims from List.mem_singleton.mpr rfl)]
  have hsi : (rowsScatter N E C ws).siIdx (ix2 e c) ⟨List.idxOf (0 : Fin 2) (rowsScatter N E C ws).scatterDimsToOperandDims,
      List.idxOf_lt_length_iff.2 (List.mem_singleton.mpr rfl)⟩ = ix2 e 0 := ix2_eq rfl rfl
  rw [hsi]

theorem rowsScatter_start1 : (rowsScatter N E C ws).start (ix2 e c) idx 1 = 0 := by
  unfold ScatterDims.start
  rw [dif_neg (show ¬ (1 : Fin 2) ∈ (rowsScatter N E C ws).scatterDimsToOperandDims from one_not_mem_zero)]

theorem zero_not_mem_kept : ¬ (0 : Fin 2) ∈ (rowsScatter N E C ws).sKept := by
  intro h
  exact (List.mem_filter.mp h).2 |> fun h' => by simp at h'

theorem one_mem_kept : (1 : Fin 2) ∈ (rowsScatter N E C ws).sKept :=
  List.mem_filter.mpr ⟨List.mem_finRange _, by simpa using one_not_mem_zero⟩

theorem rowsScatter_window0 : (rowsScatter N E C ws).window (ix2 e c) 0 = 0 := by
  unfold ScatterDims.window
  rw [dif_neg (zero_not_mem_kept ws)]

theorem rowsScatter_window1 : (rowsScatter N E C ws).window (ix2 e c) 1 = c.val := by
  unfold ScatterDims.window
  rw [dif_pos (one_mem_kept ws)]
  rfl

theorem rowsScatter_resultIdx (hN : N ≤ 2 ^ 31) (hin : (idx (ix2 e 0)).toNat < N) :
    (rowsScatter N E C ws).resultIdx? (ix2 e c) idx = some (ix2 ⟨(idx (ix2 e 0)).toNat, hin⟩ c) := by
  have hi : (idx (ix2 e 0)).toInt = ((idx (ix2 e 0)).toNat : ℤ) := BitVec.toInt_eq_toNat_of_lt (by omega)
  have hc := c.isLt
  unfold ScatterDims.resultIdx?
  have h : ∀ a, 0 ≤ (rowsScatter N E C ws).start (ix2 e c) idx a + (rowsScatter N E C ws).window (ix2 e c) a ∧
      (rowsScatter N E C ws).start (ix2 e c) idx a + (rowsScatter N E C ws).window (ix2 e c) a < (⟨2, ![N, C]⟩ : Shape).size a := by
    refine Fin.forall_fin_two.mpr ⟨?_, ?_⟩
    · rw [rowsScatter_start0, rowsScatter_window0, hi]
      refine ⟨by omega, ?_⟩
      show ((idx (ix2 e 0)).toNat : ℤ) + ((0 : ℕ) : ℤ) < (N : ℤ)
      omega
    · rw [rowsScatter_start1, rowsScatter_window1]
      refine ⟨by omega, ?_⟩
      show (0 : ℤ) + ((c.val : ℕ) : ℤ) < (C : ℤ)
      omega
  rw [dif_pos h]
  refine congrArg some (funext fun a => Fin.ext ?_)
  match a with
  | ⟨0, _⟩ =>
    show ((rowsScatter N E C ws).start (ix2 e c) idx 0 + ((rowsScatter N E C ws).window (ix2 e c) 0 : ℕ)).toNat = (idx (ix2 e 0)).toNat
    rw [rowsScatter_start0, rowsScatter_window0, hi]
    omega
  | ⟨1, _⟩ =>
    show ((rowsScatter N E C ws).start (ix2 e c) idx 1 + ((rowsScatter N E C ws).window (ix2 e c) 1 : ℕ)).toNat = c.val
    rw [rowsScatter_start1, rowsScatter_window1]
    omega

/-- Rows added into zeros at row words in range: entry (r, c) is the sum of the updates' column c over the positions whose word names r. -/
theorem scatterAdd_rows [NeZero N] (hN : N ≤ 2 ^ 31) (x : FVec Ideal ⟨2, ![N, C]⟩ .f32) (upd : FVec Ideal ⟨2, ![E, C]⟩ .f32)
    (hx : ∀ i, x i = (0 : EReal)) (hin : ∀ e : Fin E, (idx (ix2 e 0)).toNat < N) (r : Fin N) :
    Host.scatterAdd (F := Ideal) (rowsScatter N E C ws) x idx upd (ix2 r c)
      = ∑ e ∈ Finset.univ.filter (fun e : Fin E => Bridge.coord N (idx (ix2 e 0)) = r), (upd (ix2 e c) : EReal) := by
  show Ideal.hostScatterAdd (rowsScatter N E C ws) x idx upd (ix2 r c) = _
  unfold Ideal.hostScatterAdd
  rw [hx, zero_add, Finset.sum_filter, sum_idx2, Finset.sum_filter]
  refine Finset.sum_congr rfl fun e _ => ?_
  have hv := Bridge.coord_val N _ (hin e)
  have hres : ∀ c' : Fin C, ((rowsScatter N E C ws).resultIdx? (ix2 e c') idx = some (ix2 r c))
      ↔ (Bridge.coord N (idx (ix2 e 0)) = r ∧ c' = c) := by
    intro c'
    rw [rowsScatter_resultIdx ws idx e c' hN (hin e), Option.some_inj]
    constructor
    · intro h
      exact ⟨Fin.ext (hv.trans (congrArg (fun i : (⟨2, ![N, C]⟩ : Shape).Idx => (i 0).val) h)),
        Fin.ext (congrArg (fun i : (⟨2, ![N, C]⟩ : Shape).Idx => (i 1).val) h)⟩
    · rintro ⟨h1, rfl⟩
      exact congrArg (fun a : Fin N => ix2 a c') (Fin.ext (hv.symm.trans (congrArg Fin.val h1)))
  by_cases hr : Bridge.coord N (idx (ix2 e 0)) = r
  · rw [if_pos hr, Finset.sum_congr rfl (fun c' _ => if_congr (hres c') rfl rfl)]
    simp only [hr, true_and]
    rw [Finset.sum_ite_eq' Finset.univ c, if_pos (Finset.mem_univ c)]
  · rw [if_neg hr]
    exact Finset.sum_eq_zero fun c' _ => if_neg fun h => hr ((hres c').mp h).1

end Rows

end Cert.RefOps

end
-- ==== Proof.RefEnds.lean ====
import proofs.«412725_j14448269984048_2_alg».proof.Proof.RefOps
import proofs.«412725_j14448269984048_2_alg».proof.Proof.Gen.ReferenceIdeal.Read
import Idealize.ShloMosaic.Lib.Pipeline.Value

noncomputable section

namespace Cert.RefEnds

open Idealize.ShloMosaic Idealize.ShloMosaic.ValueIdx
open Cert.ReferenceIdeal Cert.ReferenceIdeal.Gen Cert.ReferenceIdeal.Read Cert.RefOps

/-- A gather of single entries of a table at (row, column) pairs reads the table at each pair's two words, clamped. -/
theorem gather_pair {α : Type} {R T n w : Nat} (d : GatherDims ⟨2, ![R, T]⟩ ⟨2, ![n, 2]⟩ ⟨1, ![n]⟩)
    (hcoll : d.collapsedSliceDims = [0, 1]) (hob : d.operandBatchingDims = [])
    (hsim : d.startIndexMap = [0, 1]) (hivd : d.indexVectorDim = 1)
    (x : (⟨2, ![R, T]⟩ : Shape).Idx → α) (idx : IVec ⟨2, ![n, 2]⟩ w) (p : Fin n) (hR : 0 < R) (hT : 0 < T) :
    Host.gather d x idx (ix1 p) = x (ix2 ⟨min (idx (ix2 p 0)).toInt.toNat (R - 1), by omega⟩
      ⟨min (idx (ix2 p 1)).toInt.toNat (T - 1), by omega⟩) := by
  unfold Host.gather
  congr 1
  have hb : ∀ a : Fin 2, a ∉ d.operandBatchingDims := fun a => by rw [hob]; exact List.not_mem_nil
  have hk : ∀ a : Fin 2, a ∉ d.sKept := fun a => by
    rw [GatherDims.mem_sKept, hcoll]
    match a with
    | ⟨0, _⟩ => simp
    | ⟨1, _⟩ => simp
  have hm : ∀ a : Fin 2, a ∈ d.startIndexMap := fun a => by
    rw [hsim]
    match a with
    | ⟨0, _⟩ => simp
    | ⟨1, _⟩ => simp
  have hsl : ∀ a : Fin 2, d.sliceSizes a = 1 := fun a => d.slice_collapsed a (by
    rw [hcoll]
    match a with
    | ⟨0, _⟩ => simp
    | ⟨1, _⟩ => simp)
  have hsi : ∀ (c : Fin d.startIndexMap.length) (c' : Fin 2), c.val = c'.val → d.siIdx (ix1 p) c = ix2 p c' := by
    intro c c' hc
    funext b
    match b with
    | ⟨0, _⟩ =>
      unfold GatherDims.siIdx
      rw [dif_neg (by rw [hivd]; simp)]
      unfold GatherDims.siCoord
      apply Fin.ext
      simp only [Fin.val_cast]
      have e : ∀ X : Fin 1, ((ix1 p : (⟨1, ![n]⟩ : Shape).Idx) X).val = p.val := fun X => by
        have hX : X = 0 := Subsingleton.elim _ _
        subst hX; rfl
      exact e _
    | ⟨1, _⟩ =>
      unfold GatherDims.siIdx
      rw [dif_pos (by rw [hivd])]
      apply Fin.ext
      exact hc
  funext a
  apply Fin.ext
  simp only [GatherDims.operandIdx, GatherDims.batchCoord_eq_zero _ _ _ (hb a), GatherDims.offCoord_eq_zero _ _ _ (hk a),
    Nat.add_zero, GatherDims.start, dif_pos (hm a)]
  match a with
  | ⟨0, _⟩ =>
    rw [hsi _ 0 (by show List.idxOf (0 : Fin 2) d.startIndexMap = 0; rw [hsim]; simp)]
    show min _ (R - d.sliceSizes 0) = min _ (R - 1)
    rw [hsl]
  | ⟨1, _⟩ =>
    rw [hsi _ 1 (by show List.idxOf (1 : Fin 2) d.startIndexMap = 1; rw [hsim]; simp)]
    show min _ (T - d.sliceSizes 1) = min _ (T - 1)
    rw [hsl]

theorem concat_cols_left {α : Type} {n : Nat}
    (h : Shape.Concatenates [(⟨2, ![n, 1]⟩ : Shape), ⟨2, ![n, 1]⟩] ⟨2, ![n, 2]⟩ 1)
    (x₁ x₂ : (⟨2, ![n, 1]⟩ : Shape).Idx → α) (p : Fin n) :
    concatenate ⟨2, ![n, 2]⟩ 1 [⟨⟨2, ![n, 1]⟩, x₁⟩, ⟨⟨2, ![n, 1]⟩, x₂⟩] h (ix2 p 0) = x₁ (ix2 p 0) := by
  refine concatenate_pair_apply_left (t := ⟨2, ![n, 2]⟩) (s₁ := ⟨2, ![n, 1]⟩) (s₂ := ⟨2, ![n, 1]⟩) (1 : Fin 2) x₁ x₂ h _ rfl _ ?_
  intro b
  match b with
  | ⟨0, _⟩ => rfl
  | ⟨1, _⟩ => rfl

theorem concat_cols_right {α : Type} {n : Nat}
    (h : Shape.Concatenates [(⟨2, ![n, 1]⟩ : Shape), ⟨2, ![n, 1]⟩] ⟨2, ![n, 2]⟩ 1)
    (x₁ x₂ : (⟨2, ![n, 1]⟩ : Shape).Idx → α) (p : Fin n) :
    concatenate ⟨2, ![n, 2]⟩ 1 [⟨⟨2, ![n, 1]⟩, x₁⟩, ⟨⟨2, ![n, 1]⟩, x₂⟩] h (ix2 p 1) = x₂ (ix2 p 0) := by
  refine concatenate_pair_apply_right (t := ⟨2, ![n, 2]⟩) (s₁ := ⟨2, ![n, 1]⟩) (s₂ := ⟨2, ![n, 1]⟩) (1 : Fin 2) x₁ x₂ h _ rfl rfl _ ?_ rfl
  intro b hb
  match b with
  | ⟨0, _⟩ => rfl
  | ⟨1, _⟩ => exact absurd rfl hb

theorem norm_data (x0 : S100000x128.Idx → EReal) :
    Bridge.mat (val_main_v4 (F := Ideal) x0) = Spec.l2n (Bridge.mat x0) := by
  funext r j
  show val_main_v4 (F := Ideal) x0 (ix2 r j) = _
  rw [val_main_v4_apply, val_main_v3_apply, val_main_v2_apply, val_main_v0_apply,
    val_main_call0_v2_apply, val_main_call0_v1_apply, val_main_call0_cst_apply, val_main_v1_apply,
    val_main_cst_apply]
  simp only [val_main_call0_v0_apply, Ideal.mulf_def]
  exact l2n_at _ r j _ fun _ => eq_ix2 _

theorem norm_task (x1 : S512x128.Idx → EReal) :
    Bridge.mat (val_main_v9 (F := Ideal) x1) = Spec.l2n (Bridge.mat x1) := by
  funext r j
  show val_main_v9 (F := Ideal) x1 (ix2 r j) = _
  rw [val_main_v9_apply, val_main_v8_apply, val_main_v7_apply, val_main_v5_apply,
    val_main_call1_v2_apply, val_main_call1_v1_apply, val_main_call1_cst_apply, val_main_v6_apply,
    val_main_cst_0_apply]
  simp only [val_main_call1_v0_apply, Ideal.mulf_def]
  exact l2n_at _ r j _ fun _ => eq_ix2 _

theorem pairs0 (x11 : S2x500000.Idx → BitVec 32) (p : Fin 500000) (h : (x11 (ix2 0 p)).toNat < 100000) :
    val_main_v147 (F := Ideal) x11 (ix2 p 0) = x11 (ix2 0 p) := by
  unfold val_main_v147
  refine (concat_cols_left concatenates_S500000x1_S500000x1_S500000x2_d1 _ _ p).trans ?_
  rw [val_main_v145_apply, val_main_v139_apply, val_main_v136_apply, val_main_v138_apply, val_main_v135_apply,
    val_main_c_16_apply, val_main_v132_apply, val_main_v131_apply]
  exact wrap_at x11 _ (ix2_eq rfl (Nat.mod_eq_of_lt p.isLt)) (by omega)

theorem pairs1 (x11 : S2x500000.Idx → BitVec 32) (p : Fin 500000) (h : (x11 (ix2 1 p)).toNat < 512) :
    val_main_v147 (F := Ideal) x11 (ix2 p 1) = x11 (ix2 1 p) := by
  unfold val_main_v147
  refine (concat_cols_right concatenates_S500000x1_S500000x1_S500000x2_d1 _ _ p).trans ?_
  rw [val_main_v146_apply, val_main_v144_apply, val_main_v141_apply, val_main_v143_apply, val_main_v140_apply,
    val_main_c_18_apply, val_main_v134_apply, val_main_v133_apply]
  exact wrap_at x11 _ (ix2_eq rfl (Nat.mod_eq_of_lt p.isLt)) (by omega)

section
variable (x0 : S100000x128.Idx → EReal) (x1 : S512x128.Idx → EReal) (x2 : S500000.Idx → EReal)
  (x3 x4 x5 x6 : S2x128x128.Idx → EReal) (x7 x8 : S2x128.Idx → EReal) (x9 x10 : S500000.Idx → BitVec 32) (x11 : S2x500000.Idx → BitVec 32)

theorem table_entry (r : Fin 100000) (t : Fin 512) :
    val_main_v130 (F := Ideal) x0 x1 x2 x3 x4 x5 x6 x7 x8 x9 x10 (ix2 r t) = Spec.table (Bridge.mat (val_main_v123 (F := Ideal) x0 x1 x2 x3 x4 x5 x6 x7 x8 x9 x10)) (Bridge.mat (val_main_v128 (F := Ideal) x0 x1 x2 x3 x4 x5 x6 x7 x8 x9 x10)) r t := by
  rw [val_main_v130_apply]
  generalize val_main_v123 (F := Ideal) x0 x1 x2 x3 x4 x5 x6 x7 x8 x9 x10 = XD
  unfold Spec.table Bridge.mat
  refine Finset.sum_congr rfl fun k _ => ?_
  rw [val_main_v129_apply]
  generalize val_main_v128 (F := Ideal) x0 x1 x2 x3 x4 x5 x6 x7 x8 x9 x10 = XT
  have el : lidx_main_v130 (ix2 r t) k = ix2 r k := eq_ix2 _
  have er : idx_main_v129 (ridx_main_v130 (ix2 r t) k) = ix2 t k := eq_ix2 _
  rw [el, er]

theorem gathered (h0 : ∀ n : Fin 500000, (x11 (ix2 0 n)).toNat < 100000) (h1 : ∀ n : Fin 500000, (x11 (ix2 1 n)).toNat < 512)
    (p : Fin 500000) : val_main_v148 (F := Ideal) x0 x1 x2 x3 x4 x5 x6 x7 x8 x9 x10 x11 (ix1 p)
      = Spec.table (Bridge.mat (val_main_v123 (F := Ideal) x0 x1 x2 x3 x4 x5 x6 x7 x8 x9 x10)) (Bridge.mat (val_main_v128 (F := Ideal) x0 x1 x2 x3 x4 x5 x6 x7 x8 x9 x10)) (Bridge.coord 100000 (x11 (ix2 0 p))) (Bridge.coord 512 (x11 (ix2 1 p))) := by
  unfold val_main_v148
  rw [gather_pair gather_S100000x512_S500000x2_S500000_n_01_n_n_01_1_11 rfl rfl rfl rfl _ _ p (by decide) (by decide)]
  have e0 : (⟨min ((val_main_v147 (F := Ideal) x11) (ix2 p 0)).toInt.toNat (100000 - 1), by omega⟩ : Fin 100000)
      = Bridge.coord 100000 (x11 (ix2 0 p)) := Fin.ext (by
    show min _ _ = _
    rw [pairs0 x11 p (h0 p), clamp_coord 100000 (by decide) _ (h0 p)])
  have e1 : (⟨min ((val_main_v147 (F := Ideal) x11) (ix2 p 1)).toInt.toNat (512 - 1), by omega⟩ : Fin 512)
      = Bridge.coord 512 (x11 (ix2 1 p)) := Fin.ext (by
    show min _ _ = _
    rw [pairs1 x11 p (h1 p), clamp_coord 512 (by decide) _ (h1 p)])
  exact (congrArg₂ (fun a b => val_main_v130 (F := Ideal) x0 x1 x2 x3 x4 x5 x6 x7 x8 x9 x10 (ix2 a b)) e0 e1).trans (table_entry x0 x1 x2 x3 x4 x5 x6 x7 x8 x9 x10 _ _)

/-- Entry n of the result is the dot-product table of the last layer's rows at pair n's (row, column). -/
theorem table_read (h0 : ∀ n : Fin 500000, (x11 (ix2 0 n)).toNat < 100000) (h1 : ∀ n : Fin 500000, (x11 (ix2 1 n)).toNat < 512) :
    val_main_v149 (F := Ideal) x0 x1 x2 x3 x4 x5 x6 x7 x8 x9 x10 x11
      = fun i => Spec.table (Bridge.mat (val_main_v123 (F := Ideal) x0 x1 x2 x3 x4 x5 x6 x7 x8 x9 x10)) (Bridge.mat (val_main_v128 (F := Ideal) x0 x1 x2 x3 x4 x5 x6 x7 x8 x9 x10))
          (Bridge.coord 100000 (x11 (ix2 0 (i 0)))) (Bridge.coord 512 (x11 (ix2 1 (i 0)))) := by
  funext i
  have e : idx_main_v149 i = ix1 (i 0) := eq_ix1 _
  rw [val_main_v149_apply, e]
  exact gathered x0 x1 x2 x3 x4 x5 x6 x7 x8 x9 x10 x11 h0 h1 (i 0)

end

end Cert.RefEnds

end
-- ==== Proof.RefLayer0.lean ====
import proofs.«412725_j14448269984048_2_alg».proof.Proof.RefOps
import proofs.«412725_j14448269984048_2_alg».proof.Proof.Gen.ReferenceIdeal.Read

noncomputable section

namespace Cert.RefLayer0

open Idealize.ShloMosaic Idealize.ShloMosaic.ValueIdx
open Cert.ReferenceIdeal Cert.ReferenceIdeal.Gen Cert.ReferenceIdeal.Read Cert.RefOps

section Stages

variable {x0 : S100000x128.Idx → EReal} {x1 : S512x128.Idx → EReal} {x2 : S500000.Idx → EReal}
  {x3 x4 x5 x6 : S2x128x128.Idx → EReal} {x7 x8 : S2x128.Idx → EReal} {x9 x10 : S500000.Idx → BitVec 32}

theorem v19_at (hd : ∀ i, (x9 i).toNat < 100000) (e : Fin 500000) : val_main_v19 (F := Ideal) x9 (ix2 e 0) = x9 (ix1 e) := by
  rw [val_main_v19_apply, val_main_v18_apply, val_main_v15_apply, val_main_v14_apply, val_main_c_apply]
  exact wrap_at x9 _ (eq_ix1 _) (by have := hd (ix1 e); omega)

theorem v34_at (ht : ∀ i, (x10 i).toNat < 512) (e : Fin 500000) : val_main_v34 (F := Ideal) x10 (ix2 e 0) = x10 (ix1 e) := by
  rw [val_main_v34_apply, val_main_v33_apply, val_main_v30_apply, val_main_v29_apply, val_main_c_3_apply]
  exact wrap_at x10 _ (eq_ix1 _) (by have := ht (ix1 e); omega)

theorem v39_at (e : Fin 500000) : val_main_v39 (F := Ideal) x9 (ix2 e 0) = x9 (ix1 e) := by
  rw [val_main_v39_apply]; exact congrArg x9 (eq_ix1 _)

theorem v24_at (e : Fin 500000) : val_main_v24 (F := Ideal) x10 (ix2 e 0) = x10 (ix1 e) := by
  rw [val_main_v24_apply]; exact congrArg x10 (eq_ix1 _)

theorem v13_at (r : Fin 100000) (j : Fin 128) : val_main_v13 (F := Ideal) x0 x5 (ix2 r j)
    = Spec.mm (Bridge.mat (val_main_v4 (F := Ideal) x0)) (Bridge.slab x5 0) r j := by
  rw [val_main_v13_apply]
  exact mm_at _ _ r j _ _ (fun _ => eq_ix2 _) fun k => by
    rw [val_main_v12_apply, val_main_v11_apply]; exact slab_at x5 0 k j _ rfl rfl rfl

theorem v28_at (t : Fin 512) (j : Fin 128) : val_main_v28 (F := Ideal) x1 x6 (ix2 t j)
    = Spec.mm (Bridge.mat (val_main_v9 (F := Ideal) x1)) (Bridge.slab x6 0) t j := by
  rw [val_main_v28_apply]
  exact mm_at _ _ t j _ _ (fun _ => eq_ix2 _) fun k => by
    rw [val_main_v27_apply, val_main_v26_apply]; exact slab_at x6 0 k j _ rfl rfl rfl

theorem v43_at (r : Fin 100000) (j : Fin 128) : val_main_v43 (F := Ideal) x0 x3 (ix2 r j)
    = Spec.mm (Bridge.mat (val_main_v4 (F := Ideal) x0)) (Bridge.slab x3 0) r j := by
  rw [val_main_v43_apply]
  exact mm_at _ _ r j _ _ (fun _ => eq_ix2 _) fun k => by
    rw [val_main_v42_apply, val_main_v41_apply]; exact slab_at x3 0 k j _ rfl rfl rfl

theorem v52_at (t : Fin 512) (j : Fin 128) : val_main_v52 (F := Ideal) x1 x4 (ix2 t j)
    = Spec.mm (Bridge.mat (val_main_v9 (F := Ideal) x1)) (Bridge.slab x4 0) t j := by
  rw [val_main_v52_apply]
  exact mm_at _ _ t j _ _ (fun _ => eq_ix2 _) fun k => by
    rw [val_main_v51_apply, val_main_v50_apply]; exact slab_at x4 0 k j _ rfl rfl rfl

theorem v48_at (r : Fin 100000) (j : Fin 128) : val_main_v48 (F := Ideal) x7 (ix2 r j) = Bridge.layerRow x7 0 j := by
  rw [val_main_v48_apply, val_main_v47_apply, val_main_v46_apply, val_main_v45_apply]; exact row_at x7 0 j _ rfl rfl

theorem v57_at (t : Fin 512) (j : Fin 128) : val_main_v57 (F := Ideal) x8 (ix2 t j) = Bridge.layerRow x8 0 j := by
  rw [val_main_v57_apply, val_main_v56_apply, val_main_v55_apply, val_main_v54_apply]; exact row_at x8 0 j _ rfl rfl

/-- The message to task row t: over the edges at t, the transformed data endpoint times the edge's weight. -/
theorem v25_at (hd : ∀ i, (x9 i).toNat < 100000) (ht : ∀ i, (x10 i).toNat < 512) (t : Fin 512) (j : Fin 128) :
    val_main_v25 (F := Ideal) x0 x2 x5 x9 x10 (ix2 t j)
      = ∑ e ∈ Finset.univ.filter (fun e => Bridge.coords 512 x10 e = t),
          Spec.mm (Bridge.mat (val_main_v4 (F := Ideal) x0)) (Bridge.slab x5 0) (Bridge.coords 100000 x9 e) j * Bridge.vec x2 e := by
  refine (scatterAdd_rows Facts₀.scatter_S512x128_S500000x1_S500000x128_1_0_0_1_wf _ j (by norm_num) _ _
    (fun i => by rw [val_main_v23_apply, val_main_cst_2_apply, Ideal.ofBits_def, Ideal.ofBits_zero_f32])
    (fun e => by rw [v24_at]; exact ht _) t).trans ?_
  refine Finset.sum_congr (Finset.filter_congr fun e _ => by rw [v24_at]; exact Iff.rfl) fun e _ => ?_
  rw [val_main_v22_apply, Ideal.mulf_def, val_main_v21_apply, val_main_v10_apply]
  refine congrArg₂ (· * ·) ((gather_rows Facts₀.gather_S100000x128_S500000x1_S500000x128_1_0_n_n_0_1_1128_wf
    _ e j (by norm_num) _ (by rw [v19_at hd]; exact hd _)).trans ?_) (congrArg x2 (eq_ix1 _))
  show _ = Spec.mm _ _ (Bridge.coord 100000 (x9 (ix1 e))) j
  rw [v19_at hd, v13_at]

/-- The message to data row r: over the edges at r, the transformed task endpoint times the edge's weight. -/
theorem v40_at (hd : ∀ i, (x9 i).toNat < 100000) (ht : ∀ i, (x10 i).toNat < 512) (r : Fin 100000) (j : Fin 128) :
    val_main_v40 (F := Ideal) x1 x2 x6 x9 x10 (ix2 r j)
      = ∑ e ∈ Finset.univ.filter (fun e => Bridge.coords 100000 x9 e = r),
          Spec.mm (Bridge.mat (val_main_v9 (F := Ideal) x1)) (Bridge.slab x6 0) (Bridge.coords 512 x10 e) j * Bridge.vec x2 e := by
  refine (scatterAdd_rows Facts₀.scatter_S100000x128_S500000x1_S500000x128_1_0_0_1_wf _ j (by norm_num) _ _
    (fun i => by rw [val_main_v38_apply, val_main_cst_5_apply, Ideal.ofBits_def, Ideal.ofBits_zero_f32])
    (fun e => by rw [v39_at]; exact hd _) r).trans ?_
  refine Finset.sum_congr (Finset.filter_congr fun e _ => by rw [v39_at]; exact Iff.rfl) fun e _ => ?_
  rw [val_main_v37_apply, Ideal.mulf_def, val_main_v36_apply, val_main_v10_apply]
  refine congrArg₂ (· * ·) ((gather_rows Facts₀.gather_S512x128_S500000x1_S500000x128_1_0_n_n_0_1_1128_wf
    _ e j (by norm_num) _ (by rw [v34_at ht]; exact ht _)).trans ?_) (congrArg x2 (eq_ix1 _))
  show _ = Spec.mm _ _ (Bridge.coord 512 (x10 (ix1 e))) j
  rw [v34_at ht, v28_at]

theorem v65_at (r : Fin 100000) (j : Fin 128) : val_main_v65 (F := Ideal) x0 x1 x2 x3 x6 x7 x9 x10 (ix2 r j)
    = Spec.l2n (Bridge.mat (val_main_v59 (F := Ideal) x0 x1 x2 x3 x6 x7 x9 x10)) r j := by
  rw [val_main_v65_apply, Ideal.hostDivf_def, val_main_v64_apply, val_main_v63_apply, Ideal.maximumf_def, val_main_v61_apply,
    Ideal.hostUnary_sqrt_def, val_main_call4_v2_apply, val_main_call4_v1_apply, val_main_call4_cst_apply, val_main_v62_apply,
    val_main_cst_6_apply, Ideal.ofBits_def, Ideal.ofBits_def]
  simp only [val_main_call4_v0_apply, Ideal.mulf_def]
  exact l2n_at _ r j _ fun _ => eq_ix2 _

theorem v70_at (t : Fin 512) (j : Fin 128) : val_main_v70 (F := Ideal) x0 x1 x2 x4 x5 x8 x9 x10 (ix2 t j)
    = Spec.l2n (Bridge.mat (val_main_v60 (F := Ideal) x0 x1 x2 x4 x5 x8 x9 x10)) t j := by
  rw [val_main_v70_apply, Ideal.hostDivf_def, val_main_v69_apply, val_main_v68_apply, Ideal.maximumf_def, val_main_v66_apply,
    Ideal.hostUnary_sqrt_def, val_main_call5_v2_apply, val_main_call5_v1_apply, val_main_call5_cst_apply, val_main_v67_apply,
    val_main_cst_7_apply, Ideal.ofBits_def, Ideal.ofBits_def]
  simp only [val_main_call5_v0_apply, Ideal.mulf_def]
  exact l2n_at _ t j _ fun _ => eq_ix2 _

end Stages

variable (x0 : S100000x128.Idx → EReal) (x1 : S512x128.Idx → EReal) (x2 : S500000.Idx → EReal)
  (x3 x4 x5 x6 : S2x128x128.Idx → EReal) (x7 x8 : S2x128.Idx → EReal) (x9 x10 : S500000.Idx → BitVec 32)

theorem data_layer0 (hd : ∀ i, (x9 i).toNat < 100000) (ht : ∀ i, (x10 i).toNat < 512) :
    Bridge.mat (val_main_v65 (F := Ideal) x0 x1 x2 x3 x6 x7 x9 x10)
      = Spec.edgeData true (Bridge.coords 100000 x9) (Bridge.coords 512 x10) (Bridge.vec x2)
          (Bridge.mat (val_main_v4 (F := Ideal) x0)) (Bridge.mat (val_main_v9 (F := Ideal) x1))
          (Bridge.slab x3 0) (Bridge.slab x6 0) (Bridge.layerRow x7 0) :=
  (funext fun r => funext fun j => v65_at r j).trans (congrArg Spec.l2n (funext fun r => funext fun j => by
    show val_main_v59 (F := Ideal) x0 x1 x2 x3 x6 x7 x9 x10 (ix2 r j) = _
    rw [val_main_v59_apply, Ideal.maximumf_def, val_main_call2_v0_apply, val_main_call2_cst_apply, Ideal.ofBits_def,
      Ideal.ofBits_zero_f32, val_main_v49_apply, val_main_v44_apply, Ideal.addf_def, Ideal.addf_def, v43_at,
      v40_at hd ht, v48_at]
    unfold Spec.actf
    rw [if_pos rfl]))

theorem task_layer0 (hd : ∀ i, (x9 i).toNat < 100000) (ht : ∀ i, (x10 i).toNat < 512) :
    Bridge.mat (val_main_v70 (F := Ideal) x0 x1 x2 x4 x5 x8 x9 x10)
      = Spec.edgeTask true (Bridge.coords 100000 x9) (Bridge.coords 512 x10) (Bridge.vec x2)
          (Bridge.mat (val_main_v4 (F := Ideal) x0)) (Bridge.mat (val_main_v9 (F := Ideal) x1))
          (Bridge.slab x4 0) (Bridge.slab x5 0) (Bridge.layerRow x8 0) :=
  (funext fun t => funext fun j => v70_at t j).trans (congrArg Spec.l2n (funext fun t => funext fun j => by
    show val_main_v60 (F := Ideal) x0 x1 x2 x4 x5 x8 x9 x10 (ix2 t j) = _
    rw [val_main_v60_apply, Ideal.maximumf_def, val_main_call3_v0_apply, val_main_call3_cst_apply, Ideal.ofBits_def,
      Ideal.ofBits_zero_f32, val_main_v58_apply, val_main_v53_apply, Ideal.addf_def, Ideal.addf_def, v52_at,
      v25_at hd ht, v57_at]
    unfold Spec.actf
    rw [if_pos rfl]))

end Cert.RefLayer0

end
-- ==== Proof.RefLayer1.lean ====
import proofs.«412725_j14448269984048_2_alg».proof.Proof.RefOps
import proofs.«412725_j14448269984048_2_alg».proof.Proof.Gen.ReferenceIdeal.Read

noncomputable section

namespace Cert.RefLayer1

open Idealize.ShloMosaic Idealize.ShloMosaic.ValueIdx
open Cert.ReferenceIdeal Cert.ReferenceIdeal.Gen Cert.ReferenceIdeal.Read Cert.RefOps

section Stages

variable {x0 : S100000x128.Idx → EReal} {x1 : S512x128.Idx → EReal} {x2 : S500000.Idx → EReal}
  {x3 x4 x5 x6 : S2x128x128.Idx → EReal} {x7 x8 : S2x128.Idx → EReal} {x9 x10 : S500000.Idx → BitVec 32}

theorem v79_at (hd : ∀ i, (x9 i).toNat < 100000) (e : Fin 500000) : val_main_v79 (F := Ideal) x9 (ix2 e 0) = x9 (ix1 e) := by
  rw [val_main_v79_apply, val_main_v78_apply, val_main_v75_apply, val_main_v74_apply, val_main_c_8_apply]
  exact wrap_at x9 _ (eq_ix1 _) (by have := hd (ix1 e); omega)

theorem v94_at (ht : ∀ i, (x10 i).toNat < 512) (e : Fin 500000) : val_main_v94 (F := Ideal) x10 (ix2 e 0) = x10 (ix1 e) := by
  rw [val_main_v94_apply, val_main_v93_apply, val_main_v90_apply, val_main_v89_apply, val_main_c_11_apply]
  exact wrap_at x10 _ (eq_ix1 _) (by have := ht (ix1 e); omega)

theorem v99_at (e : Fin 500000) : val_main_v99 (F := Ideal) x9 (ix2 e 0) = x9 (ix1 e) := by
  rw [val_main_v99_apply]; exact congrArg x9 (eq_ix1 _)

theorem v84_at (e : Fin 500000) : val_main_v84 (F := Ideal) x10 (ix2 e 0) = x10 (ix1 e) := by
  rw [val_main_v84_apply]; exact congrArg x10 (eq_ix1 _)

theorem v73_at (r : Fin 100000) (j : Fin 128) : val_main_v73 (F := Ideal) x0 x1 x2 x3 x5 x6 x7 x9 x10 (ix2 r j)
    = Spec.mm (Bridge.mat (val_main_v65 (F := Ideal) x0 x1 x2 x3 x6 x7 x9 x10)) (Bridge.slab x5 1) r j := by
  rw [val_main_v73_apply]
  exact mm_at _ _ r j _ _ (fun _ => eq_ix2 _) fun k => by
    rw [val_main_v72_apply, val_main_v71_apply]; exact slab_at x5 1 k j _ rfl rfl rfl

theorem v88_at (t : Fin 512) (j : Fin 128) : val_main_v88 (F := Ideal) x0 x1 x2 x4 x5 x6 x8 x9 x10 (ix2 t j)
    = Spec.mm (Bridge.mat (val_main_v70 (F := Ideal) x0 x1 x2 x4 x5 x8 x9 x10)) (Bridge.slab x6 1) t j := by
  rw [val_main_v88_apply]
  exact mm_at _ _ t j _ _ (fun _ => eq_ix2 _) fun k => by
    rw [val_main_v87_apply, val_main_v86_apply]; exact slab_at x6 1 k j _ rfl rfl rfl

theorem v103_at (r : Fin 100000) (j : Fin 128) : val_main_v103 (F := Ideal) x0 x1 x2 x3 x6 x7 x9 x10 (ix2 r j)
    = Spec.mm (Bridge.mat (val_main_v65 (F := Ideal) x0 x1 x2 x3 x6 x7 x9 x10)) (Bridge.slab x3 1) r j := by
  rw [val_main_v103_apply]
  exact mm_at _ _ r j _ _ (fun _ => eq_ix2 _) fun k => by
    rw [val_main_v102_apply, val_main_v101_apply]; exact slab_at x3 1 k j _ rfl rfl rfl

theorem v112_at (t : Fin 512) (j : Fin 128) : val_main_v112 (F := Ideal) x0 x1 x2 x4 x5 x8 x9 x10 (ix2 t j)
    = Spec.mm (Bridge.mat (val_main_v70 (F := Ideal) x0 x1 x2 x4 x5 x8 x9 x10)) (Bridge.slab x4 1) t j := by
  rw [val_main_v112_apply]
  exact mm_at _ _ t j _ _ (fun _ => eq_ix2 _) fun k => by
    rw [val_main_v111_apply, val_main_v110_apply]; exact slab_at x4 1 k j _ rfl rfl rfl

theorem v108_at (r : Fin 100000) (j : Fin 128) : val_main_v108 (F := Ideal) x7 (ix2 r j) = Bridge.layerRow x7 1 j := by
  rw [val_main_v108_apply, val_main_v107_apply, val_main_v106_apply, val_main_v105_apply]; exact row_at x7 1 j _ rfl rfl

theorem v117_at (t : Fin 512) (j : Fin 128) : val_main_v117 (F := Ideal) x8 (ix2 t j) = Bridge.layerRow x8 1 j := by
  rw [val_main_v117_apply, val_main_v116_apply, val_main_v115_apply, val_main_v114_apply]; exact row_at x8 1 j _ rfl rfl

theorem v85_at (hd : ∀ i, (x9 i).toNat < 100000) (ht : ∀ i, (x10 i).toNat < 512) (t : Fin 512) (j : Fin 128) :
    val_main_v85 (F := Ideal) x0 x1 x2 x3 x5 x6 x7 x9 x10 (ix2 t j)
      = ∑ e ∈ Finset.univ.filter (fun e => Bridge.coords 512 x10 e = t),
          Spec.mm (Bridge.mat (val_main_v65 (F := Ideal) x0 x1 x2 x3 x6 x7 x9 x10)) (Bridge.slab x5 1) (Bridge.coords 100000 x9 e) j * Bridge.vec x2 e := by
  refine (scatterAdd_rows Facts₀.scatter_S512x128_S500000x1_S500000x128_1_0_0_1_wf _ j (by norm_num) _ _
    (fun i => by rw [val_main_v83_apply, val_main_cst_10_apply, Ideal.ofBits_def, Ideal.ofBits_zero_f32])
    (fun e => by rw [v84_at]; exact ht _) t).trans ?_
  refine Finset.sum_congr (Finset.filter_congr fun e _ => by rw [v84_at]; exact Iff.rfl) fun e _ => ?_
  rw [val_main_v82_apply, Ideal.mulf_def, val_main_v81_apply, val_main_v10_apply]
  refine congrArg₂ (· * ·) ((gather_rows Facts₀.gather_S100000x128_S500000x1_S500000x128_1_0_n_n_0_1_1128_wf
    _ e j (by norm_num) _ (by rw [v79_at hd]; exact hd _)).trans ?_) (congrArg x2 (eq_ix1 _))
  show _ = Spec.mm _ _ (Bridge.coord 100000 (x9 (ix1 e))) j
  rw [v79_at hd, v73_at]

theorem v100_at (hd : ∀ i, (x9 i).toNat < 100000) (ht : ∀ i, (x10 i).toNat < 512) (r : Fin 100000) (j : Fin 128) :
    val_main_v100 (F := Ideal) x0 x1 x2 x4 x5 x6 x8 x9 x10 (ix2 r j)
      = ∑ e ∈ Finset.univ.filter (fun e => Bridge.coords 100000 x9 e = r),
          Spec.mm (Bridge.mat (val_main_v70 (F := Ideal) x0 x1 x2 x4 x5 x8 x9 x10)) (Bridge.slab x6 1) (Bridge.coords 512 x10 e) j * Bridge.vec x2 e := by
  refine (scatterAdd_rows Facts₀.scatter_S100000x128_S500000x1_S500000x128_1_0_0_1_wf _ j (by norm_num) _ _
    (fun i => by rw [val_main_v98_apply, val_main_cst_13_apply, Ideal.ofBits_def, Ideal.ofBits_zero_f32])
    (fun e => by rw [v99_at]; exact hd _) r).trans ?_
  refine Finset.sum_congr (Finset.filter_congr fun e _ => by rw [v99_at]; exact Iff.rfl) fun e _ => ?_
  rw [val_main_v97_apply, Ideal.mulf_def, val_main_v96_apply, val_main_v10_apply]
  refine congrArg₂ (· * ·) ((gather_rows Facts₀.gather_S512x128_S500000x1_S500000x128_1_0_n_n_0_1_1128_wf
    _ e j (by norm_num) _ (by rw [v94_at ht]; exact ht _)).trans ?_) (congrArg x2 (eq_ix1 _))
  show _ = Spec.mm _ _ (Bridge.coord 512 (x10 (ix1 e))) j
  rw [v94_at ht, v88_at]

theorem v123_at (r : Fin 100000) (j : Fin 128) : val_main_v123 (F := Ideal) x0 x1 x2 x3 x4 x5 x6 x7 x8 x9 x10 (ix2 r j)
    = Spec.l2n (Bridge.mat (val_main_v109 (F := Ideal) x0 x1 x2 x3 x4 x5 x6 x7 x8 x9 x10)) r j := by
  rw [val_main_v123_apply, Ideal.hostDivf_def, val_main_v122_apply, val_main_v121_apply, Ideal.maximumf_def, val_main_v119_apply,
    Ideal.hostUnary_sqrt_def, val_main_call6_v2_apply, val_main_call6_v1_apply, val_main_call6_cst_apply, val_main_v120_apply,
    val_main_cst_14_apply, Ideal.ofBits_def, Ideal.ofBits_def]
  simp only [val_main_call6_v0_apply, Ideal.mulf_def]
  exact l2n_at _ r j _ fun _ => eq_ix2 _

theorem v128_at (t : Fin 512) (j : Fin 128) : val_main_v128 (F := Ideal) x0 x1 x2 x3 x4 x5 x6 x7 x8 x9 x10 (ix2 t j)
    = Spec.l2n (Bridge.mat (val_main_v118 (F := Ideal) x0 x1 x2 x3 x4 x5 x6 x7 x8 x9 x10)) t j := by
  rw [val_main_v128_apply, Ideal.hostDivf_def, val_main_v127_apply, val_main_v126_apply, Ideal.maximumf_def, val_main_v124_apply,
    Ideal.hostUnary_sqrt_def, val_main_call7_v2_apply, val_main_call7_v1_apply, val_main_call7_cst_apply, val_main_v125_apply,
    val_main_cst_15_apply, Ideal.ofBits_def, Ideal.ofBits_def]
  simp only [val_main_call7_v0_apply, Ideal.mulf_def]
  exact l2n_at _ t j _ fun _ => eq_ix2 _

end Stages

variable (x0 : S100000x128.Idx → EReal) (x1 : S512x128.Idx → EReal) (x2 : S500000.Idx → EReal)
  (x3 x4 x5 x6 : S2x128x128.Idx → EReal) (x7 x8 : S2x128.Idx → EReal) (x9 x10 : S500000.Idx → BitVec 32)

theorem data_layer1 (hd : ∀ i, (x9 i).toNat < 100000) (ht : ∀ i, (x10 i).toNat < 512) :
    Bridge.mat (val_main_v123 (F := Ideal) x0 x1 x2 x3 x4 x5 x6 x7 x8 x9 x10)
      = Spec.edgeData false (Bridge.coords 100000 x9) (Bridge.coords 512 x10) (Bridge.vec x2) (Bridge.mat (val_main_v65 (F := Ideal) x0 x1 x2 x3 x6 x7 x9 x10)) (Bridge.mat (val_main_v70 (F := Ideal) x0 x1 x2 x4 x5 x8 x9 x10))
          (Bridge.slab x3 1) (Bridge.slab x6 1) (Bridge.layerRow x7 1) :=
  (funext fun r => funext fun j => v123_at r j).trans (congrArg Spec.l2n (funext fun r => funext fun j => by
    show val_main_v109 (F := Ideal) x0 x1 x2 x3 x4 x5 x6 x7 x8 x9 x10 (ix2 r j) = _
    rw [val_main_v109_apply, val_main_v104_apply, Ideal.addf_def, Ideal.addf_def, v103_at, v100_at hd ht, v108_at]
    unfold Spec.actf
    rw [if_neg Bool.false_ne_true]))

theorem task_layer1 (hd : ∀ i, (x9 i).toNat < 100000) (ht : ∀ i, (x10 i).toNat < 512) :
    Bridge.mat (val_main_v128 (F := Ideal) x0 x1 x2 x3 x4 x5 x6 x7 x8 x9 x10)
      = Spec.edgeTask false (Bridge.coords 100000 x9) (Bridge.coords 512 x10) (Bridge.vec x2) (Bridge.mat (val_main_v65 (F := Ideal) x0 x1 x2 x3 x6 x7 x9 x10)) (Bridge.mat (val_main_v70 (F := Ideal) x0 x1 x2 x4 x5 x8 x9 x10))
          (Bridge.slab x4 1) (Bridge.slab x5 1) (Bridge.layerRow x8 1) :=
  (funext fun t => funext fun j => v128_at t j).trans (congrArg Spec.l2n (funext fun t => funext fun j => by
    show val_main_v118 (F := Ideal) x0 x1 x2 x3 x4 x5 x6 x7 x8 x9 x10 (ix2 t j) = _
    rw [val_main_v118_apply, val_main_v113_apply, Ideal.addf_def, Ideal.addf_def, v112_at, v85_at hd ht, v117_at]
    unfold Spec.actf
    rw [if_neg Bool.false_ne_true]))

end Cert.RefLayer1

end
-- ==== Proof.RefValue.lean ====
import proofs.«412725_j14448269984048_2_alg».proof.Proof.RefEnds
import proofs.«412725_j14448269984048_2_alg».proof.Proof.RefLayer0
import proofs.«412725_j14448269984048_2_alg».proof.Proof.RefLayer1
import proofs.«412725_j14448269984048_2_alg».proof.Proof.Bridge

noncomputable section

namespace Cert.RefValue

open Cert Cert.ReferenceIdeal Cert.ReferenceIdeal.Gen Cert.ReferenceIdeal.Read
open Idealize.ShloMosaic Idealize.ShloMosaic.ValueIdx

theorem ref_value (x0 : S100000x128.Idx → EReal) (x1 : S512x128.Idx → EReal) (x2 : S500000.Idx → EReal)
    (x3 x4 x5 x6 : S2x128x128.Idx → EReal) (x7 x8 : S2x128.Idx → EReal) (x9 x10 : S500000.Idx → BitVec 32)
    (x11 : S2x500000.Idx → BitVec 32) (hadm : Bridge.Admissible x0 x1 x2 x3 x4 x5 x6 x7 x8 x9 x10 x11) :
    val_main_v149 (F := Ideal) x0 x1 x2 x3 x4 x5 x6 x7 x8 x9 x10 x11 = Bridge.edgeResult x0 x1 x2 x3 x4 x5 x6 x7 x8 x9 x10 x11 := by
  rw [RefEnds.table_read x0 x1 x2 x3 x4 x5 x6 x7 x8 x9 x10 x11 hadm.p0_lt hadm.p1_lt]
  funext i
  rw [RefLayer1.data_layer1 x0 x1 x2 x3 x4 x5 x6 x7 x8 x9 x10 hadm.eD_lt hadm.eT_lt,
    RefLayer1.task_layer1 x0 x1 x2 x3 x4 x5 x6 x7 x8 x9 x10 hadm.eD_lt hadm.eT_lt,
    RefLayer0.data_layer0 x0 x1 x2 x3 x6 x7 x9 x10 hadm.eD_lt hadm.eT_lt,
    RefLayer0.task_layer0 x0 x1 x2 x4 x5 x8 x9 x10 hadm.eD_lt hadm.eT_lt,
    RefEnds.norm_data x0, RefEnds.norm_task x1]
  rfl

end Cert.RefValue

end
-- ==== Proof.SpecAlg.lean ====
import proofs.«412725_j14448269984048_2_alg».proof.Proof.Spec
import Mathlib.Data.EReal.Basic
import Mathlib.Data.EReal.Inv
import Mathlib.Algebra.BigOperators.Group.Finset.Basic
import Mathlib.Algebra.BigOperators.Ring.Finset
import Mathlib.Tactic.Positivity

noncomputable section

namespace Cert.Spec

open Idealize.ShloMosaic

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) :
    IsReal (∑ i ∈ s, f i) :=
  Finset.sum_induction f IsReal (fun _ _ => IsReal.add) IsReal.zero h

-- The infinities invert to zero, so a quotient by a non-zero divisor stays real.
theorem IsReal.div {x c : EReal} (hx : IsReal x) (hc : c ≠ 0) : IsReal (Ideal.div x c) := by
  rw [Ideal.div, if_neg hc]
  refine hx.mul ?_
  induction c using EReal.rec with
  | bot => exact ⟨0, EReal.inv_bot⟩
  | top => exact ⟨0, EReal.inv_top⟩
  | coe r => exact ⟨r⁻¹, (EReal.coe_inv r).symm⟩

-- The word of eps denotes 9223372 / 2 ^ 63.
theorem eps_pos : 0 < eps := by
  unfold eps
  simp [Ideal.ofBits, Ideal.ieee]
  rw [← EReal.coe_mul, EReal.coe_pos]
  positivity

theorem isReal_l2n {R D : ℕ} (x : Fin R → Fin D → EReal) (hx : ∀ r j, IsReal (x r j)) (r : Fin R) (j : Fin D) :
    IsReal (l2n x r j) :=
  (hx r j).div (lt_of_lt_of_le eps_pos (le_max_right _ _)).ne'

theorem isReal_mm {R K D : ℕ} (a : Fin R → Fin K → EReal) (w : Fin K → Fin D → EReal)
    (ha : ∀ r k, IsReal (a r k)) (hw : ∀ k j, IsReal (w k j)) (r : Fin R) (j : Fin D) : IsReal (mm a w r j) :=
  IsReal.sum _ _ fun k _ => (ha r k).mul (hw k j)

theorem isReal_actf {R D : ℕ} (act : Bool) (a : Fin R → Fin D → EReal) (ha : ∀ r j, IsReal (a r j))
    (r : Fin R) (j : Fin D) : IsReal (actf act a r j) := by
  unfold actf
  split
  · exact (ha r j).max IsReal.zero
  · exact ha r j

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

-- Among real numbers the factor y k goes through the inner sum, and the edges satisfying p are partitioned by g.
theorem regroup {ι κ : Type*} [Fintype ι] [Fintype κ] [DecidableEq κ] (p : ι → Prop) [DecidablePred p]
    (g : ι → κ) (v : ι → EReal) (y : κ → EReal) (hv : ∀ e, IsReal (v e)) (hy : ∀ k, IsReal (y k)) :
    ∑ k, (∑ e ∈ Finset.univ.filter (fun e => p e ∧ g e = k), v e) * y k
      = ∑ e ∈ Finset.univ.filter p, y (g e) * v e := by
  choose v' hv' using hv
  choose y' hy' using hy
  simp only [hv', hy', ← coe_sum, ← EReal.coe_mul]
  refine congrArg _ ?_
  rw [← Finset.sum_fiberwise (Finset.univ.filter p) g (fun e => y' (g e) * v' e)]
  refine Finset.sum_congr rfl fun k _ => ?_
  rw [Finset.sum_mul, Finset.filter_filter]
  refine Finset.sum_congr rfl fun e he => ?_
  rw [(Finset.mem_filter.mp he).2.2, mul_comm]

section Layers

variable {E R T D : ℕ} (act : Bool) (ed : Fin E → Fin R) (et : Fin E → Fin T) (ev : Fin E → EReal)
  (hev : ∀ e, IsReal (ev e)) (xd : Fin R → Fin D → EReal) (xt : Fin T → Fin D → EReal)
  (Ws Wm : Fin D → Fin D → EReal) (b : Fin D → EReal)

include hev in
theorem denseData_eq_edgeData (hxt : ∀ t j, IsReal (xt t j)) (hW : ∀ p q, IsReal (Wm p q)) :
    denseData act (dense ed et ev) xd xt Ws Wm b = edgeData act ed et ev xd xt Ws Wm b := by
  have h : ∀ r j, mm (dense ed et ev) (mm xt Wm) r j
      = ∑ e ∈ Finset.univ.filter (fun e => ed e = r), mm xt Wm (et e) j * ev e := fun r j =>
    regroup (fun e => ed e = r) et ev (fun t => mm xt Wm t j) hev (fun t => isReal_mm xt Wm hxt hW t j)
  unfold denseData edgeData
  simp only [h]

-- The task side is the data side with the two kinds of rows exchanged (the gathered matrix transposed).
include hev in
theorem denseTask_eq_edgeTask (hxd : ∀ r j, IsReal (xd r j)) (hW : ∀ p q, IsReal (Wm p q)) :
    denseTask act (dense ed et ev) xd xt Ws Wm b = edgeTask act ed et ev xd xt Ws Wm b := by
  have h : (fun t r => dense ed et ev r t) = dense et ed ev := by
    funext t r; exact Finset.sum_congr (Finset.filter_congr fun e _ => and_comm) fun _ _ => rfl
  exact (congrArg (denseData act · xt xd Ws Wm b) h).trans (denseData_eq_edgeData act et ed ev hev xt xd Ws Wm b hxd hW)

include hev in
theorem isReal_edgeData (hxd : ∀ r j, IsReal (xd r j)) (hxt : ∀ t j, IsReal (xt t j))
    (hWs : ∀ p q, IsReal (Ws p q)) (hWm : ∀ p q, IsReal (Wm p q)) (hb : ∀ p, IsReal (b p)) (r : Fin R) (j : Fin D) :
    IsReal (edgeData act ed et ev xd xt Ws Wm b r j) := by
  unfold edgeData
  refine isReal_l2n _ (fun r j => ?_) r j
  refine isReal_actf act _ (fun r j => ?_) r j
  exact ((isReal_mm xd Ws hxd hWs r j).add
    (IsReal.sum _ _ fun e _ => (isReal_mm xt Wm hxt hWm (et e) j).mul (hev e))).add (hb j)

-- One layer: both forms agree on both kinds of rows, and the new rows are real again.
include hev in
theorem layer (Wsd Wst Wmd Wmt : Fin D → Fin D → EReal) (bd bt : Fin D → EReal)
    (hxd : ∀ r j, IsReal (xd r j)) (hxt : ∀ t j, IsReal (xt t j))
    (hWsd : ∀ a b, IsReal (Wsd a b)) (hWst : ∀ a b, IsReal (Wst a b)) (hWmd : ∀ a b, IsReal (Wmd a b))
    (hWmt : ∀ a b, IsReal (Wmt a b)) (hbd : ∀ a, IsReal (bd a)) (hbt : ∀ a, IsReal (bt a)) :
    denseData act (dense ed et ev) xd xt Wsd Wmt bd = edgeData act ed et ev xd xt Wsd Wmt bd
      ∧ denseTask act (dense ed et ev) xd xt Wst Wmd bt = edgeTask act ed et ev xd xt Wst Wmd bt
      ∧ (∀ r j, IsReal (edgeData act ed et ev xd xt Wsd Wmt bd r j))
      ∧ (∀ t j, IsReal (edgeTask act ed et ev xd xt Wst Wmd bt t j)) :=
  ⟨denseData_eq_edgeData act ed et ev hev xd xt Wsd Wmt bd hxt hWmt,
    denseTask_eq_edgeTask act ed et ev hev xd xt Wst Wmd bt hxd hWmd,
    isReal_edgeData act ed et ev hev xd xt Wsd Wmt bd hxd hxt hWsd hWmt hbd,
    isReal_edgeData act et ed ev hev xt xd Wst Wmd bt hxt hxd hWst hWmd hbt⟩

end Layers

theorem denseOut_eq_edgeOut {E R T D N : ℕ} (P : Params D) (hP : P.Real)
    (ed : Fin E → Fin R) (et : Fin E → Fin T) (ev : Fin E → EReal) (hev : ∀ e, IsReal (ev e))
    (gf : Fin R → Fin D → EReal) (hgf : ∀ r j, IsReal (gf r j)) (te : Fin T → Fin D → EReal) (hte : ∀ t j, IsReal (te t j))
    (p0 : Fin N → Fin R) (p1 : Fin N → Fin T) :
    denseOut P ed et ev gf te p0 p1 = edgeOut P ed et ev gf te p0 p1 := by
  obtain ⟨hWsd, hWst, hWmd, hWmt, hbd, hbt⟩ := hP
  obtain ⟨e1d, e1t, h1d, h1t⟩ := layer true ed et ev hev _ _ _ _ _ _ _ _ (isReal_l2n gf hgf) (isReal_l2n te hte)
    (hWsd 0) (hWst 0) (hWmd 0) (hWmt 0) (hbd 0) (hbt 0)
  obtain ⟨e2d, e2t, -, -⟩ := layer false ed et ev hev _ _ _ _ _ _ _ _ h1d h1t
    (hWsd 1) (hWst 1) (hWmd 1) (hWmt 1) (hbd 1) (hbt 1)
  simp only [denseOut, edgeOut, e1d, e1t, e2d, e2t]

end Cert.Spec

end
-- ==== Proof.PreFacts.lean ====
import proofs.«412725_j14448269984048_2_alg».proof.Pre_finite_inputs
import proofs.«412725_j14448269984048_2_alg».proof.Proof.Gen.Pre_finite_inputs
import proofs.«412725_j14448269984048_2_alg».proof.Proof.Bridge
import Idealize.ShloMosaic.Lib.ReduceAll
import Idealize.ShloMosaic.Lib.StableHlo.Predicate
import Idealize.ShloMosaic.Lib.Pipeline.Value

noncomputable section

namespace Cert.PreFacts

open Idealize.ShloMosaic Idealize.ShloMosaic.ValueIdx

instance : Subsingleton (⟨0, ![]⟩ : Shape).Idx := ⟨fun a b => funext fun d => d.elim0⟩

-- On the extended reals |x| = max x (-x) is +∞ exactly at the two infinities.
theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) : Spec.IsReal x := by
  have ht : Ideal.ofBits .f32 0x7F800000#32 = (⊤ : EReal) := by simp [Ideal.ofBits, Ideal.ieee]
  change Ideal.cmp .olt (max x (-x)) (Ideal.ofBits .f32 0x7F800000#32) = 1#1 at h
  rw [ht] at h
  induction x using EReal.rec with
  | bot => simp [Ideal.cmp] at h
  | coe r => exact ⟨r, rfl⟩
  | top => simp [Ideal.cmp] at h

-- A word that is non-negative read signed has the same value read unsigned.
theorem toNat_lt_of_signed (w : BitVec 32) (n : ℕ) (hn : n < 2 ^ 31)
    (h0 : IntOp.cmpi .sge w 0#32 = 1#1) (h1 : IntOp.cmpi .slt w (BitVec.ofNat 32 n) = 1#1) : w.toNat < n := by
  unfold IntOp.cmpi at h0 h1
  rw [StableHlo.Predicate.ofBool_eq_one_iff] at h0 h1
  simp only [BitVec.slt, BitVec.sle, decide_eq_true_eq] at h0 h1
  have h32 := w.isLt
  have hn' : (BitVec.ofNat 32 n).toInt = n := StableHlo.Predicate.toInt_ofNat_small n hn
  rw [hn'] at h1
  have hz : (0#32 : BitVec 32).toInt = 0 := by decide
  rw [hz] at h0
  rw [BitVec.toInt_eq_toNat_cond] at h0 h1
  split at h1 <;> omega

section Arrays

variable {s : Shape} {axes : List (Fin s.rank)}

theorem real_of_all (x : FVec Ideal s .f32) (hb : (⟨0, ![]⟩ : Shape).BroadcastsInDim s ![])
    (hr : s.ReducesTo axes ⟨0, ![]⟩) (h0 : 0 < (⟨0, ![]⟩ : Shape).numel) (init : IVec ⟨0, ![]⟩ 1)
    (h : Host.reduce IntOp.andi (cmpf .olt (Host.absf x) (broadcastInDim s ![] hb (constant ⟨0, ![]⟩ .f32 0x7F800000#32)))
      init hr h0 ix0 = 1#1) (i : s.Idx) : Spec.IsReal (x i) :=
  real_of_abs_lt_top (x i) (Host.reduce_andi_all _ init hr h0 ix0 h i)

theorem lt_of_all (x : IVec s 32) (n : ℕ) (hn : n < 2 ^ 31) (hb : (⟨0, ![]⟩ : Shape).BroadcastsInDim s ![])
    (hr : s.ReducesTo axes ⟨0, ![]⟩) (h0 : 0 < (⟨0, ![]⟩ : Shape).numel) (init init' : IVec ⟨0, ![]⟩ 1)
    (hge : Host.reduce IntOp.andi (cmpi .sge x (broadcastInDim s ![] hb (constantI ⟨0, ![]⟩ 32 0#32))) init hr h0 ix0 = 1#1)
    (hlt : Host.reduce IntOp.andi (cmpi .slt x (broadcastInDim s ![] hb (constantI ⟨0, ![]⟩ 32 (BitVec.ofNat 32 n)))) init' hr h0 ix0 = 1#1)
    (i : s.Idx) : (x i).toNat < n :=
  toNat_lt_of_signed (x i) n hn (Host.reduce_andi_all _ init hr h0 ix0 hge i) (Host.reduce_andi_all _ init' hr h0 ix0 hlt i)

end Arrays

theorem row_apply {α : Type} {N : ℕ} (a : (⟨2, ![2, N]⟩ : Shape).Idx → α) (l : Fin 2) (off : Fin 2 → ℕ)
    (hoff0 : off 0 = l.val) (hoff1 : off 1 = 0)
    (hs : (⟨2, ![2, N]⟩ : Shape).Slices off ⟨2, ![1, N]⟩) (hc : (⟨2, ![1, N]⟩ : Shape).ShapeCasts ⟨1, ![N]⟩) (e : Fin N) :
    shapeCast ⟨1, ![N]⟩ (extractStridedSlice ⟨2, ![1, N]⟩ off a hs) hc (ix1 e) = a (ix2 l e) := by
  refine (shapeCast_dropUnit_apply ![N] _ hc (ix1 e)).trans ?_
  refine extractStridedSlice_apply off a hs _ (ix2 l e) fun b => ?_
  match b with
  | ⟨0, _⟩ => show l.val = off 0 + 0; omega
  | ⟨1, _⟩ => show e.val = off 1 + e.val; omega

theorem row_lt_of_all {N : ℕ} {axes : List (Fin (⟨1, ![N]⟩ : Shape).rank)} (a : IVec ⟨2, ![2, N]⟩ 32) (l : Fin 2) (off : Fin 2 → ℕ)
    (hoff0 : off 0 = l.val) (hoff1 : off 1 = 0)
    (hs : (⟨2, ![2, N]⟩ : Shape).Slices off ⟨2, ![1, N]⟩) (hc : (⟨2, ![1, N]⟩ : Shape).ShapeCasts ⟨1, ![N]⟩)
    (n : ℕ) (hn : n < 2 ^ 31) (hb : (⟨0, ![]⟩ : Shape).BroadcastsInDim ⟨1, ![N]⟩ ![])
    (hr : (⟨1, ![N]⟩ : Shape).ReducesTo axes ⟨0, ![]⟩) (h0 : 0 < (⟨0, ![]⟩ : Shape).numel) (init init' : IVec ⟨0, ![]⟩ 1)
    (hge : Host.reduce IntOp.andi (cmpi .sge (shapeCast ⟨1, ![N]⟩ (extractStridedSlice ⟨2, ![1, N]⟩ off a hs) hc)
      (broadcastInDim ⟨1, ![N]⟩ ![] hb (constantI ⟨0, ![]⟩ 32 0#32))) init hr h0 ix0 = 1#1)
    (hlt : Host.reduce IntOp.andi (cmpi .slt (shapeCast ⟨1, ![N]⟩ (extractStridedSlice ⟨2, ![1, N]⟩ off a hs) hc)
      (broadcastInDim ⟨1, ![N]⟩ ![] hb (constantI ⟨0, ![]⟩ 32 (BitVec.ofNat 32 n)))) init' hr h0 ix0 = 1#1)
    (e : Fin N) : (a (ix2 l e)).toNat < n := by
  have h := lt_of_all _ n hn hb hr h0 init init' hge hlt (ix1 e)
  rwa [row_apply a l off hoff0 hoff1 hs hc e] at h

open Cert.Pre_finite_inputs in
theorem admissible_of_pre
    (a0 : FVec Ideal Cert.Pre_finite_inputs.S100000x128 .f32) (a1 : FVec Ideal Cert.Pre_finite_inputs.S512x128 .f32) (a2 : FVec Ideal Cert.Pre_finite_inputs.S500000 .f32)
    (a3 a4 a5 a6 : FVec Ideal Cert.Pre_finite_inputs.S2x128x128 .f32) (a7 a8 : FVec Ideal Cert.Pre_finite_inputs.S2x128 .f32)
    (a9 a10 : IVec Cert.Pre_finite_inputs.S500000 32) (a11 : IVec Cert.Pre_finite_inputs.S2x500000 32)
    (h : Cert.Pre_finite_inputs.fn (F := Ideal) a0 a1 a2 a3 a4 a5 a6 a7 a8 a9 a10 a11 = (fun _ => 1#1)) :
    Cert.Bridge.Admissible a0 a1 a2 a3 a4 a5 a6 a7 a8 a9 a10 a11 := by
  have e := congrFun h ix0
  simp only [fn, fn_part1, fn_part2, fn_part3, fn_part4, andi, IntOp.andi_eq_one] at e
  obtain ⟨⟨⟨⟨⟨⟨⟨⟨⟨⟨⟨⟨⟨⟨⟨⟨t0, t1⟩, t2⟩, t3⟩, t4⟩, t5⟩, t6⟩, t7⟩, t8⟩, t9⟩, t10⟩, t11⟩, t12⟩, t13⟩, t14⟩, t15⟩, t16⟩ := e
  exact
    { gf_real := real_of_all a0 _ _ _ _ t0
      te_real := real_of_all a1 _ _ _ _ t1
      ev_real := real_of_all a2 _ _ _ _ t2
      Wsd_real := real_of_all a3 _ _ _ _ t3
      Wst_real := real_of_all a4 _ _ _ _ t4
      Wmd_real := real_of_all a5 _ _ _ _ t5
      Wmt_real := real_of_all a6 _ _ _ _ t6
      bd_real := real_of_all a7 _ _ _ _ t7
      bt_real := real_of_all a8 _ _ _ _ t8
      eD_lt := lt_of_all a9 100000 (by norm_num) _ _ _ _ _ t9 t10
      eT_lt := lt_of_all a10 512 (by norm_num) _ _ _ _ _ t11 t12
      p0_lt := row_lt_of_all a11 0 ![0, 0] rfl rfl _ _ 100000 (by norm_num) _ _ _ _ _ t13 t14
      p1_lt := row_lt_of_all a11 1 ![1, 0] rfl rfl _ _ 512 (by norm_num) _ _ _ _ _ t15 t16 }

end Cert.PreFacts

end
-- ==== Proof.lean ====
import proofs.«412725_j14448269984048_2_alg».proof.Defs
import proofs.«412725_j14448269984048_2_alg».proof.Proof.Gen.Kernel
import proofs.«412725_j14448269984048_2_alg».proof.Proof.Gen.KernelIdeal
import proofs.«412725_j14448269984048_2_alg».proof.Proof.Gen.ReferenceIdeal
import proofs.«412725_j14448269984048_2_alg».proof.Proof.Gen.Pre_finite_inputs
import proofs.«412725_j14448269984048_2_alg».proof.Proof.K_RunAll
import proofs.«412725_j14448269984048_2_alg».proof.Proof.KI_Value
import proofs.«412725_j14448269984048_2_alg».proof.Proof.RefValue
import proofs.«412725_j14448269984048_2_alg».proof.Proof.SpecAlg
import proofs.«412725_j14448269984048_2_alg».proof.Proof.PreFacts
import Idealize.ShloMosaic.Adequacy
import Idealize.ShloMosaic.Init

noncomputable section

namespace Cert.Proof

open Idealize.ShloMosaic Idealize.ShloMosaic.TcCoe Idealize.SL.Sem

-- For real entries a factor moves through a finite sum, so gathering the edge weights into a matrix first changes nothing.
theorem dense_eq_edge {gf te ev Wsd Wst Wmd Wmt bd bt eD eT pi}
    (hadm : Bridge.Admissible gf te ev Wsd Wst Wmd Wmt bd bt eD eT pi) :
    Bridge.denseResult gf te ev Wsd Wst Wmd Wmt bd bt eD eT pi = Bridge.edgeResult gf te ev Wsd Wst Wmd Wmt bd bt eD eT pi :=
  funext fun i => congrFun (Spec.denseOut_eq_edgeOut (Bridge.params Wsd Wst Wmd Wmt bd bt)
    ⟨fun _ _ _ => hadm.Wsd_real _, fun _ _ _ => hadm.Wst_real _, fun _ _ _ => hadm.Wmd_real _, fun _ _ _ => hadm.Wmt_real _,
      fun _ _ => hadm.bd_real _, fun _ _ => hadm.bt_real _⟩
    _ _ _ (fun _ => hadm.ev_real _) _ (fun _ _ => hadm.gf_real _) _ (fun _ _ => hadm.te_real _) _ _) (i 0)

theorem frame_k : Cert.frame_Kernel := fun m ρ _ => Cert.Kernel.RunAll.frame m ρ

theorem frame_ki : Cert.frame_KernelIdeal := fun m ρ _ => Cert.KernelIdeal.RunAll.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Gen in
-- The kernel ends at the dense form of its arguments, the reference at the edge form of arguments that agree.
theorem algebraic : Cert.algebraic_KernelIdeal_ReferenceIdeal := by
  intro m ρ m' ρ' hpre hagree
  have hadm := fun c => Cert.PreFacts.admissible_of_pre _ _ _ _ _ _ _ _ _ _ _ _ (hpre c)
  refine ⟨_, (θ_run Cert.KernelIdeal.defs _ _).mono (fun r h c =>
      ⟨(h c _ (RunAll.mem_uc main_v47 (by decide))).trans (Value.kernel_value m c (hadm c)), RunAll.args_kept m r h c⟩)
      (RunAll.run_all m ρ), ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5, h6, h7, h8, h9, h10, h11⟩ := hagree c
  rw [Cert.ReferenceIdeal.Read.val_main_v149_eq, h0, h1, h2, h3, h4, h5, h6, h7, h8, h9, h10, h11]
  exact (Cert.RefValue.ref_value _ _ _ _ _ _ _ _ _ _ _ _ (hadm c)).trans (dense_eq_edge (hadm c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
